-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v106)) (v1 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x512 : Shape := ⟨3, ![16, 64, 512]⟩
abbrev S16x64x4 : Shape := ⟨3, ![16, 64, 4]⟩
abbrev S16x64 : Shape := ⟨2, ![16, 64]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S18x64 : Shape := ⟨2, ![18, 64]⟩
abbrev S64x64 : Shape := ⟨2, ![64, 64]⟩
abbrev S16x2x512 : Shape := ⟨3, ![16, 2, 512]⟩
abbrev S_ : Shape := ⟨0, ![]⟩
abbrev S16x1x512 : Shape := ⟨3, ![16, 1, 512]⟩
abbrev S16x512 : Shape := ⟨2, ![16, 512]⟩

class Facts : Prop where
  bcast_S_S16x64x512 : S_.BroadcastsInDim S16x64x512 (![] : Fin 0 → Fin S16x64x512.rank)
  reducesTo_S16x64x512_S_d0_1_2 : S16x64x512.ReducesTo [0, 1, 2] S_
  h_S_ : 0 < S_.numel
  bcast_S_S16x64x4 : S_.BroadcastsInDim S16x64x4 (![] : Fin 0 → Fin S16x64x4.rank)
  reducesTo_S16x64x4_S_d0_1_2 : S16x64x4.ReducesTo [0, 1, 2] S_
  bcast_S_S16x64 : S_.BroadcastsInDim S16x64 (![] : Fin 0 → Fin S16x64.rank)
  reducesTo_S16x64_S_d0_1 : S16x64.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S18x64 : S_.BroadcastsInDim S18x64 (![] : Fin 0 → Fin S18x64.rank)
  reducesTo_S18x64_S_d0_1 : S18x64.ReducesTo [0, 1] S_
  bcast_S_S64x64 : S_.BroadcastsInDim S64x64 (![] : Fin 0 → Fin S64x64.rank)
  reducesTo_S64x64_S_d0_1 : S64x64.ReducesTo [0, 1] S_
  slices_S16x2x512_S16x1x512_0_0_0 : S16x2x512.Slices ![0, 0, 0] S16x1x512
  shapeCasts_S16x1x512_S16x512 : S16x1x512.ShapeCasts S16x512
  bcast_S_S16x512 : S_.BroadcastsInDim S16x512 (![] : Fin 0 → Fin S16x512.rank)
  reducesTo_S16x512_S_d0_1 : S16x512.ReducesTo [0, 1] S_

variable [Facts]

def fn_part8 {F : FTy → Type} [FloatOps F] (main_v134 : IVec S_ 1) (main_v136 : IVec S16x512 32) (main_c_52 : IVec S_ 32) : IVec S_ 1 :=
  let main_v137 : IVec S16x512 32 := broadcastInDim S16x512 ![] bcast_S_S16x512 main_c_52
  let main_v138 : IVec S16x512 1 := cmpi .slt main_v136 main_v137
  let main_c_53 : IVec S_ 1 := constantI S_ 1 1#1
  let main_v139 : IVec S_ 1 := (fun x v => Host.reduce IntOp.andi x v reducesTo_S16x512_S_d0_1 h_S_) main_v138 main_c_53
  let main_v140 : IVec S_ 1 := andi main_v134 main_v139
  main_v140

def fn_part7 {F : FTy → Type} [FloatOps F] (main_arg25 : FVec F S8 .f32) (main_arg26 : IVec S16x2x512 32) (main_v118 : IVec S_ 1) (main_v119 : FVec F S64x8 .f32) : IVec S_ 1 :=
  let main_cst_46 : FVec F S_ .f32 := constant S_ .f32 0x7F800000#32
  let main_v120 : FVec F S64x8 .f32 := broadcastInDim S64x8 ![] bcast_S_S64x8 main_cst_46
  let main_v121 : IVec S64x8 1 := cmpf .olt main_v119 main_v120
  let main_c_47 : IVec S_ 1 := constantI S_ 1 1#1
  let main_v122 : IVec S_ 1 := (fun x v => Host.reduce IntOp.andi x v reducesTo_S64x8_S_d0_1 h_S_) main_v121 main_c_47
  let main_v123 : IVec S_ 1 := andi main_v118 main_v122
  let main_v124 : FVec F S8 .f32 := Host.absf main_arg25
  let main_cst_48 : FVec F S_ .f32 := constant S_ .f32 0x7F800000#32
  let main_v125 : FVec F S8 .f32 := broadcastInDim S8 ![] bcast_S_S8 main_cst_48
  let main_v126 : IVec S8 1 := cmpf .olt main_v124 main_v125
  let main_c_49 : IVec S_ 1 := constantI S_ 1 1#1
  let main_v127 : IVec S_ 1 := (fun x v => Host.reduce IntOp.andi x v reducesTo_S8_S_d0 h_S_) main_v126 main_c_49
  let main_v128 : IVec S_ 1 := andi main_v123 main_v127
  let main_v129 : IVec S16x1x512 32 := (extractStridedSlice S16x1x512 ![0, 0, 0] · slices_S16x2x512_S16x1x512_0_0_0) main_arg26
  let main_v130 : IVec S16x512 32 := shapeCast S16x512 main_v129 shapeCasts_S16x1x512_S16x512
  let main_c_50 : IVec S_ 32 := constantI S_ 32 0#32
  let main_v131 : IVec S16x512 32 := broadcastInDim S16x512 ![] bcast_S_S16x512 main_c_50
  let main_v132 : IVec S16x512 1 := cmpi .sge main_v130 main_v131
  let main_c_51 : IVec S_ 1 := constantI S_ 1 1#1
  let main_v133 : IVec S_ 1 := (fun x v => Host.reduce IntOp.andi x v reducesTo_S16x512_S_d0_1 h_S_) main_v132 main_c_51
  let main_v134 : IVec S_ 1 := andi main_v128 main_v133
  let main_v135 : IVec S16x1x512 32 := (extractStridedSlice S16x1x512 ![0, 0, 0] · slices_S16x2x512_S16x1x512_0_0_0) main_arg26
  let main_v136 : IVec S16x512 32 := shapeCast S16x512 main_v135 shapeCasts_S16x1x512_S16x512
  let main_c_52 : IVec S_ 32 := constantI S_ 32 64#32
  fn_part8 (F := F) main_v134 main_v136 main_c_52

def fn_part6 {F : FTy → Type} [FloatOps F] (main_arg21 : FVec F S64 .f32) (main_arg22 : FVec F S64x64 .f32) (main_arg23 : FVec F S64 .f32) (main_arg24 : FVec F S64x8 .f32) (main_arg25 : FVec F S8 .f32) (main_arg26 : IVec S16x2x512 32) (main_v98 : IVec S_ 1) (main_v101 : IVec S18x64 1) (main_c_39 : IVec S_ 1) : IVec S_ 1 :=
  let main_v102 : IVec S_ 1 := (fun x v => Host.reduce IntOp.andi x v reducesTo_S18x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x64 .f32 := Host.absf main_arg22
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64 .f32 := Host.absf main_arg23
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x8 .f32 := Host.absf main_arg24
  fn_part7 (F := F) main_arg25 main_arg26 main_v118 main_v119

def fn_part5 {F : FTy → Type} [FloatOps F] (main_arg18 : FVec F S64x8 .f32) (main_arg19 : FVec F S8 .f32) (main_arg20 : FVec F S18x64 .f32) (main_arg21 : FVec F S64 .f32) (main_arg22 : FVec F S64x64 .f32) (main_arg23 : FVec F S64 .f32) (main_arg24 : FVec F S64x8 .f32) (main_arg25 : FVec F S8 .f32) (main_arg26 : IVec S16x2x512 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x8 .f32 := Host.absf main_arg18
  let main_cst_34 : FVec F S_ .f32 := constant S_ .f32 0x7F800000#32
  let main_v90 : FVec F S64x8 .f32 := broadcastInDim S64x8 ![] bcast_S_S64x8 main_cst_34
  let main_v91 : IVec S64x8 1 := cmpf .olt main_v89 main_v90
  let main_c_35 : IVec S_ 1 := constantI S_ 1 1#1
  let main_v92 : IVec S_ 1 := (fun x v => Host.reduce IntOp.andi x v reducesTo_S64x8_S_d0_1 h_S_) main_v91 main_c_35
  let main_v93 : IVec S_ 1 := andi main_v88 main_v92
  let main_v94 : FVec F S8 .f32 := Host.absf main_arg19
  let main_cst_36 : FVec F S_ .f32 := constant S_ .f32 0x7F800000#32
  let main_v95 : FVec F S8 .f32 := broadcastInDim S8 ![] bcast_S_S8 main_cst_36
  let main_v96 : IVec S8 1 := cmpf .olt main_v94 main_v95
  let main_c_37 : IVec S_ 1 := constantI S_ 1 1#1
  let main_v97 : IVec S_ 1 := (fun x v => Host.reduce IntOp.andi x v reducesTo_S8_S_d0 h_S_) main_v96 main_c_37
  let main_v98 : IVec S_ 1 := andi main_v93 main_v97
  let main_v99 : FVec F S18x64 .f32 := Host.absf main_arg20
  let main_cst_38 : FVec F S_ .f32 := constant S_ .f32 0x7F800000#32
  let main_v100 : FVec F S18x64 .f32 := broadcastInDim S18x64 ![] bcast_S_S18x64 main_cst_38
  let main_v101 : IVec S18x64 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S128 .f32) (main_arg15 : FVec F S128 .f32) (main_arg16 : FVec F S128x64 .f32) (main_arg17 : FVec F S64 .f32) (main_arg18 : FVec F S64x8 .f32) (main_arg19 : FVec F S8 .f32) (main_arg20 : FVec F S18x64 .f32) (main_arg21 : FVec F S64 .f32) (main_arg22 : FVec F S64x64 .f32) (main_arg23 : FVec F S64 .f32) (main_arg24 : FVec F S64x8 .f32) (main_arg25 : FVec F S8 .f32) (main_arg26 : IVec S16x2x512 32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg16
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S64x8 .f32) (main_arg19 : FVec F S8 .f32) (main_arg20 : FVec F S18x64 .f32) (main_arg21 : FVec F S64 .f32) (main_arg22 : FVec F S64x64 .f32) (main_arg23 : FVec F S64 .f32) (main_arg24 : FVec F S64x8 .f32) (main_arg25 : FVec F S8 .f32) (main_arg26 : IVec S16x2x512 32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S64x8 .f32) (main_arg19 : FVec F S8 .f32) (main_arg20 : FVec F S18x64 .f32) (main_arg21 : FVec F S64 .f32) (main_arg22 : FVec F S64x64 .f32) (main_arg23 : FVec F S64 .f32) (main_arg24 : FVec F S64x8 .f32) (main_arg25 : FVec F S8 .f32) (main_arg26 : IVec S16x2x512 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S512x256 .f32) (main_arg5 : FVec F S256 .f32) (main_arg6 : FVec F S256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S64x8 .f32) (main_arg19 : FVec F S8 .f32) (main_arg20 : FVec F S18x64 .f32) (main_arg21 : FVec F S64 .f32) (main_arg22 : FVec F S64x64 .f32) (main_arg23 : FVec F S64 .f32) (main_arg24 : FVec F S64x8 .f32) (main_arg25 : FVec F S8 .f32) (main_arg26 : IVec S16x2x512 32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S16x64x512 .f32) (main_arg1 : FVec F S16x64x4 .f32) (main_arg2 : FVec F S16x64x4 .f32) (main_arg3 : FVec F S16x64 .f32) (main_arg4 : FVec F S512x256 .f32) (main_arg5 : FVec F S256 .f32) (main_arg6 : FVec F S256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S64x8 .f32) (main_arg19 : FVec F S8 .f32) (main_arg20 : FVec F S18x64 .f32) (main_arg21 : FVec F S64 .f32) (main_arg22 : FVec F S64x64 .f32) (main_arg23 : FVec F S64 .f32) (main_arg24 : FVec F S64x8 .f32) (main_arg25 : FVec F S8 .f32) (main_arg26 : IVec S16x2x512 32) : IVec S_ 1 :=
  let main_v0 : FVec F S16x64x512 .f32 := Host.absf main_arg0
  let main_cst : FVec F S_ .f32 := constant S_ .f32 0x7F800000#32
  let main_v1 : FVec F S16x64x512 .f32 := broadcastInDim S16x64x512 ![] bcast_S_S16x64x512 main_cst
  let main_v2 : IVec S16x64x512 1 := cmpf .olt main_v0 main_v1
  let main_c : IVec S_ 1 := constantI S_ 1 1#1
  let main_v3 : IVec S_ 1 := (fun x v => Host.reduce IntOp.andi x v reducesTo_S16x64x512_S_d0_1_2 h_S_) main_v2 main_c
  let main_v4 : FVec F S16x64x4 .f32 := Host.absf main_arg1
  let main_cst_0 : FVec F S_ .f32 := constant S_ .f32 0x7F800000#32
  let main_v5 : FVec F S16x64x4 .f32 := broadcastInDim S16x64x4 ![] bcast_S_S16x64x4 main_cst_0
  let main_v6 : IVec S16x64x4 1 := cmpf .olt main_v4 main_v5
  let main_c_1 : IVec S_ 1 := constantI S_ 1 1#1
  let main_v7 : IVec S_ 1 := (fun x v => Host.reduce IntOp.andi x v reducesTo_S16x64x4_S_d0_1_2 h_S_) main_v6 main_c_1
  let main_v8 : IVec S_ 1 := andi main_v3 main_v7
  let main_v9 : FVec F S16x64x4 .f32 := Host.absf main_arg2
  let main_cst_2 : FVec F S_ .f32 := constant S_ .f32 0x7F800000#32
  let main_v10 : FVec F S16x64x4 .f32 := broadcastInDim S16x64x4 ![] bcast_S_S16x64x4 main_cst_2
  let main_v11 : IVec S16x64x4 1 := cmpf .olt main_v9 main_v10
  let main_c_3 : IVec S_ 1 := constantI S_ 1 1#1
  let main_v12 : IVec S_ 1 := (fun x v => Host.reduce IntOp.andi x v reducesTo_S16x64x4_S_d0_1_2 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S16x64x512 : Shape := ⟨3, ![16, 64, 512]⟩
abbrev S16x64x4 : Shape := ⟨3, ![16, 64, 4]⟩
abbrev S16x64 : Shape := ⟨2, ![16, 64]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S18x64 : Shape := ⟨2, ![18, 64]⟩
abbrev S64x64 : Shape := ⟨2, ![64, 64]⟩
abbrev S16x2x512 : Shape := ⟨3, ![16, 2, 512]⟩
abbrev S16x1x512 : Shape := ⟨3, ![16, 1, 512]⟩
abbrev S16x512 : Shape := ⟨2, ![16, 512]⟩
abbrev S16x512x1 : Shape := ⟨3, ![16, 512, 1]⟩
abbrev S16x512x512 : Shape := ⟨3, ![16, 512, 512]⟩
abbrev S_ : Shape := ⟨0, ![]⟩
abbrev S512x512 : Shape := ⟨2, ![512, 512]⟩
abbrev S1x512x512 : Shape := ⟨3, ![1, 512, 512]⟩
abbrev S16x64x64 : Shape := ⟨3, ![16, 64, 64]⟩
abbrev S1 : Shape := ⟨1, ![1]⟩
abbrev S16 : Shape := ⟨1, ![16]⟩
abbrev S16x1 : Shape := ⟨2, ![16, 1]⟩
abbrev S16x512x3 : Shape := ⟨3, ![16, 512, 3]⟩
abbrev S16x512x2 : Shape := ⟨3, ![16, 512, 2]⟩
abbrev S1x1x64 : Shape := ⟨3, ![1, 1, 64]⟩
abbrev S16x64x1 : Shape := ⟨3, ![16, 64, 1]⟩
abbrev S16x64x64x1 : Shape := ⟨4, ![16, 64, 64, 1]⟩
abbrev S1x1x1x64 : Shape := ⟨4, ![1, 1, 1, 64]⟩
abbrev S16x64x64x64 : Shape := ⟨4, ![16, 64, 64, 64]⟩
abbrev S1024x512 : Shape := ⟨2, ![1024, 512]⟩
abbrev S1x256 : Shape := ⟨2, ![1, 256]⟩
abbrev S1x128 : Shape := ⟨2, ![1, 128]⟩
abbrev S1x64 : Shape := ⟨2, ![1, 64]⟩
abbrev S1x8 : Shape := ⟨2, ![1, 8]⟩
abbrev S1024x8 : Shape := ⟨2, ![1024, 8]⟩
abbrev S256x512 : Shape := ⟨2, ![256, 512]⟩
abbrev S256x8 : Shape := ⟨2, ![256, 8]⟩
abbrev S256x256 : Shape := ⟨2, ![256, 256]⟩
abbrev S256x64 : Shape := ⟨2, ![256, 64]⟩
abbrev S16x64x8 : Shape := ⟨3, ![16, 64, 8]⟩
abbrev S16x64x9 : Shape := ⟨3, ![16, 64, 9]⟩
abbrev S16x64x1x9 : Shape := ⟨4, ![16, 64, 1, 9]⟩
abbrev S16x64x64x9 : Shape := ⟨4, ![16, 64, 64, 9]⟩
abbrev S16x1x64x9 : Shape := ⟨4, ![16, 1, 64, 9]⟩
abbrev S16x64x64x18 : Shape := ⟨4, ![16, 64, 64, 18]⟩
abbrev S16x4096x18 : Shape := ⟨3, ![16, 4096, 18]⟩
abbrev S16x4096x8 : Shape := ⟨3, ![16, 4096, 8]⟩
abbrev S1x4096x18 : Shape := ⟨3, ![1, 4096, 18]⟩
abbrev S1x4096x8 : Shape := ⟨3, ![1, 4096, 8]⟩
abbrev S4096x18 : Shape := ⟨2, ![4096, 18]⟩
abbrev S4096x64 : Shape := ⟨2, ![4096, 64]⟩
abbrev S4096x8 : Shape := ⟨2, ![4096, 8]⟩
abbrev S16x64x64x8 : Shape := ⟨4, ![16, 64, 64, 8]⟩
abbrev S16x8x64x64 : Shape := ⟨4, ![16, 8, 64, 64]⟩
abbrev S1024x64x8 : Shape := ⟨3, ![1024, 64, 8]⟩
abbrev S1x64x8 : Shape := ⟨3, ![1, 64, 8]⟩
abbrev S1x64x64x64 : Shape := ⟨4, ![1, 64, 64, 64]⟩
abbrev S1x64x64 : Shape := ⟨3, ![1, 64, 64]⟩
abbrev S64x64x8 : Shape := ⟨3, ![64, 64, 8]⟩
abbrev S64x64x64 : Shape := ⟨3, ![64, 64, 64]⟩
abbrev S64x64x1 : Shape := ⟨3, ![64, 64, 1]⟩
abbrev S1024x8x64x64 : Shape := ⟨4, ![1024, 8, 64, 64]⟩
abbrev S1x8x64x64 : Shape := ⟨4, ![1, 8, 64, 64]⟩
abbrev S64x8x64x64 : Shape := ⟨4, ![64, 8, 64, 64]⟩
abbrev S1x1x64x64 : Shape := ⟨4, ![1, 1, 64, 64]⟩
abbrev S64x1x64 : Shape := ⟨3, ![64, 1, 64]⟩
abbrev S64x1x64x64 : Shape := ⟨4, ![64, 1, 64, 64]⟩
abbrev S1024x64x64x8 : Shape := ⟨4, ![1024, 64, 64, 8]⟩

abbrev nBuf : Space → Nat
  | .hbm => 170
  | .vmem => 46
  | .smem => 0
  | _ => 0

abbrev hbmTy0_0 (i : Nat) : BufTy := match i % 128 with
  | 0 => ⟨S16x64x512, .f32⟩
  | 1 => ⟨S16x64x4, .f32⟩
  | 2 => ⟨S16x64x4, .f32⟩
  | 3 => ⟨S16x64, .f32⟩
  | 4 => ⟨S512x256, .f32⟩
  | 5 => ⟨S256, .f32⟩
  | 6 => ⟨S256, .f32⟩
  | 7 => ⟨S256, .f32⟩
  | 8 => ⟨S256, .f32⟩
  | 9 => ⟨S256, .f32⟩
  | 10 => ⟨S256x128, .f32⟩
  | 11 => ⟨S128, .f32⟩
  | 12 => ⟨S128, .f32⟩
  | 13 => ⟨S128, .f32⟩
  | 14 => ⟨S128, .f32⟩
  | 15 => ⟨S128, .f32⟩
  | 16 => ⟨S128x64, .f32⟩
  | 17 => ⟨S64, .f32⟩
  | 18 => ⟨S64x8, .f32⟩
  | 19 => ⟨S8, .f32⟩
  | 20 => ⟨S18x64, .f32⟩
  | 21 => ⟨S64, .f32⟩
  | 22 => ⟨S64x64, .f32⟩
  | 23 => ⟨S64, .f32⟩
  | 24 => ⟨S64x8, .f32⟩
  | 25 => ⟨S8, .f32⟩
  | 26 => ⟨S16x2x512, .i32⟩
  | 27 => ⟨S16x1x512, .i32⟩
  | 28 => ⟨S16x512, .i32⟩
  | 29 => ⟨S16x1x512, .i32⟩
  | 30 => ⟨S16x512, .i32⟩
  | 31 => ⟨S16x512x1, .i32⟩
  | 32 => ⟨S16x1x512, .i32⟩
  | 33 => ⟨S16x512x512, .i32⟩
  | 34 => ⟨S16x512x512, .i32⟩
  | 35 => ⟨S16x512x512, .i1⟩
  | 36 => ⟨S_, .i1⟩
  | 37 => ⟨S512x512, .i1⟩
  | 38 => ⟨S512x512, .i32⟩
  | 39 => ⟨S_, .i32⟩
  | 40 => ⟨S512x512, .i32⟩
  | 41 => ⟨S512x512, .i32⟩
  | 42 => ⟨S512x512, .i32⟩
  | 43 => ⟨S512x512, .i1⟩
  | 44 => ⟨S_, .i1⟩
  | 45 => ⟨S512x512, .i1⟩
  | 46 => ⟨S512x512, .i1⟩
  | 47 => ⟨S1x512x512, .i1⟩
  | 48 => ⟨S16x512x512, .i1⟩
  | 49 => ⟨S16x512x512, .i1⟩
  | 50 => ⟨S16x512x512, .i32⟩
  | 51 => ⟨S_, .i32⟩
  | 52 => ⟨S16x512, .i32⟩
  | 53 => ⟨S_, .i32⟩
  | 54 => ⟨S16x512, .i32⟩
  | 55 => ⟨S16x512, .i32⟩
  | 56 => ⟨S_, .i32⟩
  | 57 => ⟨S16x64x64, .i32⟩
  | 58 => ⟨S64, .i32⟩
  | 59 => ⟨S_, .i32⟩
  | 60 => ⟨S1, .i32⟩
  | 61 => ⟨S16x64, .i32⟩
  | 62 => ⟨S16x64x64, .i32⟩
  | 63 => ⟨S16, .i32⟩
  | 64 => ⟨S16x1, .i32⟩
  | 65 => ⟨S_, .i32⟩
  | 66 => ⟨S16x1, .i32⟩
  | 67 => ⟨S16x1, .i1⟩
  | 68 => ⟨S_, .i32⟩
  | 69 => ⟨S16x1, .i32⟩
  | 70 => ⟨S16x1, .i32⟩
  | 71 => ⟨S16x1, .i32⟩
  | 72 => ⟨S_, .i32⟩
  | 73 => ⟨S16x512, .i32⟩
  | 74 => ⟨S16x512, .i1⟩
  | 75 => ⟨S_, .i32⟩
  | 76 => ⟨S16x512, .i32⟩
  | 77 => ⟨S16x512, .i32⟩
  | 78 => ⟨S16x512, .i32⟩
  | 79 => ⟨S_, .i32⟩
  | 80 => ⟨S16x512, .i32⟩
  | 81 => ⟨S16x512, .i1⟩
  | 82 => ⟨S_, .i32⟩
  | 83 => ⟨S16x512, .i32⟩
  | 84 => ⟨S16x512, .i32⟩
  | 85 => ⟨S16x512, .i32⟩
  | 86 => ⟨S16x512, .i32⟩
  | 87 => ⟨S16x512x1, .i32⟩
  | 88 => ⟨S16x512x1, .i32⟩
  | 89 => ⟨S16x512x1, .i32⟩
  | 90 => ⟨S16x512x3, .i32⟩
  | 91 => ⟨S16x64x64, .i32⟩
  | 92 => ⟨S_, .i32⟩
  | 93 => ⟨S16x64, .i32⟩
  | 94 => ⟨S_, .i32⟩
  | 95 => ⟨S16x1, .i32⟩
  | 96 => ⟨S16x1, .i1⟩
  | 97 => ⟨S_, .i32⟩
  | 98 => ⟨S16x1, .i32⟩
  | 99 => ⟨S16x1, .i32⟩
  | 100 => ⟨S16x1, .i32⟩
  | 101 => ⟨S_, .i32⟩
  | 102 => ⟨S16x512, .i32⟩
  | 103 => ⟨S16x512, .i1⟩
  | 104 => ⟨S_, .i32⟩
  | 105 => ⟨S16x512, .i32⟩
  | 106 => ⟨S16x512, .i32⟩
  | 107 => ⟨S16x512, .i32⟩
  | 108 => ⟨S16x512, .i32⟩
  | 109 => ⟨S16x512x1, .i32⟩
  | 110 => ⟨S16x512x1, .i32⟩
  | 111 => ⟨S16x512x2, .i32⟩
  | 112 => ⟨S_, .i32⟩
  | 113 => ⟨S16x512, .i32⟩
  | 114 => ⟨S16x64, .i32⟩
  | 115 => ⟨S_, .i32⟩
  | 116 => ⟨S16x64, .i32⟩
  | 117 => ⟨S16x64, .i32⟩
  | 118 => ⟨S_, .i32⟩
  | 119 => ⟨S16x64, .i32⟩
  | 120 => ⟨S16x64, .i32⟩
  | 121 => ⟨S64, .i32⟩
  | 122 => ⟨S1x1x64, .i32⟩
  | 123 => ⟨S16x64x1, .i32⟩
  | 124 => ⟨S16x64x64, .i32⟩
  | 125 => ⟨S16x64x64, .i32⟩
  | 126 => ⟨S16x64x64, .i1⟩
  | 127 => ⟨S16x64x64, .f32⟩
  | _ => ⟨S16x64x512, .f32⟩

abbrev hbmTy0_1 (i : Nat) : BufTy := match i % 128 with
  | 0 => ⟨S16x64x64x1, .i32⟩
  | 1 => ⟨S1x1x1x64, .i32⟩
  | 2 => ⟨S16x64x64x64, .i32⟩
  | 3 => ⟨S16x64x64x64, .i32⟩
  | 4 => ⟨S16x64x64x64, .i1⟩
  | 5 => ⟨S16x64x64x64, .bf16⟩
  | 6 => ⟨S1024x512, .f32⟩
  | 7 => ⟨S1x256, .f32⟩
  | 8 => ⟨S1x256, .f32⟩
  | 9 => ⟨S1x256, .f32⟩
  | 10 => ⟨S1x256, .f32⟩
  | 11 => ⟨S1x256, .f32⟩
  | 12 => ⟨S1x128, .f32⟩
  | 13 => ⟨S1x128, .f32⟩
  | 14 => ⟨S1x128, .f32⟩
  | 15 => ⟨S1x128, .f32⟩
  | 16 => ⟨S1x128, .f32⟩
  | 17 => ⟨S1x64, .f32⟩
  | 18 => ⟨S1x8, .f32⟩
  | 19 => ⟨S1024x8, .f32⟩
  | 20 => ⟨S16x64x8, .f32⟩
  | 21 => ⟨S_, .f32⟩
  | 22 => ⟨S16x64x4, .f32⟩
  | 23 => ⟨S16x64x4, .f32⟩
  | 24 => ⟨S16x64x1, .f32⟩
  | 25 => ⟨S16x64x9, .f32⟩
  | 26 => ⟨S16x64x1x9, .f32⟩
  | 27 => ⟨S16x64x64x9, .f32⟩
  | 28 => ⟨S16x1x64x9, .f32⟩
  | 29 => ⟨S16x64x64x9, .f32⟩
  | 30 => ⟨S16x64x64x18, .f32⟩
  | 31 => ⟨S16x4096x18, .f32⟩
  | 32 => ⟨S1x64, .f32⟩
  | 33 => ⟨S1x64, .f32⟩
  | 34 => ⟨S1x8, .f32⟩
  | 35 => ⟨S16x4096x8, .f32⟩
  | 36 => ⟨S16x64x64x8, .f32⟩
  | 37 => ⟨S16x8x64x64, .f32⟩
  | 38 => ⟨S1024x64x8, .f32⟩
  | 39 => ⟨S1024x8x64x64, .bf16⟩
  | 40 => ⟨S1024x64x64x8, .bf16⟩
  | 41 => ⟨S1024x64x64x8, .f32⟩
  | _ => ⟨S16x64x512, .f32⟩

abbrev hbmTy (i : Nat) : BufTy := match i / 128 with
  | 0 => hbmTy0_0 i
  | 1 => hbmTy0_1 i
  | _ => ⟨S16x64x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S64x8, .f32⟩
  | .local _ .vmem, ⟨17, _⟩ => ⟨S1x8, .f32⟩
  | .local _ .vmem, ⟨18, _⟩ => ⟨S256x8, .f32⟩
  | .local _ .vmem, ⟨19, _⟩ => ⟨S256x8, .f32⟩
  | .local _ .vmem, ⟨20, _⟩ => ⟨S1x4096x18, .f32⟩
  | .local _ .vmem, ⟨21, _⟩ => ⟨S1x4096x18, .f32⟩
  | .local _ .vmem, ⟨22, _⟩ => ⟨S18x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S64x8, .f32⟩
  | .local _ .vmem, ⟨27, _⟩ => ⟨S1x8, .f32⟩
  | .local _ .vmem, ⟨28, _⟩ => ⟨S1x4096x8, .f32⟩
  | .local _ .vmem, ⟨29, _⟩ => ⟨S1x4096x8, .f32⟩
  | .local _ .vmem, ⟨30, _⟩ => ⟨S1x64x8, .f32⟩
  | .local _ .vmem, ⟨31, _⟩ => ⟨S1x64x8, .f32⟩
  | .local _ .vmem, ⟨32, _⟩ => ⟨S1x64x64x64, .bf16⟩
  | .local _ .vmem, ⟨33, _⟩ => ⟨S1x64x64x64, .bf16⟩
  | .local _ .vmem, ⟨34, _⟩ => ⟨S1x64x64, .f32⟩
  | .local _ .vmem, ⟨35, _⟩ => ⟨S1x64x64, .f32⟩
  | .local _ .vmem, ⟨36, _⟩ => ⟨S64x64x8, .f32⟩
  | .local _ .vmem, ⟨37, _⟩ => ⟨S64x64x8, .f32⟩
  | .local _ .vmem, ⟨38, _⟩ => ⟨S1x8x64x64, .f32⟩
  | .local _ .vmem, ⟨39, _⟩ => ⟨S1x8x64x64, .f32⟩
  | .local _ .vmem, ⟨40, _⟩ => ⟨S1x64x64x64, .bf16⟩
  | .local _ .vmem, ⟨41, _⟩ => ⟨S1x64x64x64, .bf16⟩
  | .local _ .vmem, ⟨42, _⟩ => ⟨S1x64x64, .f32⟩
  | .local _ .vmem, ⟨43, _⟩ => ⟨S1x64x64, .f32⟩
  | .local _ .vmem, ⟨44, _⟩ => ⟨S64x8x64x64, .bf16⟩
  | .local _ .vmem, ⟨45, _⟩ => ⟨S64x8x64x64, .bf16⟩
  | _, _ => ⟨S16x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_v9 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_0 : Ref sig .tc := ⟨.hbm, 44, rfl⟩
abbrev main_call0_v5 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_c_0 : Ref sig .tc := ⟨.hbm, 51, rfl⟩
abbrev main_v15 : Ref sig .tc := ⟨.hbm, 52, rfl⟩
abbrev main_c_1 : Ref sig .tc := ⟨.hbm, 53, rfl⟩
abbrev main_v16 : Ref sig .tc := ⟨.hbm, 54, rfl⟩
abbrev main_v17 : Ref sig .tc := ⟨.hbm, 55, rfl⟩
abbrev main_c_2 : Ref sig .tc := ⟨.hbm, 56, rfl⟩
abbrev main_v18 : Ref sig .tc := ⟨.hbm, 57, rfl⟩
abbrev main_v19 : Ref sig .tc := ⟨.hbm, 58, rfl⟩
abbrev main_c_3 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_c_4 : Ref sig .tc := ⟨.hbm, 65, rfl⟩
abbrev main_v25 : Ref sig .tc := ⟨.hbm, 66, rfl⟩
abbrev main_v26 : Ref sig .tc := ⟨.hbm, 67, rfl⟩
abbrev main_c_5 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_c_6 : Ref sig .tc := ⟨.hbm, 72, rfl⟩
abbrev main_v30 : Ref sig .tc := ⟨.hbm, 73, rfl⟩
abbrev main_v31 : Ref sig .tc := ⟨.hbm, 74, rfl⟩
abbrev main_c_7 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_c_8 : Ref sig .tc := ⟨.hbm, 79, rfl⟩
abbrev main_v35 : Ref sig .tc := ⟨.hbm, 80, rfl⟩
abbrev main_v36 : Ref sig .tc := ⟨.hbm, 81, rfl⟩
abbrev main_c_9 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_10 : Ref sig .tc := ⟨.hbm, 92, rfl⟩
abbrev main_v46 : Ref sig .tc := ⟨.hbm, 93, rfl⟩
abbrev main_c_11 : Ref sig .tc := ⟨.hbm, 94, rfl⟩
abbrev main_v47 : Ref sig .tc := ⟨.hbm, 95, rfl⟩
abbrev main_v48 : Ref sig .tc := ⟨.hbm, 96, rfl⟩
abbrev main_c_12 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_c_13 : Ref sig .tc := ⟨.hbm, 101, rfl⟩
abbrev main_v52 : Ref sig .tc := ⟨.hbm, 102, rfl⟩
abbrev main_v53 : Ref sig .tc := ⟨.hbm, 103, rfl⟩
abbrev main_c_14 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_c_15 : Ref sig .tc := ⟨.hbm, 112, rfl⟩
abbrev main_v61 : Ref sig .tc := ⟨.hbm, 113, rfl⟩
abbrev main_v62 : Ref sig .tc := ⟨.hbm, 114, rfl⟩
abbrev main_c_16 : Ref sig .tc := ⟨.hbm, 115, rfl⟩
abbrev main_v63 : Ref sig .tc := ⟨.hbm, 116, rfl⟩
abbrev main_v64 : Ref sig .tc := ⟨.hbm, 117, rfl⟩
abbrev main_c_17 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem3_1 : DmaSem sig := 45

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x18 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S18x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x4096x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x64x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x64x64x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x64x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x64x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x8x64x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x64x64x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x64x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S64x8x64x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S16x2x512_S16x1x512_0_0_0 : S16x2x512.Slices ![0, 0, 0] S16x1x512
  shapeCasts_S16x1x512_S16x512 : S16x1x512.ShapeCasts S16x512
  slices_S16x2x512_S16x1x512_0_1_0 : S16x2x512.Slices ![0, 1, 0] S16x1x512
  bcast_S16x512_S16x512x1_0_1 : S16x512.BroadcastsInDim S16x512x1 (![0, 1] : Fin 2 → Fin S16x512x1.rank)
  bcast_S16x512_S16x1x512_0_2 : S16x512.BroadcastsInDim S16x1x512 (![0, 2] : Fin 2 → Fin S16x1x512.rank)
  bcast_S16x512x1_S16x512x512_0_1_2 : S16x512x1.BroadcastsInDim S16x512x512 (![0, 1, 2] : Fin 3 → Fin S16x512x512.rank)
  bcast_S16x1x512_S16x512x512_0_1_2 : S16x1x512.BroadcastsInDim S16x512x512 (![0, 1, 2] : Fin 3 → Fin S16x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S16x512x512_0_1_2 : S1x512x512.BroadcastsInDim S16x512x512 (![0, 1, 2] : Fin 3 → Fin S16x512x512.rank)
  natLt_1_32 : 1 < 32
  reducesTo_S16x512x512_S16x512_d2 : S16x512x512.ReducesTo [2] S16x512
  h_S_ : 0 < S_.numel
  bcast_S_S16x512 : S_.BroadcastsInDim S16x512 (![] : Fin 0 → Fin S16x512.rank)
  bcast_S_S16x64x64 : S_.BroadcastsInDim S16x64x64 (![] : Fin 0 → Fin S16x64x64.rank)
  bcast_S_S1 : S_.BroadcastsInDim S1 (![] : Fin 0 → Fin S1.rank)
  bcast_S64_S16x64_1 : S64.BroadcastsInDim S16x64 (![1] : Fin 1 → Fin S16x64.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x512_0_1 : S16x1.BroadcastsInDim S16x512 (![0, 1] : Fin 2 → Fin S16x512.rank)
  concatenates_S16x512x1_S16x512x1_S16x512x1_S16x512x3_d2 : Shape.Concatenates [S16x512x1, S16x512x1, S16x512x1] S16x512x3 2
  bcast_S_S16x64 : S_.BroadcastsInDim S16x64 (![] : Fin 0 → Fin S16x64.rank)
  concatenates_S16x512x1_S16x512x1_S16x512x2_d2 : Shape.Concatenates [S16x512x1, S16x512x1] S16x512x2 2
  bcast_S64_S1x1x64_2 : S64.BroadcastsInDim S1x1x64 (![2] : Fin 1 → Fin S1x1x64.rank)
  bcast_S16x64_S16x64x1_0_1 : S16x64.BroadcastsInDim S16x64x1 (![0, 1] : Fin 2 → Fin S16x64x1.rank)
  bcast_S1x1x64_S16x64x64_0_1_2 : S1x1x64.BroadcastsInDim S16x64x64 (![0, 1, 2] : Fin 3 → Fin S16x64x64.rank)
  bcast_S16x64x1_S16x64x64_0_1_2 : S16x64x1.BroadcastsInDim S16x64x64 (![0, 1, 2] : Fin 3 → Fin S16x64x64.rank)
  bcast_S16x64x64_S16x64x64x1_0_1_2 : S16x64x64.BroadcastsInDim S16x64x64x1 (![0, 1, 2] : Fin 3 → Fin S16x64x64x1.rank)
  bcast_S16x64x64x1_S16x64x64x64_0_1_2_3 : S16x64x64x1.BroadcastsInDim S16x64x64x64 (![0, 1, 2, 3] : Fin 4 → Fin S16x64x64x64.rank)
  bcast_S1x1x1x64_S16x64x64x64_0_1_2_3 : S1x1x1x64.BroadcastsInDim S16x64x64x64 (![0, 1, 2, 3] : Fin 4 → Fin S16x64x64x64.rank)
  shapeCasts_S16x64x512_S1024x512 : S16x64x512.ShapeCasts S1024x512
  shapeCasts_S256_S1x256 : S256.ShapeCasts S1x256
  shapeCasts_S128_S1x128 : S128.ShapeCasts S1x128
  shapeCasts_S64_S1x64 : S64.ShapeCasts S1x64
  shapeCasts_S8_S1x8 : S8.ShapeCasts S1x8
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S256x8_S256x8_0_0 : ∀ a, (![0, 0] : Fin 2 → Nat) a + S256x8.size a ≤ S256x8.size a
  h_S256x8 : 0 < S256x8.numel
  shapeCasts_S1024x8_S16x64x8 : S1024x8.ShapeCasts S16x64x8
  bcast_S_S16x64x4 : S_.BroadcastsInDim S16x64x4 (![] : Fin 0 → Fin S16x64x4.rank)
  concatenates_S16x64x4_S16x64x4_S16x64x1_S16x64x9_d2 : Shape.Concatenates [S16x64x4, S16x64x4, S16x64x1] S16x64x9 2
  bcast_S16x64x9_S16x64x1x9_0_1_3 : S16x64x9.BroadcastsInDim S16x64x1x9 (![0, 1, 3] : Fin 3 → Fin S16x64x1x9.rank)
  bcast_S16x64x1x9_S16x64x64x9_0_1_2_3 : S16x64x1x9.BroadcastsInDim S16x64x64x9 (![0, 1, 2, 3] : Fin 4 → Fin S16x64x64x9.rank)
  bcast_S16x64x9_S16x1x64x9_0_2_3 : S16x64x9.BroadcastsInDim S16x1x64x9 (![0, 2, 3] : Fin 3 → Fin S16x1x64x9.rank)
  bcast_S16x1x64x9_S16x64x64x9_0_1_2_3 : S16x1x64x9.BroadcastsInDim S16x64x64x9 (![0, 1, 2, 3] : Fin 4 → Fin S16x64x64x9.rank)
  concatenates_S16x64x64x9_S16x64x64x9_S16x64x64x18_d3 : Shape.Concatenates [S16x64x64x9, S16x64x64x9] S16x64x64x18 3
  shapeCasts_S16x64x64x18_S16x4096x18 : S16x64x64x18.ShapeCasts S16x4096x18
  inb_S1x4096x18_S1x4096x18_0_0_0 : ∀ a, (![0, 0, 0] : Fin 3 → Nat) a + S1x4096x18.size a ≤ S1x4096x18.size a
  h_S1x4096x18 : 0 < S1x4096x18.numel
  shapeCasts_S1x4096x18_S4096x18 : S1x4096x18.ShapeCasts S4096x18
  inb_S18x64_S18x64_0_0 : ∀ a, (![0, 0] : Fin 2 → Nat) a + S18x64.size a ≤ S18x64.size a
  h_S18x64 : 0 < S18x64.numel
  broadcasts_S1x64_S4096x64 : S1x64.Broadcasts S4096x64
  inb_S64x64_S64x64_0_0 : ∀ a, (![0, 0] : Fin 2 → Nat) a + S64x64.size a ≤ S64x64.size a
  h_S64x64 : 0 < S64x64.numel
  broadcasts_S1x8_S4096x8 : S1x8.Broadcasts S4096x8
  inb_S1x4096x8_S1x4096x8_0_0_0 : ∀ a, (![0, 0, 0] : Fin 3 → Nat) a + S1x4096x8.size a ≤ S1x4096x8.size a
  h_S1x4096x8 : 0 < S1x4096x8.numel
  shapeCasts_S1x4096x8_S4096x8 : S1x4096x8.ShapeCasts S4096x8
  shapeCasts_S4096x8_S1x4096x8 : S4096x8.ShapeCasts S1x4096x8
  shapeCasts_S16x4096x8_S16x64x64x8 : S16x4096x8.ShapeCasts S16x64x64x8
  transposes_S16x64x64x8_S16x8x64x64_0_3_1_2 : S16x64x64x8.Transposes [0, 3, 1, 2] S16x8x64x64
  inb_S1x64x64x64_S1x64x64x64_0_0_0_0 : ∀ a, (![0, 0, 0, 0] : Fin 4 → Nat) a + S1x64x64x64.size a ≤ S1x64x64x64.size a
  h_S1x64x64x64 : 0 < S1x64x64x64.numel
  shapeCasts_S1x64x64x64_S64x64x64 : S1x64x64x64.ShapeCasts S64x64x64
  shapeCasts_S64x64x64_S4096x64 : S64x64x64.ShapeCasts S4096x64
  inb_S1x64x8_S1x64x8_0_0_0 : ∀ a, (![0, 0, 0] : Fin 3 → Nat) a + S1x64x8.size a ≤ S1x64x8.size a
  h_S1x64x8 : 0 < S1x64x8.numel
  shapeCasts_S1x64x8_S64x8 : S1x64x8.ShapeCasts S64x8
  shapeCasts_S4096x8_S64x64x8 : S4096x8.ShapeCasts S64x64x8
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S64x64x1 : S64x64.ShapeCasts S64x64x1
  broadcasts_S64x64x1_S64x64x8 : S64x64x1.Broadcasts S64x64x8
  inb_S64x64x8_S64x64x8_0_0_0 : ∀ a, (![0, 0, 0] : Fin 3 → Nat) a + S64x64x8.size a ≤ S64x64x8.size a
  h_S64x64x8 : 0 < S64x64x8.numel
  inb_S1x8x64x64_S1x1x64x64_0_0_0_0 : ∀ a, (![0, 0, 0, 0] : Fin 4 → Nat) a + S1x1x64x64.size a ≤ S1x8x64x64.size a
  h_S1x1x64x64 : 0 < S1x1x64x64.numel
  shapeCasts_S1x1x64x64_S64x64 : S1x1x64x64.ShapeCasts S64x64
  shapeCasts_S4096x64_S64x64x64 : S4096x64.ShapeCasts S64x64x64
  broadcasts_S64x64x1_S64x64x64 : S64x64x1.Broadcasts S64x64x64
  shapeCasts_S64x64_S64x1x64 : S64x64.ShapeCasts S64x1x64
  broadcasts_S64x1x64_S64x64x64 : S64x1x64.Broadcasts S64x64x64
  inb_S64x8x64x64_S64x1x64x64_0_0_0_0 : ∀ a, (![0, 0, 0, 0] : Fin 4 → Nat) a + S64x1x64x64.size a ≤ S64x8x64x64.size a
  h_S64x1x64x64 : 0 < S64x1x64x64.numel
  shapeCasts_S64x1x64x64_S64x64x64 : S64x1x64x64.ShapeCasts S64x64x64
  shapeCasts_S64x64x64_S64x1x64x64 : S64x64x64.ShapeCasts S64x1x64x64
  packedbf16_S64x8x64x64_S64x1x64x64_0_0_0_0 : (Rect.unit (s := S64x8x64x64) ![0, 0, 0, 0] S64x1x64x64.size inb_S64x8x64x64_S64x1x64x64_0_0_0_0).PackedRows (EltTy.packing .bf16)
  inb_S1x8x64x64_S1x1x64x64_0_1_0_0 : ∀ a, (![0, 1, 0, 0] : Fin 4 → Nat) a + S1x1x64x64.size a ≤ S1x8x64x64.size a
  inb_S64x8x64x64_S64x1x64x64_0_1_0_0 : ∀ a, (![0, 1, 0, 0] : Fin 4 → Nat) a + S64x1x64x64.size a ≤ S64x8x64x64.size a
  packedbf16_S64x8x64x64_S64x1x64x64_0_1_0_0 : (Rect.unit (s := S64x8x64x64) ![0, 1, 0, 0] S64x1x64x64.size inb_S64x8x64x64_S64x1x64x64_0_1_0_0).PackedRows (EltTy.packing .bf16)
  inb_S1x8x64x64_S1x1x64x64_0_2_0_0 : ∀ a, (![0, 2, 0, 0] : Fin 4 → Nat) a + S1x1x64x64.size a ≤ S1x8x64x64.size a
  inb_S64x8x64x64_S64x1x64x64_0_2_0_0 : ∀ a, (![0, 2, 0, 0] : Fin 4 → Nat) a + S64x1x64x64.size a ≤ S64x8x64x64.size a
  packedbf16_S64x8x64x64_S64x1x64x64_0_2_0_0 : (Rect.unit (s := S64x8x64x64) ![0, 2, 0, 0] S64x1x64x64.size inb_S64x8x64x64_S64x1x64x64_0_2_0_0).PackedRows (EltTy.packing .bf16)
  inb_S1x8x64x64_S1x1x64x64_0_3_0_0 : ∀ a, (![0, 3, 0, 0] : Fin 4 → Nat) a + S1x1x64x64.size a ≤ S1x8x64x64.size a
  inb_S64x8x64x64_S64x1x64x64_0_3_0_0 : ∀ a, (![0, 3, 0, 0] : Fin 4 → Nat) a + S64x1x64x64.size a ≤ S64x8x64x64.size a
  packedbf16_S64x8x64x64_S64x1x64x64_0_3_0_0 : (Rect.unit (s := S64x8x64x64) ![0, 3, 0, 0] S64x1x64x64.size inb_S64x8x64x64_S64x1x64x64_0_3_0_0).PackedRows (EltTy.packing .bf16)
  inb_S1x8x64x64_S1x1x64x64_0_4_0_0 : ∀ a, (![0, 4, 0, 0] : Fin 4 → Nat) a + S1x1x64x64.size a ≤ S1x8x64x64.size a
  inb_S64x8x64x64_S64x1x64x64_0_4_0_0 : ∀ a, (![0, 4, 0, 0] : Fin 4 → Nat) a + S64x1x64x64.size a ≤ S64x8x64x64.size a
  packedbf16_S64x8x64x64_S64x1x64x64_0_4_0_0 : (Rect.unit (s := S64x8x64x64) ![0, 4, 0, 0] S64x1x64x64.size inb_S64x8x64x64_S64x1x64x64_0_4_0_0).PackedRows (EltTy.packing .bf16)
  inb_S1x8x64x64_S1x1x64x64_0_5_0_0 : ∀ a, (![0, 5, 0, 0] : Fin 4 → Nat) a + S1x1x64x64.size a ≤ S1x8x64x64.size a
  inb_S64x8x64x64_S64x1x64x64_0_5_0_0 : ∀ a, (![0, 5, 0, 0] : Fin 4 → Nat) a + S64x1x64x64.size a ≤ S64x8x64x64.size a
  packedbf16_S64x8x64x64_S64x1x64x64_0_5_0_0 : (Rect.unit (s := S64x8x64x64) ![0, 5, 0, 0] S64x1x64x64.size inb_S64x8x64x64_S64x1x64x64_0_5_0_0).PackedRows (EltTy.packing .bf16)
  inb_S1x8x64x64_S1x1x64x64_0_6_0_0 : ∀ a, (![0, 6, 0, 0] : Fin 4 → Nat) a + S1x1x64x64.size a ≤ S1x8x64x64.size a
  inb_S64x8x64x64_S64x1x64x64_0_6_0_0 : ∀ a, (![0, 6, 0, 0] : Fin 4 → Nat) a + S64x1x64x64.size a ≤ S64x8x64x64.size a
  packedbf16_S64x8x64x64_S64x1x64x64_0_6_0_0 : (Rect.unit (s := S64x8x64x64) ![0, 6, 0, 0] S64x1x64x64.size inb_S64x8x64x64_S64x1x64x64_0_6_0_0).PackedRows (EltTy.packing .bf16)
  inb_S1x8x64x64_S1x1x64x64_0_7_0_0 : ∀ a, (![0, 7, 0, 0] : Fin 4 → Nat) a + S1x1x64x64.size a ≤ S1x8x64x64.size a
  inb_S64x8x64x64_S64x1x64x64_0_7_0_0 : ∀ a, (![0, 7, 0, 0] : Fin 4 → Nat) a + S64x1x64x64.size a ≤ S64x8x64x64.size a
  packedbf16_S64x8x64x64_S64x1x64x64_0_7_0_0 : (Rect.unit (s := S64x8x64x64) ![0, 7, 0, 0] S64x1x64x64.size inb_S64x8x64x64_S64x1x64x64_0_7_0_0).PackedRows (EltTy.packing .bf16)
  transposes_S1024x8x64x64_S1024x64x64x8_0_2_3_1 : S1024x8x64x64.Transposes [0, 2, 3, 1] S1024x64x64x8
  scatter_S16x64x64_S1_S16x64_01_2_2_0_wf : ScatterDims.WF S16x64x64 S1 S16x64 [0, 1] [2] [2] 0
  scatter_S16x64x64_S16x512x3_S16x512_n_012_012_2_wf : ScatterDims.WF S16x64x64 S16x512x3 S16x512 [] [0, 1, 2] [0, 1, 2] 2
  scatter_S16x64_S16x512x2_S16x512_n_01_01_2_wf : ScatterDims.WF S16x64 S16x512x2 S16x512 [] [0, 1] [0, 1] 2
  dot_S256x512_S512x256_S256x256_1_0_0_1_n_n_wf : DotDims.WF S256x512 S512x256 S256x256 [1] [0] [0] [1] [] []
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []
  dot_S256x64_S64x8_S256x8_1_0_0_1_n_n_wf : DotDims.WF S256x64 S64x8 S256x8 [1] [0] [0] [1] [] []
  dot_S4096x18_S18x64_S4096x64_1_0_0_1_n_n_wf : DotDims.WF S4096x18 S18x64 S4096x64 [1] [0] [0] [1] [] []
  dot_S4096x64_S64x64_S4096x64_1_0_0_1_n_n_wf : DotDims.WF S4096x64 S64x64 S4096x64 [1] [0] [0] [1] [] []
  dot_S4096x64_S64x8_S4096x8_1_0_0_1_n_n_wf : DotDims.WF S4096x64 S64x8 S4096x8 [1] [0] [0] [1] [] []
  dot_S64x64x64_S64x64x64_S64x64x64_2_2_1_1_0_0_wf : DotDims.WF S64x64x64 S64x64x64 S64x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x64.size a ≤ S128x64.size a
  hwx0_13 : ∀ i : grid0.Coords, EltTy.bits .f32 = 32 ∨ (Rect.block (s := S128x64) S128x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x8.size a ≤ S64x8.size a
  hwx0_15 : ∀ i : grid0.Coords, EltTy.bits .f32 = 32 ∨ (Rect.block (s := S64x8) S64x8.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x8.size a ≤ S1x8.size a
  hwx0_16 : ∀ i : grid0.Coords, EltTy.bits .f32 = 32 ∨ (Rect.block (s := S1x8) S1x8.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x8.size a ≤ S1024x8.size a
  hwx0_17 : ∀ i : grid0.Coords, EltTy.bits .f32 = 32 ∨ (Rect.block (s := S1024x8) S256x8.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x18.size a ≤ S16x4096x18.size a
  hwx1_0 : ∀ i : grid1.Coords, EltTy.bits .f32 = 32 ∨ (Rect.block (s := S16x4096x18) S1x4096x18.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S18x64.size a ≤ S18x64.size a
  hwx1_1 : ∀ i : grid1.Coords, EltTy.bits .f32 = 32 ∨ (Rect.block (s := S18x64) S18x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x8.size a ≤ S64x8.size a
  hwx1_5 : ∀ i : grid1.Coords, EltTy.bits .f32 = 32 ∨ (Rect.block (s := S64x8) S64x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x8.size a ≤ S1x8.size a
  hwx1_6 : ∀ i : grid1.Coords, EltTy.bits .f32 = 32 ∨ (Rect.block (s := S1x8) S1x8.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x4096x8.size a ≤ S16x4096x8.size a
  hwx1_7 : ∀ i : grid1.Coords, EltTy.bits .f32 = 32 ∨ (Rect.block (s := S16x4096x8) S1x4096x8.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x64x8.size a ≤ S16x64x8.size a
  hwx2_0 : ∀ i : grid2.Coords, EltTy.bits .f32 = 32 ∨ (Rect.block (s := S16x64x8) S1x64x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x64x64.size a ≤ S16x64x64x64.size a
  hwx2_1 : ∀ i : grid2.Coords, EltTy.bits .bf16 = 32 ∨ (Rect.block (s := S16x64x64x64) S1x64x64x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x64x64.size a ≤ S16x64x64.size a
  hwx2_2 : ∀ i : grid2.Coords, EltTy.bits .f32 = 32 ∨ (Rect.block (s := S16x64x64) S1x64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x64x8.size a ≤ S1024x64x8.size a
  hwx2_3 : ∀ i : grid2.Coords, EltTy.bits .f32 = 32 ∨ (Rect.block (s := S1024x64x8) S64x64x8.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x8x64x64.size a ≤ S16x8x64x64.size a
  hwx3_0 : ∀ i : grid3.Coords, EltTy.bits .f32 = 32 ∨ (Rect.block (s := S16x8x64x64) S1x8x64x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x64x64x64.size a ≤ S16x64x64x64.size a
  hwx3_1 : ∀ i : grid3.Coords, EltTy.bits .bf16 = 32 ∨ (Rect.block (s := S16x64x64x64) S1x64x64x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x64x64.size a ≤ S16x64x64.size a
  hwx3_2 : ∀ i : grid3.Coords, EltTy.bits .f32 = 32 ∨ (Rect.block (s := S16x64x64) S1x64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S64x8x64x64.size a ≤ S1024x8x64x64.size a
  hwx3_3 : ∀ i : grid3.Coords, EltTy.bits .bf16 = 32 ∨ (Rect.block (s := S1024x8x64x64) S64x8x64x64.size (cc3_transform_3 i) (hinb3_3 i)).WholeWords (EltTy.packing .bf16)

variable [Facts₀]

def scatter_S16x64x64_S1_S16x64_01_2_2_0 : ScatterDims S16x64x64 S1 S16x64 where
  updateWindowDims := [0, 1]
  insertedWindowDims := [2]
  scatterDimsToOperandDims := [2]
  indexVectorDim := 0
  wf := scatter_S16x64x64_S1_S16x64_01_2_2_0_wf
def scatter_S16x64x64_S16x512x3_S16x512_n_012_012_2 : ScatterDims S16x64x64 S16x512x3 S16x512 where
  updateWindowDims := []
  insertedWindowDims := [0, 1, 2]
  scatterDimsToOperandDims := [0, 1, 2]
  indexVectorDim := 2
  wf := scatter_S16x64x64_S16x512x3_S16x512_n_012_012_2_wf
def scatter_S16x64_S16x512x2_S16x512_n_01_01_2 : ScatterDims S16x64 S16x512x2 S16x512 where
  updateWindowDims := []
  insertedWindowDims := [0, 1]
  scatterDimsToOperandDims := [0, 1]
  indexVectorDim := 2
  wf := scatter_S16x64_S16x512x2_S16x512_n_01_01_2_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x8_S256x8_1_0_0_1_n_n : DotDims S256x64 S64x8 S256x8 where
  lhsContracting := [1]
  rhsContracting := [0]
  lhsNonContracting := [0]
  rhsNonContracting := [1]
  lhsBatch := []
  rhsBatch := []
  wf := dot_S256x64_S64x8_S256x8_1_0_0_1_n_n_wf
def dot_S4096x18_S18x64_S4096x64_1_0_0_1_n_n : DotDims S4096x18 S18x64 S4096x64 where
  lhsContracting := [1]
  rhsContracting := [0]
  lhsNonContracting := [0]
  rhsNonContracting := [1]
  lhsBatch := []
  rhsBatch := []
  wf := dot_S4096x18_S18x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x8_S4096x8_1_0_0_1_n_n : DotDims S4096x64 S64x8 S4096x8 where
  lhsContracting := [1]
  rhsContracting := [0]
  lhsNonContracting := [0]
  rhsNonContracting := [1]
  lhsBatch := []
  rhsBatch := []
  wf := dot_S4096x64_S64x8_S4096x8_1_0_0_1_n_n_wf
def dot_S64x64x64_S64x64x64_S64x64x64_2_2_1_1_0_0 : DotDims S64x64x64 S64x64x64 S64x64x64 where
  lhsContracting := [2]
  rhsContracting := [2]
  lhsNonContracting := [1]
  rhsNonContracting := [1]
  lhsBatch := [0]
  rhsBatch := [0]
  wf := dot_S64x64x64_S64x64x64_S64x64x64_2_2_1_1_0_0_wf

abbrev win0_0 : Pipeline.Window sig grid0 :=
  Pipeline.Window.ofSpec (Memref.whole main_v75) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v76) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v77) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v78) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v79) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v80) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v81) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v82) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v83) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v84) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v85) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S128x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v86) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg18) S64x8.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v87) S1x8.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v88) S256x8.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_v99) S1x4096x18.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg20) S18x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v100) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg22) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v101) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg24) S64x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v102) S1x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v103) S1x4096x8.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v89) S1x64x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S1x64x64x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x64x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v106) S64x64x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v105) S1x8x64x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64x64x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x64x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v107) S64x8x64x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16x64x512 : Shape := ⟨3, ![16, 64, 512]⟩
abbrev S16x64x4 : Shape := ⟨3, ![16, 64, 4]⟩
abbrev S16x64 : Shape := ⟨2, ![16, 64]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S18x64 : Shape := ⟨2, ![18, 64]⟩
abbrev S64x64 : Shape := ⟨2, ![64, 64]⟩
abbrev S16x2x512 : Shape := ⟨3, ![16, 2, 512]⟩
abbrev S16x1x512 : Shape := ⟨3, ![16, 1, 512]⟩
abbrev S16x512 : Shape := ⟨2, ![16, 512]⟩
abbrev S16x512x1 : Shape := ⟨3, ![16, 512, 1]⟩
abbrev S16x512x512 : Shape := ⟨3, ![16, 512, 512]⟩
abbrev S_ : Shape := ⟨0, ![]⟩
abbrev S512x512 : Shape := ⟨2, ![512, 512]⟩
abbrev S1x512x512 : Shape := ⟨3, ![1, 512, 512]⟩
abbrev S16x64x64 : Shape := ⟨3, ![16, 64, 64]⟩
abbrev S1 : Shape := ⟨1, ![1]⟩
abbrev S16 : Shape := ⟨1, ![16]⟩
abbrev S16x1 : Shape := ⟨2, ![16, 1]⟩
abbrev S16x512x3 : Shape := ⟨3, ![16, 512, 3]⟩
abbrev S16x512x2 : Shape := ⟨3, ![16, 512, 2]⟩
abbrev S1x1x64 : Shape := ⟨3, ![1, 1, 64]⟩
abbrev S16x64x1 : Shape := ⟨3, ![16, 64, 1]⟩
abbrev S1024x512 : Shape := ⟨2, ![1024, 512]⟩
abbrev S1024x256 : Shape := ⟨2, ![1024, 256]⟩
abbrev S1x256 : Shape := ⟨2, ![1, 256]⟩
abbrev S1024x128 : Shape := ⟨2, ![1024, 128]⟩
abbrev S1x128 : Shape := ⟨2, ![1, 128]⟩
abbrev S1024x64 : Shape := ⟨2, ![1024, 64]⟩
abbrev S1x64 : Shape := ⟨2, ![1, 64]⟩
abbrev S1024x8 : Shape := ⟨2, ![1024, 8]⟩
abbrev S1x8 : Shape := ⟨2, ![1, 8]⟩
abbrev S16x64x8 : Shape := ⟨3, ![16, 64, 8]⟩
abbrev S16x64x64x1 : Shape := ⟨4, ![16, 64, 64, 1]⟩
abbrev S16x64x64x8 : Shape := ⟨4, ![16, 64, 64, 8]⟩
abbrev S1024x64x8 : Shape := ⟨3, ![1024, 64, 8]⟩
abbrev S16x64x9 : Shape := ⟨3, ![16, 64, 9]⟩
abbrev S16x64x1x9 : Shape := ⟨4, ![16, 64, 1, 9]⟩
abbrev S16x64x64x9 : Shape := ⟨4, ![16, 64, 64, 9]⟩
abbrev S16x1x64x9 : Shape := ⟨4, ![16, 1, 64, 9]⟩
abbrev S16x64x64x18 : Shape := ⟨4, ![16, 64, 64, 18]⟩
abbrev S65536x18 : Shape := ⟨2, ![65536, 18]⟩
abbrev S65536x64 : Shape := ⟨2, ![65536, 64]⟩
abbrev S65536x8 : Shape := ⟨2, ![65536, 8]⟩
abbrev S16x64x1x64 : Shape := ⟨4, ![16, 64, 1, 64]⟩
abbrev S16x64x64x64 : Shape := ⟨4, ![16, 64, 64, 64]⟩
abbrev S16x64x64x64x1 : Shape := ⟨5, ![16, 64, 64, 64, 1]⟩
abbrev S16x64x64x64x2 : Shape := ⟨5, ![16, 64, 64, 64, 2]⟩
abbrev S16x64x64x64x8 : Shape := ⟨5, ![16, 64, 64, 64, 8]⟩
abbrev S16x64x64x1x1 : Shape := ⟨5, ![16, 64, 64, 1, 1]⟩
abbrev S16x64x1x64x1 : Shape := ⟨5, ![16, 64, 1, 64, 1]⟩
abbrev S1024x64x64x8 : Shape := ⟨4, ![1024, 64, 64, 8]⟩

abbrev nBuf : Space → Nat
  | .hbm => 276
  | .vmem => 0
  | .smem => 0
  | _ => 0

abbrev hbmTy0_0 (i : Nat) : BufTy := match i % 128 with
  | 0 => ⟨S16x64x512, .f32⟩
  | 1 => ⟨S16x64x4, .f32⟩
  | 2 => ⟨S16x64x4, .f32⟩
  | 3 => ⟨S16x64, .f32⟩
  | 4 => ⟨S512x256, .f32⟩
  | 5 => ⟨S256, .f32⟩
  | 6 => ⟨S256, .f32⟩
  | 7 => ⟨S256, .f32⟩
  | 8 => ⟨S256, .f32⟩
  | 9 => ⟨S256, .f32⟩
  | 10 => ⟨S256x128, .f32⟩
  | 11 => ⟨S128, .f32⟩
  | 12 => ⟨S128, .f32⟩
  | 13 => ⟨S128, .f32⟩
  | 14 => ⟨S128, .f32⟩
  | 15 => ⟨S128, .f32⟩
  | 16 => ⟨S128x64, .f32⟩
  | 17 => ⟨S64, .f32⟩
  | 18 => ⟨S64x8, .f32⟩
  | 19 => ⟨S8, .f32⟩
  | 20 => ⟨S18x64, .f32⟩
  | 21 => ⟨S64, .f32⟩
  | 22 => ⟨S64x64, .f32⟩
  | 23 => ⟨S64, .f32⟩
  | 24 => ⟨S64x8, .f32⟩
  | 25 => ⟨S8, .f32⟩
  | 26 => ⟨S16x2x512, .i32⟩
  | 27 => ⟨S16x1x512, .i32⟩
  | 28 => ⟨S16x512, .i32⟩
  | 29 => ⟨S16x1x512, .i32⟩
  | 30 => ⟨S16x512, .i32⟩
  | 31 => ⟨S16x512x1, .i32⟩
  | 32 => ⟨S16x1x512, .i32⟩
  | 33 => ⟨S16x512x512, .i32⟩
  | 34 => ⟨S16x512x512, .i32⟩
  | 35 => ⟨S16x512x512, .i1⟩
  | 36 => ⟨S_, .i1⟩
  | 37 => ⟨S512x512, .i1⟩
  | 38 => ⟨S512x512, .i32⟩
  | 39 => ⟨S_, .i32⟩
  | 40 => ⟨S512x512, .i32⟩
  | 41 => ⟨S512x512, .i32⟩
  | 42 => ⟨S512x512, .i32⟩
  | 43 => ⟨S512x512, .i1⟩
  | 44 => ⟨S_, .i1⟩
  | 45 => ⟨S512x512, .i1⟩
  | 46 => ⟨S512x512, .i1⟩
  | 47 => ⟨S1x512x512, .i1⟩
  | 48 => ⟨S16x512x512, .i1⟩
  | 49 => ⟨S16x512x512, .i1⟩
  | 50 => ⟨S16x512x512, .i32⟩
  | 51 => ⟨S_, .i32⟩
  | 52 => ⟨S16x512, .i32⟩
  | 53 => ⟨S_, .i32⟩
  | 54 => ⟨S16x512, .i32⟩
  | 55 => ⟨S16x512, .i32⟩
  | 56 => ⟨S_, .i32⟩
  | 57 => ⟨S16x64x64, .i32⟩
  | 58 => ⟨S64, .i32⟩
  | 59 => ⟨S_, .i32⟩
  | 60 => ⟨S1, .i32⟩
  | 61 => ⟨S16x64, .i32⟩
  | 62 => ⟨S16x64x64, .i32⟩
  | 63 => ⟨S16, .i32⟩
  | 64 => ⟨S16x1, .i32⟩
  | 65 => ⟨S_, .i32⟩
  | 66 => ⟨S16x1, .i32⟩
  | 67 => ⟨S16x1, .i1⟩
  | 68 => ⟨S_, .i32⟩
  | 69 => ⟨S16x1, .i32⟩
  | 70 => ⟨S16x1, .i32⟩
  | 71 => ⟨S16x1, .i32⟩
  | 72 => ⟨S_, .i32⟩
  | 73 => ⟨S16x512, .i32⟩
  | 74 => ⟨S16x512, .i1⟩
  | 75 => ⟨S_, .i32⟩
  | 76 => ⟨S16x512, .i32⟩
  | 77 => ⟨S16x512, .i32⟩
  | 78 => ⟨S16x512, .i32⟩
  | 79 => ⟨S_, .i32⟩
  | 80 => ⟨S16x512, .i32⟩
  | 81 => ⟨S16x512, .i1⟩
  | 82 => ⟨S_, .i32⟩
  | 83 => ⟨S16x512, .i32⟩
  | 84 => ⟨S16x512, .i32⟩
  | 85 => ⟨S16x512, .i32⟩
  | 86 => ⟨S16x512, .i32⟩
  | 87 => ⟨S16x512x1, .i32⟩
  | 88 => ⟨S16x512x1, .i32⟩
  | 89 => ⟨S16x512x1, .i32⟩
  | 90 => ⟨S16x512x3, .i32⟩
  | 91 => ⟨S16x64x64, .i32⟩
  | 92 => ⟨S_, .i32⟩
  | 93 => ⟨S16x64, .i32⟩
  | 94 => ⟨S_, .i32⟩
  | 95 => ⟨S16x1, .i32⟩
  | 96 => ⟨S16x1, .i1⟩
  | 97 => ⟨S_, .i32⟩
  | 98 => ⟨S16x1, .i32⟩
  | 99 => ⟨S16x1, .i32⟩
  | 100 => ⟨S16x1, .i32⟩
  | 101 => ⟨S_, .i32⟩
  | 102 => ⟨S16x512, .i32⟩
  | 103 => ⟨S16x512, .i1⟩
  | 104 => ⟨S_, .i32⟩
  | 105 => ⟨S16x512, .i32⟩
  | 106 => ⟨S16x512, .i32⟩
  | 107 => ⟨S16x512, .i32⟩
  | 108 => ⟨S16x512, .i32⟩
  | 109 => ⟨S16x512x1, .i32⟩
  | 110 => ⟨S16x512x1, .i32⟩
  | 111 => ⟨S16x512x2, .i32⟩
  | 112 => ⟨S_, .i32⟩
  | 113 => ⟨S16x512, .i32⟩
  | 114 => ⟨S16x64, .i32⟩
  | 115 => ⟨S_, .i32⟩
  | 116 => ⟨S16x64, .i32⟩
  | 117 => ⟨S16x64, .i32⟩
  | 118 => ⟨S_, .i32⟩
  | 119 => ⟨S16x64, .i32⟩
  | 120 => ⟨S16x64, .i32⟩
  | 121 => ⟨S64, .i32⟩
  | 122 => ⟨S1x1x64, .i32⟩
  | 123 => ⟨S16x64x1, .i32⟩
  | 124 => ⟨S16x64x64, .i32⟩
  | 125 => ⟨S16x64x64, .i32⟩
  | 126 => ⟨S16x64x64, .i1⟩
  | 127 => ⟨S16x64x64, .f32⟩
  | _ => ⟨S16x64x512, .f32⟩

abbrev hbmTy0_1 (i : Nat) : BufTy := match i % 128 with
  | 0 => ⟨S1024x512, .f32⟩
  | 1 => ⟨S1024x256, .f32⟩
  | 2 => ⟨S1x256, .f32⟩
  | 3 => ⟨S1024x256, .f32⟩
  | 4 => ⟨S1024x256, .f32⟩
  | 5 => ⟨S1x256, .f32⟩
  | 6 => ⟨S1024x256, .f32⟩
  | 7 => ⟨S1024x256, .f32⟩
  | 8 => ⟨S_, .f32⟩
  | 9 => ⟨S256, .f32⟩
  | 10 => ⟨S256, .f32⟩
  | 11 => ⟨S256, .f32⟩
  | 12 => ⟨S1x256, .f32⟩
  | 13 => ⟨S1024x256, .f32⟩
  | 14 => ⟨S1024x256, .f32⟩
  | 15 => ⟨S1x256, .f32⟩
  | 16 => ⟨S1024x256, .f32⟩
  | 17 => ⟨S1024x256, .f32⟩
  | 18 => ⟨S1x256, .f32⟩
  | 19 => ⟨S1024x256, .f32⟩
  | 20 => ⟨S1024x256, .f32⟩
  | 21 => ⟨S_, .f32⟩
  | 22 => ⟨S1024x256, .f32⟩
  | 23 => ⟨S1024x256, .f32⟩
  | 24 => ⟨S1024x128, .f32⟩
  | 25 => ⟨S1x128, .f32⟩
  | 26 => ⟨S1024x128, .f32⟩
  | 27 => ⟨S1024x128, .f32⟩
  | 28 => ⟨S1x128, .f32⟩
  | 29 => ⟨S1024x128, .f32⟩
  | 30 => ⟨S1024x128, .f32⟩
  | 31 => ⟨S_, .f32⟩
  | 32 => ⟨S128, .f32⟩
  | 33 => ⟨S128, .f32⟩
  | 34 => ⟨S128, .f32⟩
  | 35 => ⟨S1x128, .f32⟩
  | 36 => ⟨S1024x128, .f32⟩
  | 37 => ⟨S1024x128, .f32⟩
  | 38 => ⟨S1x128, .f32⟩
  | 39 => ⟨S1024x128, .f32⟩
  | 40 => ⟨S1024x128, .f32⟩
  | 41 => ⟨S1x128, .f32⟩
  | 42 => ⟨S1024x128, .f32⟩
  | 43 => ⟨S1024x128, .f32⟩
  | 44 => ⟨S_, .f32⟩
  | 45 => ⟨S1024x128, .f32⟩
  | 46 => ⟨S1024x128, .f32⟩
  | 47 => ⟨S1024x64, .f32⟩
  | 48 => ⟨S1x64, .f32⟩
  | 49 => ⟨S1024x64, .f32⟩
  | 50 => ⟨S1024x64, .f32⟩
  | 51 => ⟨S_, .f32⟩
  | 52 => ⟨S1024x64, .f32⟩
  | 53 => ⟨S1024x64, .f32⟩
  | 54 => ⟨S1024x8, .f32⟩
  | 55 => ⟨S1x8, .f32⟩
  | 56 => ⟨S1024x8, .f32⟩
  | 57 => ⟨S1024x8, .f32⟩
  | 58 => ⟨S1024x8, .f32⟩
  | 59 => ⟨S1024x8, .f32⟩
  | 60 => ⟨S_, .f32⟩
  | 61 => ⟨S1024x8, .f32⟩
  | 62 => ⟨S1024x8, .f32⟩
  | 63 => ⟨S_, .f32⟩
  | 64 => ⟨S1024x8, .f32⟩
  | 65 => ⟨S1024x8, .f32⟩
  | 66 => ⟨S16x64x8, .f32⟩
  | 67 => ⟨S_, .i32⟩
  | 68 => ⟨S16x64x64, .i32⟩
  | 69 => ⟨S16x64x64, .i1⟩
  | 70 => ⟨S_, .i32⟩
  | 71 => ⟨S16x64x64, .i32⟩
  | 72 => ⟨S16x64x64, .i32⟩
  | 73 => ⟨S16x64x64, .i32⟩
  | 74 => ⟨S16x64x64x1, .i32⟩
  | 75 => ⟨S16x64x64x8, .f32⟩
  | 76 => ⟨S16x64x64x1, .f32⟩
  | 77 => ⟨S16x64x64x8, .f32⟩
  | 78 => ⟨S16x64x64x8, .f32⟩
  | 79 => ⟨S1024x64x8, .f32⟩
  | 80 => ⟨S_, .f32⟩
  | 81 => ⟨S16x64x4, .f32⟩
  | 82 => ⟨S16x64x4, .f32⟩
  | 83 => ⟨S16x64x1, .f32⟩
  | 84 => ⟨S16x64x9, .f32⟩
  | 85 => ⟨S16x64x1x9, .f32⟩
  | 86 => ⟨S16x64x64x9, .f32⟩
  | 87 => ⟨S16x1x64x9, .f32⟩
  | 88 => ⟨S16x64x64x9, .f32⟩
  | 89 => ⟨S16x64x64x18, .f32⟩
  | 90 => ⟨S65536x18, .f32⟩
  | 91 => ⟨S65536x64, .f32⟩
  | 92 => ⟨S1x64, .f32⟩
  | 93 => ⟨S65536x64, .f32⟩
  | 94 => ⟨S65536x64, .f32⟩
  | 95 => ⟨S_, .f32⟩
  | 96 => ⟨S65536x64, .f32⟩
  | 97 => ⟨S65536x64, .f32⟩
  | 98 => ⟨S65536x64, .f32⟩
  | 99 => ⟨S1x64, .f32⟩
  | 100 => ⟨S65536x64, .f32⟩
  | 101 => ⟨S65536x64, .f32⟩
  | 102 => ⟨S_, .f32⟩
  | 103 => ⟨S65536x64, .f32⟩
  | 104 => ⟨S65536x64, .f32⟩
  | 105 => ⟨S65536x8, .f32⟩
  | 106 => ⟨S1x8, .f32⟩
  | 107 => ⟨S65536x8, .f32⟩
  | 108 => ⟨S65536x8, .f32⟩
  | 109 => ⟨S65536x8, .f32⟩
  | 110 => ⟨S65536x8, .f32⟩
  | 111 => ⟨S_, .f32⟩
  | 112 => ⟨S65536x8, .f32⟩
  | 113 => ⟨S65536x8, .f32⟩
  | 114 => ⟨S_, .f32⟩
  | 115 => ⟨S65536x8, .f32⟩
  | 116 => ⟨S65536x8, .f32⟩
  | 117 => ⟨S16x64x64x8, .f32⟩
  | 118 => ⟨S16x64x64x1, .i32⟩
  | 119 => ⟨S16x64x1x64, .i32⟩
  | 120 => ⟨S_, .i32⟩
  | 121 => ⟨S16x64x64x1, .i32⟩
  | 122 => ⟨S16x64x64x1, .i1⟩
  | 123 => ⟨S_, .i32⟩
  | 124 => ⟨S16x64x64x1, .i32⟩
  | 125 => ⟨S16x64x64x1, .i32⟩
  | 126 => ⟨S16x64x64x1, .i32⟩
  | 127 => ⟨S_, .i32⟩
  | _ => ⟨S16x64x512, .f32⟩

abbrev hbmTy0_2 (i : Nat) : BufTy := match i % 128 with
  | 0 => ⟨S16x64x1x64, .i32⟩
  | 1 => ⟨S16x64x1x64, .i1⟩
  | 2 => ⟨S_, .i32⟩
  | 3 => ⟨S16x64x1x64, .i32⟩
  | 4 => ⟨S16x64x1x64, .i32⟩
  | 5 => ⟨S16x64x1x64, .i32⟩
  | 6 => ⟨S16x64x64x64, .i32⟩
  | 7 => ⟨S16x64x64x64, .i32⟩
  | 8 => ⟨S16x64x64x64x1, .i32⟩
  | 9 => ⟨S16x64x64x64x1, .i32⟩
  | 10 => ⟨S16x64x64x64x2, .i32⟩
  | 11 => ⟨S16x64x64x64x8, .f32⟩
  | 12 => ⟨S16x64x64x1x1, .f32⟩
  | 13 => ⟨S16x64x1x64x1, .f32⟩
  | 14 => ⟨S16x64x64x64x1, .f32⟩
  | 15 => ⟨S16x64x64x64x1, .f32⟩
  | 16 => ⟨S16x64x64x64x1, .f32⟩
  | 17 => ⟨S16x64x64x64x8, .f32⟩
  | 18 => ⟨S16x64x64x64x8, .f32⟩
  | 19 => ⟨S1024x64x64x8, .f32⟩
  | _ => ⟨S16x64x512, .f32⟩

abbrev hbmTy (i : Nat) : BufTy := match i / 128 with
  | 0 => hbmTy0_0 i
  | 1 => hbmTy0_1 i
  | 2 => hbmTy0_2 i
  | _ => ⟨S16x64x512, .f32⟩

abbrev bufTy : (tb : Table) → Fin (tcTables nBuf tb) → BufTy
  | .hbm, ⟨i, _⟩ => hbmTy i
  | _, _ => ⟨S16x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_v9 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_0 : Ref sig .tc := ⟨.hbm, 44, rfl⟩
abbrev main_call0_v5 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_c_0 : Ref sig .tc := ⟨.hbm, 51, rfl⟩
abbrev main_v15 : Ref sig .tc := ⟨.hbm, 52, rfl⟩
abbrev main_c_1 : Ref sig .tc := ⟨.hbm, 53, rfl⟩
abbrev main_v16 : Ref sig .tc := ⟨.hbm, 54, rfl⟩
abbrev main_v17 : Ref sig .tc := ⟨.hbm, 55, rfl⟩
abbrev main_c_2 : Ref sig .tc := ⟨.hbm, 56, rfl⟩
abbrev main_v18 : Ref sig .tc := ⟨.hbm, 57, rfl⟩
abbrev main_v19 : Ref sig .tc := ⟨.hbm, 58, rfl⟩
abbrev main_c_3 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_c_4 : Ref sig .tc := ⟨.hbm, 65, rfl⟩
abbrev main_v25 : Ref sig .tc := ⟨.hbm, 66, rfl⟩
abbrev main_v26 : Ref sig .tc := ⟨.hbm, 67, rfl⟩
abbrev main_c_5 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_c_6 : Ref sig .tc := ⟨.hbm, 72, rfl⟩
abbrev main_v30 : Ref sig .tc := ⟨.hbm, 73, rfl⟩
abbrev main_v31 : Ref sig .tc := ⟨.hbm, 74, rfl⟩
abbrev main_c_7 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_c_8 : Ref sig .tc := ⟨.hbm, 79, rfl⟩
abbrev main_v35 : Ref sig .tc := ⟨.hbm, 80, rfl⟩
abbrev main_v36 : Ref sig .tc := ⟨.hbm, 81, rfl⟩
abbrev main_c_9 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_10 : Ref sig .tc := ⟨.hbm, 92, rfl⟩
abbrev main_v46 : Ref sig .tc := ⟨.hbm, 93, rfl⟩
abbrev main_c_11 : Ref sig .tc := ⟨.hbm, 94, rfl⟩
abbrev main_v47 : Ref sig .tc := ⟨.hbm, 95, rfl⟩
abbrev main_v48 : Ref sig .tc := ⟨.hbm, 96, rfl⟩
abbrev main_c_12 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_c_13 : Ref sig .tc := ⟨.hbm, 101, rfl⟩
abbrev main_v52 : Ref sig .tc := ⟨.hbm, 102, rfl⟩
abbrev main_v53 : Ref sig .tc := ⟨.hbm, 103, rfl⟩
abbrev main_c_14 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_c_15 : Ref sig .tc := ⟨.hbm, 112, rfl⟩
abbrev main_v61 : Ref sig .tc := ⟨.hbm, 113, rfl⟩
abbrev main_v62 : Ref sig .tc := ⟨.hbm, 114, rfl⟩
abbrev main_c_16 : Ref sig .tc := ⟨.hbm, 115, rfl⟩
abbrev main_v63 : Ref sig .tc := ⟨.hbm, 116, rfl⟩
abbrev main_v64 : Ref sig .tc := ⟨.hbm, 117, rfl⟩
abbrev main_c_17 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_call1_cst : Ref sig .tc := ⟨.hbm, 149, rfl⟩
abbrev main_call1_v0 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_18 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_call2_cst : Ref sig .tc := ⟨.hbm, 172, rfl⟩
abbrev main_call2_v0 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_call3_cst : Ref sig .tc := ⟨.hbm, 179, rfl⟩
abbrev main_call3_v0 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_19 : Ref sig .tc := ⟨.hbm, 188, rfl⟩
abbrev main_v126 : Ref sig .tc := ⟨.hbm, 189, rfl⟩
abbrev main_v127 : Ref sig .tc := ⟨.hbm, 190, rfl⟩
abbrev main_cst_20 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_c_21 : Ref sig .tc := ⟨.hbm, 195, rfl⟩
abbrev main_v131 : Ref sig .tc := ⟨.hbm, 196, rfl⟩
abbrev main_v132 : Ref sig .tc := ⟨.hbm, 197, rfl⟩
abbrev main_c_22 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_cst_23 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_call4_cst : Ref sig .tc := ⟨.hbm, 223, rfl⟩
abbrev main_call4_v0 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_call5_cst : Ref sig .tc := ⟨.hbm, 230, rfl⟩
abbrev main_call5_v0 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_cst_24 : Ref sig .tc := ⟨.hbm, 239, rfl⟩
abbrev main_v168 : Ref sig .tc := ⟨.hbm, 240, rfl⟩
abbrev main_v169 : Ref sig .tc := ⟨.hbm, 241, rfl⟩
abbrev main_cst_25 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_c_26 : Ref sig .tc := ⟨.hbm, 248, rfl⟩
abbrev main_v175 : Ref sig .tc := ⟨.hbm, 249, rfl⟩
abbrev main_v176 : Ref sig .tc := ⟨.hbm, 250, rfl⟩
abbrev main_c_27 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_c_28 : Ref sig .tc := ⟨.hbm, 255, rfl⟩
abbrev main_v180 : Ref sig .tc := ⟨.hbm, 256, rfl⟩
abbrev main_v181 : Ref sig .tc := ⟨.hbm, 257, rfl⟩
abbrev main_c_29 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩

abbrev nD : Nat := 1
abbrev τ : Topo := Topo.v7x

variable {F : FTy → Type} [FloatOps F]

class Facts₀ : Prop where
  slices_S16x2x512_S16x1x512_0_0_0 : S16x2x512.Slices ![0, 0, 0] S16x1x512
  shapeCasts_S16x1x512_S16x512 : S16x1x512.ShapeCasts S16x512
  slices_S16x2x512_S16x1x512_0_1_0 : S16x2x512.Slices ![0, 1, 0] S16x1x512
  bcast_S16x512_S16x512x1_0_1 : S16x512.BroadcastsInDim S16x512x1 (![0, 1] : Fin 2 → Fin S16x512x1.rank)
  bcast_S16x512_S16x1x512_0_2 : S16x512.BroadcastsInDim S16x1x512 (![0, 2] : Fin 2 → Fin S16x1x512.rank)
  bcast_S16x512x1_S16x512x512_0_1_2 : S16x512x1.BroadcastsInDim S16x512x512 (![0, 1, 2] : Fin 3 → Fin S16x512x512.rank)
  bcast_S16x1x512_S16x512x512_0_1_2 : S16x1x512.BroadcastsInDim S16x512x512 (![0, 1, 2] : Fin 3 → Fin S16x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S16x512x512_0_1_2 : S1x512x512.BroadcastsInDim S16x512x512 (![0, 1, 2] : Fin 3 → Fin S16x512x512.rank)
  natLt_1_32 : 1 < 32
  reducesTo_S16x512x512_S16x512_d2 : S16x512x512.ReducesTo [2] S16x512
  h_S_ : 0 < S_.numel
  bcast_S_S16x512 : S_.BroadcastsInDim S16x512 (![] : Fin 0 → Fin S16x512.rank)
  bcast_S_S16x64x64 : S_.BroadcastsInDim S16x64x64 (![] : Fin 0 → Fin S16x64x64.rank)
  bcast_S_S1 : S_.BroadcastsInDim S1 (![] : Fin 0 → Fin S1.rank)
  bcast_S64_S16x64_1 : S64.BroadcastsInDim S16x64 (![1] : Fin 1 → Fin S16x64.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x512_0_1 : S16x1.BroadcastsInDim S16x512 (![0, 1] : Fin 2 → Fin S16x512.rank)
  concatenates_S16x512x1_S16x512x1_S16x512x1_S16x512x3_d2 : Shape.Concatenates [S16x512x1, S16x512x1, S16x512x1] S16x512x3 2
  bcast_S_S16x64 : S_.BroadcastsInDim S16x64 (![] : Fin 0 → Fin S16x64.rank)
  concatenates_S16x512x1_S16x512x1_S16x512x2_d2 : Shape.Concatenates [S16x512x1, S16x512x1] S16x512x2 2
  bcast_S64_S1x1x64_2 : S64.BroadcastsInDim S1x1x64 (![2] : Fin 1 → Fin S1x1x64.rank)
  bcast_S16x64_S16x64x1_0_1 : S16x64.BroadcastsInDim S16x64x1 (![0, 1] : Fin 2 → Fin S16x64x1.rank)
  bcast_S1x1x64_S16x64x64_0_1_2 : S1x1x64.BroadcastsInDim S16x64x64 (![0, 1, 2] : Fin 3 → Fin S16x64x64.rank)
  bcast_S16x64x1_S16x64x64_0_1_2 : S16x64x1.BroadcastsInDim S16x64x64 (![0, 1, 2] : Fin 3 → Fin S16x64x64.rank)
  shapeCasts_S16x64x512_S1024x512 : S16x64x512.ShapeCasts S1024x512
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S256 : S_.BroadcastsInDim S256 (![] : Fin 0 → Fin S256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S128 : S_.BroadcastsInDim S128 (![] : Fin 0 → Fin S128.rank)
  bcast_S_S1024x128 : S_.BroadcastsInDim S1024x128 (![] : Fin 0 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  bcast_S_S1024x8 : S_.BroadcastsInDim S1024x8 (![] : Fin 0 → Fin S1024x8.rank)
  shapeCasts_S1024x8_S16x64x8 : S1024x8.ShapeCasts S16x64x8
  bcast_S16x64x64_S16x64x64x1_0_1_2 : S16x64x64.BroadcastsInDim S16x64x64x1 (![0, 1, 2] : Fin 3 → Fin S16x64x64x1.rank)
  bcast_S16x64x64x1_S16x64x64x8_0_1_2_3 : S16x64x64x1.BroadcastsInDim S16x64x64x8 (![0, 1, 2, 3] : Fin 4 → Fin S16x64x64x8.rank)
  shapeCasts_S16x64x64x8_S1024x64x8 : S16x64x64x8.ShapeCasts S1024x64x8
  bcast_S_S16x64x4 : S_.BroadcastsInDim S16x64x4 (![] : Fin 0 → Fin S16x64x4.rank)
  concatenates_S16x64x4_S16x64x4_S16x64x1_S16x64x9_d2 : Shape.Concatenates [S16x64x4, S16x64x4, S16x64x1] S16x64x9 2
  bcast_S16x64x9_S16x64x1x9_0_1_3 : S16x64x9.BroadcastsInDim S16x64x1x9 (![0, 1, 3] : Fin 3 → Fin S16x64x1x9.rank)
  bcast_S16x64x1x9_S16x64x64x9_0_1_2_3 : S16x64x1x9.BroadcastsInDim S16x64x64x9 (![0, 1, 2, 3] : Fin 4 → Fin S16x64x64x9.rank)
  bcast_S16x64x9_S16x1x64x9_0_2_3 : S16x64x9.BroadcastsInDim S16x1x64x9 (![0, 2, 3] : Fin 3 → Fin S16x1x64x9.rank)
  bcast_S16x1x64x9_S16x64x64x9_0_1_2_3 : S16x1x64x9.BroadcastsInDim S16x64x64x9 (![0, 1, 2, 3] : Fin 4 → Fin S16x64x64x9.rank)
  concatenates_S16x64x64x9_S16x64x64x9_S16x64x64x18_d3 : Shape.Concatenates [S16x64x64x9, S16x64x64x9] S16x64x64x18 3
  shapeCasts_S16x64x64x18_S65536x18 : S16x64x64x18.ShapeCasts S65536x18
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S1x8_S65536x8_0_1 : S1x8.BroadcastsInDim S65536x8 (![0, 1] : Fin 2 → Fin S65536x8.rank)
  bcast_S_S65536x8 : S_.BroadcastsInDim S65536x8 (![] : Fin 0 → Fin S65536x8.rank)
  shapeCasts_S65536x8_S16x64x64x8 : S65536x8.ShapeCasts S16x64x64x8
  bcast_S16x64x64_S16x64x1x64_0_1_3 : S16x64x64.BroadcastsInDim S16x64x1x64 (![0, 1, 3] : Fin 3 → Fin S16x64x1x64.rank)
  bcast_S_S16x64x64x1 : S_.BroadcastsInDim S16x64x64x1 (![] : Fin 0 → Fin S16x64x64x1.rank)
  bcast_S_S16x64x1x64 : S_.BroadcastsInDim S16x64x1x64 (![] : Fin 0 → Fin S16x64x1x64.rank)
  bcast_S16x64x64x1_S16x64x64x64_0_1_2_3 : S16x64x64x1.BroadcastsInDim S16x64x64x64 (![0, 1, 2, 3] : Fin 4 → Fin S16x64x64x64.rank)
  bcast_S16x64x1x64_S16x64x64x64_0_1_2_3 : S16x64x1x64.BroadcastsInDim S16x64x64x64 (![0, 1, 2, 3] : Fin 4 → Fin S16x64x64x64.rank)
  bcast_S16x64x64x64_S16x64x64x64x1_0_1_2_3 : S16x64x64x64.BroadcastsInDim S16x64x64x64x1 (![0, 1, 2, 3] : Fin 4 → Fin S16x64x64x64x1.rank)
  concatenates_S16x64x64x64x1_S16x64x64x64x1_S16x64x64x64x2_d4 : Shape.Concatenates [S16x64x64x64x1, S16x64x64x64x1] S16x64x64x64x2 4
  bcast_S16x64x64_S16x64x64x1x1_0_1_2 : S16x64x64.BroadcastsInDim S16x64x64x1x1 (![0, 1, 2] : Fin 3 → Fin S16x64x64x1x1.rank)
  bcast_S16x64x64_S16x64x1x64x1_0_1_3 : S16x64x64.BroadcastsInDim S16x64x1x64x1 (![0, 1, 3] : Fin 3 → Fin S16x64x1x64x1.rank)
  bcast_S16x64x64x1x1_S16x64x64x64x1_0_1_2_3_4 : S16x64x64x1x1.BroadcastsInDim S16x64x64x64x1 (![0, 1, 2, 3, 4] : Fin 5 → Fin S16x64x64x64x1.rank)
  bcast_S16x64x1x64x1_S16x64x64x64x1_0_1_2_3_4 : S16x64x1x64x1.BroadcastsInDim S16x64x64x64x1 (![0, 1, 2, 3, 4] : Fin 5 → Fin S16x64x64x64x1.rank)
  bcast_S16x64x64x64x1_S16x64x64x64x8_0_1_2_3_4 : S16x64x64x64x1.BroadcastsInDim S16x64x64x64x8 (![0, 1, 2, 3, 4] : Fin 5 → Fin S16x64x64x64x8.rank)
  shapeCasts_S16x64x64x64x8_S1024x64x64x8 : S16x64x64x64x8.ShapeCasts S1024x64x64x8
  scatter_S16x64x64_S1_S16x64_01_2_2_0_wf : ScatterDims.WF S16x64x64 S1 S16x64 [0, 1] [2] [2] 0
  scatter_S16x64x64_S16x512x3_S16x512_n_012_012_2_wf : ScatterDims.WF S16x64x64 S16x512x3 S16x512 [] [0, 1, 2] [0, 1, 2] 2
  scatter_S16x64_S16x512x2_S16x512_n_01_01_2_wf : ScatterDims.WF S16x64 S16x512x2 S16x512 [] [0, 1] [0, 1] 2
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x8_S1024x8_1_0_0_1_n_n_wf : DotDims.WF S1024x64 S64x8 S1024x8 [1] [0] [0] [1] [] []
  gather_S16x64x8_S16x64x64x1_S16x64x64x8_3_1_0_0_1_3_118_wf : GatherDims.WF S16x64x8 S16x64x64x1 S16x64x64x8 [3] [1] [0] [1] [0] 3 ![1, 1, 8]
  dot_S65536x18_S18x64_S65536x64_1_0_0_1_n_n_wf : DotDims.WF S65536x18 S18x64 S65536x64 [1] [0] [0] [1] [] []
  dot_S65536x64_S64x64_S65536x64_1_0_0_1_n_n_wf : DotDims.WF S65536x64 S64x64 S65536x64 [1] [0] [0] [1] [] []
  dot_S65536x64_S64x8_S65536x8_1_0_0_1_n_n_wf : DotDims.WF S65536x64 S64x8 S65536x8 [1] [0] [0] [1] [] []
  gather_S16x64x64x8_S16x64x64x64x2_S16x64x64x64x8_4_12_0_0_12_4_1118_wf : GatherDims.WF S16x64x64x8 S16x64x64x64x2 S16x64x64x64x8 [4] [1, 2] [0] [1, 2] [0] 4 ![1, 1, 1, 8]

variable [Facts₀]

def scatter_S16x64x64_S1_S16x64_01_2_2_0 : ScatterDims S16x64x64 S1 S16x64 where
  updateWindowDims := [0, 1]
  insertedWindowDims := [2]
  scatterDimsToOperandDims := [2]
  indexVectorDim := 0
  wf := scatter_S16x64x64_S1_S16x64_01_2_2_0_wf
def scatter_S16x64x64_S16x512x3_S16x512_n_012_012_2 : ScatterDims S16x64x64 S16x512x3 S16x512 where
  updateWindowDims := []
  insertedWindowDims := [0, 1, 2]
  scatterDimsToOperandDims := [0, 1, 2]
  indexVectorDim := 2
  wf := scatter_S16x64x64_S16x512x3_S16x512_n_012_012_2_wf
def scatter_S16x64_S16x512x2_S16x512_n_01_01_2 : ScatterDims S16x64 S16x512x2 S16x512 where
  updateWindowDims := []
  insertedWindowDims := [0, 1]
  scatterDimsToOperandDims := [0, 1]
  indexVectorDim := 2
  wf := scatter_S16x64_S16x512x2_S16x512_n_01_01_2_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def gather_S16x64x8_S16x64x64x1_S16x64x64x8_3_1_0_0_1_3_118 : GatherDims S16x64x8 S16x64x64x1 S16x64x64x8 where
  offsetDims := [3]
  collapsedSliceDims := [1]
  operandBatchingDims := [0]
  startIndicesBatchingDims := [0]
  startIndexMap := [1]
  indexVectorDim := 3
  sliceSizes := ![1, 1, 8]
  wf := gather_S16x64x8_S16x64x64x1_S16x64x64x8_3_1_0_0_1_3_118_wf
def dot_S65536x18_S18x64_S65536x64_1_0_0_1_n_n : DotDims S65536x18 S18x64 S65536x64 where
  lhsContracting := [1]
  rhsContracting := [0]
  lhsNonContracting := [0]
  rhsNonContracting := [1]
  lhsBatch := []
  rhsBatch := []
  wf := dot_S65536x18_S18x64_S65536x64_1_0_0_1_n_n_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x8_S65536x8_1_0_0_1_n_n : DotDims S65536x64 S64x8 S65536x8 where
  lhsContracting := [1]
  rhsContracting := [0]
  lhsNonContracting := [0]
  rhsNonContracting := [1]
  lhsBatch := []
  rhsBatch := []
  wf := dot_S65536x64_S64x8_S65536x8_1_0_0_1_n_n_wf
def gather_S16x64x64x8_S16x64x64x64x2_S16x64x64x64x8_4_12_0_0_12_4_1118 : GatherDims S16x64x64x8 S16x64x64x64x2 S16x64x64x64x8 where
  offsetDims := [4]
  collapsedSliceDims := [1, 2]
  operandBatchingDims := [0]
  startIndicesBatchingDims := [0]
  startIndexMap := [1, 2]
  indexVectorDim := 4
  sliceSizes := ![1, 1, 1, 8]
  wf := gather_S16x64x64x8_S16x64x64x64x2_S16x64x64x64x8_4_12_0_0_12_4_1118_wf

class Facts : Prop extends Facts₀ where

variable [Facts]
-- ==== Proof.RefRunDefs.lean ====
import proofs.«430520_j28613072126860_3_alg».proof.Proof.RefOps
import proofs.«430520_j28613072126860_3_alg».proof.Proof.RefStages
import Idealize.ShloMosaic.Lib.StableHlo.Run
import Idealize.ShloMosaic.Lib.Pipeline.Frame

set_option maxRecDepth 16384

noncomputable section

namespace Cert.ReferenceIdeal.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev C1 : List (HloOp τ sig (Elt F)) := (ops (F := F)).take 101
abbrev C2 : List (HloOp τ sig (Elt F)) := ((ops (F := F)).drop 101).take 67
abbrev C3 : List (HloOp τ sig (Elt F)) := ((ops (F := F)).drop 168).take 13
abbrev C4 : List (HloOp τ sig (Elt F)) := ((ops (F := F)).drop 181).take 38
abbrev C5 : List (HloOp τ sig (Elt F)) := (ops (F := F)).drop 219

-- The fold over a line from position `a` on is the fold over its next `n` operations, then over the rest.
theorem after_seg (l : List (HloOp τ sig (Elt F))) (a n : Nat) (V : Valuation τ sig (Elt F)) :
    StableHlo.after (l.drop a) V = StableHlo.after (l.drop (a + n)) (StableHlo.after ((l.drop a).take n) V) := by
  rw [← StableHlo.after_append, ← List.drop_drop, List.take_append_drop]

theorem after_split (X : Valuation τ sig (Elt F)) :
    StableHlo.after (ops (F := F)) X
      = StableHlo.after C5 (StableHlo.after C4 (StableHlo.after C3 (StableHlo.after C2 (StableHlo.after C1 X)))) := by
  show StableHlo.after ((ops (F := F)).drop 0) X = _
  rw [after_seg _ 0 101, after_seg _ 101 67, after_seg _ 168 13, after_seg _ 181 38]
  rfl

/-- The operation writes the buffer numbered `k`, and that buffer alone. -/
def Writes (op : HloOp τ sig (Elt F)) (k : Nat) : Prop :=
  ∃ y : Ref sig .tc, op.writes = {Proc.devRef .tc y} ∧ y.idx.val = k

-- The 27 arguments are buffers 0 to 26; operation `i` writes buffer `27 + i`.
theorem writes_ops : List.Forall₂ Writes (ops (F := F)) (List.range' 27 249) := by
  repeat (first | exact .nil | refine .cons ⟨_, rfl, rfl⟩ ?_)

-- A reference whose number is none of those a line writes holds after the line what it held before.
theorem after_keep {l : List (HloOp τ sig (Elt F))} {K : List Nat} (h : List.Forall₂ Writes l K) :
    ∀ (X : Valuation τ sig (Elt F)) (b : Ref sig .tc), b.idx.val ∉ K →
      StableHlo.after l X (Proc.devRef .tc b) = X (Proc.devRef .tc b) := by
  induction h with
  | nil => exact fun _ _ _ => rfl
  | cons ho _ ih =>
    obtain ⟨y, hw, hk⟩ := ho
    intro X b hb
    rw [after_cons, ih _ b fun m => hb (List.mem_cons_of_mem _ m), HloOp.result_of_not_mem]
    rw [hw, Finset.mem_singleton]
    exact fun e => hb (by rw [← hk, ← Proc.devRef_injective _ e]; exact List.mem_cons_self)

-- The same for the `n` operations of the program from position `a` on.
theorem keep (a n : Nat) (Y : Valuation τ sig (Elt F)) (b : Ref sig .tc) (hb : b.idx.val ∉ ((List.range' 27 249).drop a).take n) :
    StableHlo.after (((ops (F := F)).drop a).take n) Y (Proc.devRef .tc b) = Y (Proc.devRef .tc b) :=
  after_keep (List.forall₂_take n (List.forall₂_drop a writes_ops)) Y b hb

-- No operation leaves a result undetermined.
theorem ops_fresh : (ops : List (HloOp τ sig (Elt F))).Forall fun op => op.fresh = ∅ := by
  repeat (refine ⟨rfl, ?_⟩)
  rfl

-- A three-operand operation over a literal family of references: its result with each operand's contents at its own reference.
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

end Cert.ReferenceIdeal.RefRun

end
-- ==== Proof.RefRunC1.lean ====
import proofs.«430520_j28613072126860_3_alg».proof.Proof.RefOps
import proofs.«430520_j28613072126860_3_alg».proof.Proof.RefStages
import proofs.«430520_j28613072126860_3_alg».proof.Proof.RefRunDefs
import Idealize.ShloMosaic.Lib.StableHlo.Run

noncomputable section

namespace Cert.ReferenceIdeal.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

namespace Chunk1

macro "refrun_chunk1_open" : tactic =>
  `(tactic| simp only [C1, ops, List.take_succ_cons, List.take_zero])

macro "refrun_chunk1_results" : tactic =>
  `(tactic| (simp (disch := decide) only [after_cons, after_nil,
      nullary_result', unary_result', binary_result', ternary_result', reshape_result', nary3_result', nary_result',
      nullary_result_ne', unary_result_ne', binary_result_ne', ternary_result_ne', reshape_result_ne',
      nary_result_ne', TRef.toBuf, TRef.ofBuf, cast_eq]))

variable (X : Valuation τ sig (Elt F))

set_option maxRecDepth 65536 in
set_option maxHeartbeats 4000000 in
-- Each operation's result is its function of its operands' contents, so each buffer holds its stage of the edge list.
theorem stages :
    StableHlo.after (C1 (F := F)) X (Proc.devRef .tc main_v73) = val_main_v73 (F := F) (X (Proc.devRef .tc main_arg26))
    ∧ StableHlo.after (C1 (F := F)) X (Proc.devRef .tc main_v1) = val_main_v1 (F := F) (X (Proc.devRef .tc main_arg26))
    ∧ StableHlo.after (C1 (F := F)) X (Proc.devRef .tc main_v22) = val_main_v22 (F := F)
    ∧ StableHlo.after (C1 (F := F)) X (Proc.devRef .tc main_v41) = val_main_v41 (F := F)
    ∧ StableHlo.after (C1 (F := F)) X (Proc.devRef .tc main_v42) = val_main_v42 (F := F) (X (Proc.devRef .tc main_arg26))
    ∧ StableHlo.after (C1 (F := F)) X (Proc.devRef .tc main_v43) = val_main_v43 (F := F) (X (Proc.devRef .tc main_arg26)) := by
  refine ⟨?_, ?_, ?_, ?_, ?_, ?_⟩ <;> (refrun_chunk1_open; refrun_chunk1_results; rfl)

set_option maxRecDepth 65536 in
set_option maxHeartbeats 4000000 in
-- The neighbour table: the three index columns joined, and the first-row nodes scattered at them into the starting table.
theorem stage_v45 : StableHlo.after (C1 (F := F)) X (Proc.devRef .tc main_v45) = val_main_v45 (F := F) (X (Proc.devRef .tc main_arg26)) := by
  obtain ⟨-, h1, h22, h41, h42, h43⟩ := stages X
  have h44 : StableHlo.after (C1 (F := F)) X (Proc.devRef .tc main_v44)
      = concatenate S16x512x3 2 [⟨S16x512x1, StableHlo.after (C1 (F := F)) X (Proc.devRef .tc main_v41)⟩,
          ⟨S16x512x1, StableHlo.after (C1 (F := F)) X (Proc.devRef .tc main_v42)⟩,
          ⟨S16x512x1, StableHlo.after (C1 (F := F)) X (Proc.devRef .tc main_v43)⟩] concatenates_S16x512x1_S16x512x1_S16x512x1_S16x512x3_d2 := by
    refrun_chunk1_open
    refrun_chunk1_results
    rfl
  have h45 : StableHlo.after (C1 (F := F)) X (Proc.devRef .tc main_v45)
      = Host.scatter scatter_S16x64x64_S16x512x3_S16x512_n_012_012_2 (fun _ b => b) (StableHlo.after (C1 (F := F)) X (Proc.devRef .tc main_v22))
          (StableHlo.after (C1 (F := F)) X (Proc.devRef .tc main_v44)) (StableHlo.after (C1 (F := F)) X (Proc.devRef .tc main_v1)) := by
    refrun_chunk1_open
    refrun_chunk1_results
    rfl
  rw [h45, h44, h22, h41, h42, h43, h1]
  rfl

end Chunk1

end Cert.ReferenceIdeal.RefRun

end
-- ==== Proof.RefRunC23.lean ====
import proofs.«430520_j28613072126860_3_alg».proof.Proof.RefOps
import proofs.«430520_j28613072126860_3_alg».proof.Proof.RefStages
import proofs.«430520_j28613072126860_3_alg».proof.Proof.RefRunDefs
import Idealize.ShloMosaic.Lib.StableHlo.Run

noncomputable section

namespace Cert.ReferenceIdeal.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in
-- Each operation's result is its function of its operands' contents: the fold over the stretch is the tower of stages.
theorem C2_nodec (X : Valuation τ sig (Elt F)) :
    StableHlo.after C2 X (Proc.devRef .tc main_v130)
      = val_main_v130 (F := F) (X (Proc.devRef .tc main_arg0)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15)) (X (Proc.devRef .tc main_arg16)) (X (Proc.devRef .tc main_arg17)) (X (Proc.devRef .tc main_arg18)) (X (Proc.devRef .tc main_arg19)) := by
  simp only [C2, ops, List.drop_succ_cons, List.drop_zero, List.take_succ_cons, List.take_zero]
  after_results_simp
  rfl

end Cert.ReferenceIdeal.RefRun

end
-- ==== Proof.RefRunC3.lean ====
import proofs.«430520_j28613072126860_3_alg».proof.Proof.RefOps
import proofs.«430520_j28613072126860_3_alg».proof.Proof.RefStages
import proofs.«430520_j28613072126860_3_alg».proof.Proof.RefRunDefs
import Idealize.ShloMosaic.Lib.StableHlo.Run

set_option maxRecDepth 16384

noncomputable section

namespace Cert.ReferenceIdeal.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

-- Entered with the node table, the neighbour table and the mask at their stages, the stretch leaves the first result at its stage.
theorem C3_res1 (X : Valuation τ sig (Elt F)) {x0 x4 x5 x6 x7 x8 x9 x10 x11 x12 x13 x14 x15 x16 x17 x18 x19 x26}
    (h130 : X (Proc.devRef .tc main_v130) = val_main_v130 (F := F) x0 x4 x5 x6 x7 x8 x9 x10 x11 x12 x13 x14 x15 x16 x17 x18 x19)
    (h45 : X (Proc.devRef .tc main_v45) = val_main_v45 (F := F) x26)
    (h73 : X (Proc.devRef .tc main_v73) = val_main_v73 (F := F) x26) :
    StableHlo.after C3 X (Proc.devRef .tc main_v141) = val_main_v141 (F := F) x0 x4 x5 x6 x7 x8 x9 x10 x11 x12 x13 x14 x15 x16 x17 x18 x19 x26 := by
  simp only [C3, ops, List.drop_succ_cons, List.drop_zero, List.take_succ_cons, List.take_zero]
  after_results
  rw [h130, h45, h73]
  rfl

end Cert.ReferenceIdeal.RefRun

end
-- ==== Proof.RefRunC45.lean ====
import proofs.«430520_j28613072126860_3_alg».proof.Proof.RefOps
import proofs.«430520_j28613072126860_3_alg».proof.Proof.RefStages
import proofs.«430520_j28613072126860_3_alg».proof.Proof.RefRunDefs
import Idealize.ShloMosaic.Lib.StableHlo.Run

set_option maxRecDepth 16384

noncomputable section

namespace Cert.ReferenceIdeal.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

namespace Edge

-- After the first nine operations the two broadcast halves of the pair table are their stages of the three pair arguments.
theorem head (X : Valuation τ sig (Elt F)) :
    StableHlo.after ((C4 (F := F)).take 9) X (Proc.devRef .tc main_v147)
        = val_main_v147 (F := F) (X (Proc.devRef .tc main_arg1)) (X (Proc.devRef .tc main_arg2)) (X (Proc.devRef .tc main_arg3))
    ∧ StableHlo.after ((C4 (F := F)).take 9) X (Proc.devRef .tc main_v149)
        = val_main_v149 (F := F) (X (Proc.devRef .tc main_arg1)) (X (Proc.devRef .tc main_arg2)) (X (Proc.devRef .tc main_arg3)) := by
  simp only [C4, ops, List.drop_succ_cons, List.drop_zero, List.take_succ_cons, List.take_zero]
  simp (disch := decide) only [after_cons, after_nil, nullary_result', unary_result', binary_result', reshape_result', nary3_result',
    nullary_result_ne', unary_result_ne', binary_result_ne', reshape_result_ne', nary_result_ne']
  exact ⟨rfl, rfl⟩

-- From contents that hold the two halves at their stages, the rest of the stretch leaves the relation table at its stage.
theorem tail_rel (Y : Valuation τ sig (Elt F)) {x1 x2 x3}
    (h147 : Y (Proc.devRef .tc main_v147) = val_main_v147 (F := F) x1 x2 x3)
    (h149 : Y (Proc.devRef .tc main_v149) = val_main_v149 (F := F) x1 x2 x3) :
    StableHlo.after ((C4 (F := F)).drop 9) Y (Proc.devRef .tc main_v172)
      = val_main_v172 (F := F) x1 x2 x3 (Y (Proc.devRef .tc main_arg20)) (Y (Proc.devRef .tc main_arg21))
          (Y (Proc.devRef .tc main_arg22)) (Y (Proc.devRef .tc main_arg23)) (Y (Proc.devRef .tc main_arg24))
          (Y (Proc.devRef .tc main_arg25)) := by
  simp only [C4, ops, List.drop_succ_cons, List.drop_zero, List.take_succ_cons, List.take_zero]
  after_results_simp
  rw [h147, h149]
  try simp only [TRef.ofBuf, TRef.toBuf, cast_eq]
  rfl

end Edge

-- The relation table after the fourth stretch, from any contents: the head gives the halves, the tail reads them, and the head writes no parameter.
theorem C4_rel (X : Valuation τ sig (Elt F)) : StableHlo.after C4 X (Proc.devRef .tc main_v172)
    = val_main_v172 (F := F) (X (Proc.devRef .tc main_arg1)) (X (Proc.devRef .tc main_arg2)) (X (Proc.devRef .tc main_arg3))
        (X (Proc.devRef .tc main_arg20)) (X (Proc.devRef .tc main_arg21)) (X (Proc.devRef .tc main_arg22))
        (X (Proc.devRef .tc main_arg23)) (X (Proc.devRef .tc main_arg24)) (X (Proc.devRef .tc main_arg25)) := by
  have k := after_keep (List.forall₂_take 9 (List.forall₂_take 38 (List.forall₂_drop 181 (writes_ops (F := F))))) X
  rw [← List.take_append_drop 9 (C4 (F := F)), StableHlo.after_append,
    Edge.tail_rel _ (Edge.head X).1 (Edge.head X).2]
  repeat (rw [k]; rotate_left; decide)

end Cert.ReferenceIdeal.RefRun

end
-- ==== Proof.RefRunC5.lean ====
import proofs.«430520_j28613072126860_3_alg».proof.Proof.RefOps
import proofs.«430520_j28613072126860_3_alg».proof.Proof.RefStages
import proofs.«430520_j28613072126860_3_alg».proof.Proof.RefRunDefs
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev C5a : List (HloOp τ sig (Elt F)) := (C5 (F := F)).take 20
abbrev C5b : List (HloOp τ sig (Elt F)) := (C5 (F := F)).drop 20

-- The first twenty operations make the two index arrays from the neighbour table.
theorem C5a_idx (X : Valuation τ sig (Elt F)) {x26} (h45 : X (Proc.devRef .tc main_v45) = val_main_v45 (F := F) x26) :
    StableHlo.after (C5a (F := F)) X (Proc.devRef .tc main_v187) = val_main_v187 (F := F) x26
    ∧ StableHlo.after (C5a (F := F)) X (Proc.devRef .tc main_v188) = val_main_v188 (F := F) x26 := by
  simp only [C5a, C5, ops, List.drop_succ_cons, List.drop_zero, List.take_succ_cons, List.take_zero]
  after_results_simp
  rw [h45]
  exact ⟨rfl, rfl⟩

-- The rest gathers the relation table at the joined indices and multiplies by the product of the two masks.
theorem C5b_res (Y : Valuation τ sig (Elt F)) {x1 x2 x3 x20 x21 x22 x23 x24 x25 x26}
    (h172 : Y (Proc.devRef .tc main_v172) = val_main_v172 (F := F) x1 x2 x3 x20 x21 x22 x23 x24 x25)
    (h187 : Y (Proc.devRef .tc main_v187) = val_main_v187 (F := F) x26)
    (h188 : Y (Proc.devRef .tc main_v188) = val_main_v188 (F := F) x26)
    (h73 : Y (Proc.devRef .tc main_v73) = val_main_v73 (F := F) x26) :
    StableHlo.after (C5b (F := F)) Y (Proc.devRef .tc main_v198) = val_main_v198 (F := F) x1 x2 x3 x20 x21 x22 x23 x24 x25 x26 := by
  simp only [C5b, C5, ops, List.drop_succ_cons, List.drop_zero]
  after_results_simp
  rw [h172, h187, h188, h73]
  rfl

-- Entered with the relation table, the neighbour table and the mask at their stages, the last stretch leaves the second result at its stage.
theorem C5_res2 (X : Valuation τ sig (Elt F)) {x1 x2 x3 x20 x21 x22 x23 x24 x25 x26}
    (h172 : X (Proc.devRef .tc main_v172) = val_main_v172 (F := F) x1 x2 x3 x20 x21 x22 x23 x24 x25)
    (h45 : X (Proc.devRef .tc main_v45) = val_main_v45 (F := F) x26)
    (h73 : X (Proc.devRef .tc main_v73) = val_main_v73 (F := F) x26) :
    StableHlo.after (C5 (F := F)) X (Proc.devRef .tc main_v198) = val_main_v198 (F := F) x1 x2 x3 x20 x21 x22 x23 x24 x25 x26 := by
  have k := after_keep (List.forall₂_take 20 (List.forall₂_drop 219 (writes_ops (F := F)))) X
  rw [← List.take_append_drop 20 (C5 (F := F)), StableHlo.after_append]
  exact C5b_res _ ((k main_v172 (by decide)).trans h172) (C5a_idx X h45).1 (C5a_idx X h45).2 ((k main_v73 (by decide)).trans h73)

end Cert.ReferenceIdeal.RefRun

end
-- ==== Proof.RefRun.lean ====
import proofs.«430520_j28613072126860_3_alg».proof.Proof.RefRunDefs
import proofs.«430520_j28613072126860_3_alg».proof.Proof.RefRunC1
import proofs.«430520_j28613072126860_3_alg».proof.Proof.RefRunC23
import proofs.«430520_j28613072126860_3_alg».proof.Proof.RefRunC3
import proofs.«430520_j28613072126860_3_alg».proof.Proof.RefRunC45
import proofs.«430520_j28613072126860_3_alg».proof.Proof.RefRunC5

set_option maxRecDepth 16384

noncomputable section

namespace Cert.ReferenceIdeal.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

-- The node table (second stretch, the arguments kept by the first) and the neighbour table and mask (first stretch, kept by the second) meet in the third; the last two leave it.
theorem res1 (X : Valuation τ sig (Elt F)) :
    StableHlo.after (ops (F := F)) X (Proc.devRef .tc main_v141) = val_main_v141 (F := F) (X (Proc.devRef .tc main_arg0)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15)) (X (Proc.devRef .tc main_arg16)) (X (Proc.devRef .tc main_arg17)) (X (Proc.devRef .tc main_arg18)) (X (Proc.devRef .tc main_arg19)) (X (Proc.devRef .tc main_arg26)) := by
  have k1 := after_keep (List.forall₂_take 101 (writes_ops (F := F))) X
  rw [after_split, after_keep (List.forall₂_drop 219 (writes_ops (F := F))) _ main_v141 (by decide), keep 181 38 _ main_v141 (by decide)]
  refine C3_res1 _ ?_ ((keep 101 67 _ main_v45 (by decide)).trans (Chunk1.stage_v45 X))
    ((keep 101 67 _ main_v73 (by decide)).trans (Chunk1.stages X).1)
  rw [C2_nodec]
  repeat (rw [k1]; rotate_left; decide)

-- The relation table (fourth stretch, the arguments kept by the first three) and the neighbour table and mask (kept by the second, third and fourth) meet in the fifth.
theorem res2 (X : Valuation τ sig (Elt F)) :
    StableHlo.after (ops (F := F)) X (Proc.devRef .tc main_v198) = val_main_v198 (F := F) (X (Proc.devRef .tc main_arg1)) (X (Proc.devRef .tc main_arg2)) (X (Proc.devRef .tc main_arg3)) (X (Proc.devRef .tc main_arg20)) (X (Proc.devRef .tc main_arg21)) (X (Proc.devRef .tc main_arg22)) (X (Proc.devRef .tc main_arg23)) (X (Proc.devRef .tc main_arg24)) (X (Proc.devRef .tc main_arg25)) (X (Proc.devRef .tc main_arg26)) := by
  have k1 := after_keep (List.forall₂_take 101 (writes_ops (F := F))) X
  rw [after_split]
  refine C5_res2 _ ?_
    ((keep 181 38 _ main_v45 (by decide)).trans ((keep 168 13 _ main_v45 (by decide)).trans ((keep 101 67 _ main_v45 (by decide)).trans (Chunk1.stage_v45 X))))
    ((keep 181 38 _ main_v73 (by decide)).trans ((keep 168 13 _ main_v73 (by decide)).trans ((keep 101 67 _ main_v73 (by decide)).trans (Chunk1.stages X).1)))
  rw [C4_rel]
  repeat ((first | rw [keep 168 13] | rw [keep 101 67] | rw [k1]); rotate_left; decide)

-- Every execution terminates with each result at its stage of the arguments as launched, and no operation writes an argument.
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v141) = val_main_v141 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg26))
      ∧ r.2.mem ((c.tc : Thread nD τ).loc main_v198) = val_main_v198 (F := F) (m ((c.tc : Thread nD τ).loc main_arg1)) (m ((c.tc : Thread nD τ).loc main_arg2)) (m ((c.tc : Thread nD τ).loc main_arg3)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => by
      refine ⟨(h c _).trans (res1 (launchContents m c)), (h c _).trans (res2 (launchContents m c)), ?_⟩
      repeat' apply And.intro
      all_goals exact (h c _).trans (after_keep (writes_ops (F := F)) (launchContents m c) _ (by decide)))
    (run_seq scopedRefs_eq scopedSems_eq defs main (fun _ => ops) main_eq (fun _ => ops_sub) m ρ
      (fun _ => List.forall_iff_forall_mem.mp ops_fresh))

end Cert.ReferenceIdeal.RefRun

end
-- ==== Proof.K.Reg0.lean ====
import proofs.«430520_j28613072126860_3_alg».proof.Proof.Gen.Kernel.Launch
import proofs.«430520_j28613072126860_3_alg».proof.Proof.Gen.Kernel.Skeleton
import proofs.«430520_j28613072126860_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- the whole of a block of shape `s`
abbrev rW0 (s : Shape) o h := Rect.unit (s := s) o s.size h
abbrev r0_0 := rW0 S256x512 ![0, 0] inb_S256x512_S256x512_0_0
abbrev r0_1 := rW0 S512x256 ![0, 0] inb_S512x256_S512x256_0_0
abbrev r0_2 := rW0 S1x256 ![0, 0] inb_S1x256_S1x256_0_0
abbrev r0_3 := rW0 S256x128 ![0, 0] inb_S256x128_S256x128_0_0
abbrev r0_4 := rW0 S1x128 ![0, 0] inb_S1x128_S1x128_0_0
abbrev r0_5 := rW0 S128x64 ![0, 0] inb_S128x64_S128x64_0_0
abbrev r0_6 := rW0 S1x64 ![0, 0] inb_S1x64_S1x64_0_0
abbrev r0_7 := rW0 S64x8 ![0, 0] inb_S64x8_S64x8_0_0
abbrev r0_8 := rW0 S1x8 ![0, 0] inb_S1x8_S1x8_0_0
abbrev r0_9 := rW0 S256x8 ![0, 0] inb_S256x8_S256x8_0_0

def out0_17 (x0 : Vec F S256x512 .f32) (x1 : Vec F S512x256 .f32) (x2 : Vec F S1x256 .f32) (x3 : Vec F S1x256 .f32)
    (x4 : Vec F S1x256 .f32) (x5 : Vec F S1x256 .f32) (x6 : Vec F S1x256 .f32) (x7 : Vec F S256x128 .f32)
    (x8 : Vec F S1x128 .f32) (x9 : Vec F S1x128 .f32) (x10 : Vec F S1x128 .f32) (x11 : Vec F S1x128 .f32)
    (x12 : Vec F S1x128 .f32) (x13 : Vec F S128x64 .f32) (x14 : Vec F S1x64 .f32) (x15 : Vec F S64x8 .f32)
    (x16 : Vec F S1x8 .f32) : Vec F S256x8 .f32 :=
  View.canon [⟨r0_9, k0_pay1
    (k0_pay4
      (k0_pay2 (View.ld x0 r0_0) (View.ld x1 r0_1) (View.ld x2 r0_2) (View.ld x5 r0_2) (View.ld x6 r0_2)
        (View.ld x3 r0_2) (View.ld x4 r0_2) (View.ld x7 r0_3))
      (k0_pay3 (View.ld x8 r0_4))
      (View.ld x11 r0_4) (View.ld x12 r0_4) (View.ld x9 r0_4) (View.ld x10 r0_4)
      (View.ld x13 r0_5) (View.ld x14 r0_6) (View.ld x15 r0_7))
    (k0_pay5 (View.ld x16 r0_8))⟩]

set_option maxHeartbeats 1000000 in
-- the body keeps its inputs and leaves the output at `out0_17` of them: the stored pieces cover it
theorem sound_kernel0 (c : Dev nD) (E : Set ℕ) (i : grid0.Coords) (arg0 harg0 arg1 harg1 arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 x0 x1 x2 x3 x4 x5 x6 x7 x8 x9 x10 x11
    x12 x13 x14 x15 x16) (K : PUnit → sProp 𝕄) :
    let I : sProp 𝕄 := iprop(owns c.tc arg0 fullShare x0 ∗ owns c.tc arg1 fullShare x1
        ∗ owns c.tc arg2 fullShare x2 ∗ owns c.tc arg3 fullShare x3
        ∗ owns c.tc arg4 fullShare x4 ∗ owns c.tc arg5 fullShare x5
        ∗ owns c.tc arg6 fullShare x6 ∗ owns c.tc arg7 fullShare x7
        ∗ owns c.tc arg8 fullShare x8 ∗ owns c.tc arg9 fullShare x9
        ∗ owns c.tc arg10 fullShare x10 ∗ owns c.tc arg11 fullShare x11
        ∗ owns c.tc arg12 fullShare x12 ∗ owns c.tc arg13 fullShare x13
        ∗ owns c.tc arg14 fullShare x14 ∗ owns c.tc arg15 fullShare x15
        ∗ owns c.tc arg16 fullShare x16)
    iprop(I ∗ (∃ d, owns c.tc arg17 fullShare d) ∗ (iprop(I ∗ owns c.tc arg17 fullShare (out0_17 x0 x1 x2 x3 x4 x5 x6 x7 x8 x9 x10 x11 x12 x13 x14 x15 x16)) -∗ K ⟨⟩))
      ⊢ wp frame (wpE (defs₀ (F := F)) Variants.none c none) E
          (cc0__node_mlp_kernel i arg0 harg0 arg1 harg1 arg2 harg2 arg3 harg3 arg4 harg4 arg5 harg5 arg6 harg6 arg7 harg7
            arg8 harg8 arg9 harg9 arg10 harg10 arg11 harg11 arg12 harg12 arg13 harg13 arg14 harg14 arg15 harg15
            arg16 harg16 arg17 harg17) K := by
  dsimp only
  simp only [cc0__node_mlp_kernel_eq_skeleton]; unfold cc0__node_mlp_kernel_skel
  simp only [k0_part1_eq_skeleton]; unfold k0_part1_skel
  simp only [k0_part2_eq_skeleton]; unfold k0_part2_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩⟩,
    ⟨%d17, %f17, -, H17⟩, Hk⟩
  subst hf0 hf1 hf2 hf3 hf4 hf5 hf6 hf7 hf8 hf9 hf10 hf11 hf12 hf13 hf14 hf15 hf16
  sl_exec
  sl_step
  iapply Hk
  isplitr [H17]
  · isplitl [H0]; · iexists f0; isplitr; swap; iexact H0; ipureintro; rfl
    isplitl [H1]; · iexists f1; isplitr; swap; iexact H1; ipureintro; rfl
    isplitl [H2]; · iexists f2; isplitr; swap; iexact H2; ipureintro; rfl
    isplitl [H3]; · iexists f3; isplitr; swap; iexact H3; ipureintro; rfl
    isplitl [H4]; · iexists f4; isplitr; swap; iexact H4; ipureintro; rfl
    isplitl [H5]; · iexists f5; isplitr; swap; iexact H5; ipureintro; rfl
    isplitl [H6]; · iexists f6; isplitr; swap; iexact H6; ipureintro; rfl
    isplitl [H7]; · iexists f7; isplitr; swap; iexact H7; ipureintro; rfl
    isplitl [H8]; · iexists f8; isplitr; swap; iexact H8; ipureintro; rfl
    isplitl [H9]; · iexists f9; isplitr; swap; iexact H9; ipureintro; rfl
    isplitl [H10]; · iexists f10; isplitr; swap; iexact H10; ipureintro; rfl
    isplitl [H11]; · iexists f11; isplitr; swap; iexact H11; ipureintro; rfl
    isplitl [H12]; · iexists f12; isplitr; swap; iexact H12; ipureintro; rfl
    isplitl [H13]; · iexists f13; isplitr; swap; iexact H13; ipureintro; rfl
    isplitl [H14]; · iexists f14; isplitr; swap; iexact H14; ipureintro; rfl
    isplitl [H15]; · iexists f15; isplitr; swap; iexact H15; ipureintro; rfl
    iexists f16; isplitr; swap; iexact H16; ipureintro; rfl
  iexists _; isplitr
  swap; · iexact H17
  ipureintro
  try dsimp only
  exact View.read_writes_eq_canon _ _ _ (View.cover_of_tiled _ S256x8.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => out0_17 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t)
        (iblk0 V c 12 t) (iblk0 V c 13 t) (iblk0 V c 14 t) (iblk0 V c 15 t) (iblk0 V c 16 t)
    | ⟨_ + 18, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := rfl

theorem after0_17 (c : Dev nD) (t : Fin cfg0.N) : (dat0 V c).after 17 t =
    out0_17 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t)
      (iblk0 V c 12 t) (iblk0 V c 13 t) (iblk0 V c 14 t) (iblk0 V c 15 t) (iblk0 V c 16 t) := by dsimp only [dat0]

-- the body finds in an input window what it leaves there
theorem keep0 (c : Dev nD) : ∀ w : Fin cfg0.W, (cfg0.win w).isOut = false → ∀ t d, (dat0 V c).before w t d = (dat0 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d
  | ⟨9, _⟩, _, t, d | ⟨10, _⟩, _, t, d | ⟨11, _⟩, _, t, d | ⟨12, _⟩, _, t, d | ⟨13, _⟩, _, t, d | ⟨14, _⟩, _, t, d | ⟨15, _⟩, _, t, d | ⟨16, _⟩, _, t, d =>
    ((dat0 V c).before_in_eq_fetched _ rfl (fun _ => rfl) (fun _ _ _ => rfl) (fun _ => rfl) t d).trans rfl
  | ⟨17, _⟩, h, _, _ => Bool.noConfusion h
  | ⟨_ + 18, h⟩, _, _, _ => absurd h (Nat.not_lt.2 (Nat.le_add_left _ _))

-- the kernel's triple at the windows' blocks; the invariant and the debts pass through
theorem body_obligation0 (c : Dev nD) : BodyObligation (dat0 (F := F) V c) (defs₀ (F := F)) Variants.none () Set.univ := fun t => by
  rw [bigSep_W0, bigSep_W0]
  simp (disch := exact rfl) only [keep0 V c]
  dsimp only [dat0, Dat.owesAt, Dat.bound]
  show _ ⊢ wp frame _ _ (bodyAt0 t) _
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩⟩
  iapply sound_kernel0
  iframe
  isplitl [H17]; · iexists _; iexact H17
  iintro ⟨⟨H0, H1, H2, H3, H4, H5, H6, H7, H8, H9,
    H10, H11, H12, H13, H14, H15, H16⟩, H17⟩
  iframe

end Cert.Kernel.Hand

end
-- ==== Proof.K.Reg1.lean ====
import proofs.«430520_j28613072126860_3_alg».proof.Proof.Gen.Kernel.Launch
import proofs.«430520_j28613072126860_3_alg».proof.Proof.Gen.Kernel.Skeleton
import proofs.«430520_j28613072126860_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- the whole of a block of shape `s`
abbrev rW1 (s : Shape) o h := Rect.unit (s := s) o s.size h
abbrev r1_0 := rW1 S1x4096x18 ![0, 0, 0] inb_S1x4096x18_S1x4096x18_0_0_0
abbrev r1_1 := rW1 S18x64 ![0, 0] inb_S18x64_S18x64_0_0
abbrev r1_2 := rW1 S1x64 ![0, 0] inb_S1x64_S1x64_0_0
abbrev r1_3 := rW1 S64x64 ![0, 0] inb_S64x64_S64x64_0_0
abbrev r1_4 := rW1 S64x8 ![0, 0] inb_S64x8_S64x8_0_0
abbrev r1_5 := rW1 S1x8 ![0, 0] inb_S1x8_S1x8_0_0
abbrev r1_6 := rW1 S1x4096x8 ![0, 0, 0] inb_S1x4096x8_S1x4096x8_0_0_0

def out1_7 (x0 : Vec F S1x4096x18 .f32) (x1 : Vec F S18x64 .f32) (x2 : Vec F S1x64 .f32) (x3 : Vec F S64x64 .f32) (x4 : Vec F S1x64 .f32) (x5 : Vec F S64x8 .f32) (x6 : Vec F S1x8 .f32) : Vec F S1x4096x8 .f32 :=
  View.canon [⟨r1_6, k1_pay1 (View.ld x0 r1_0) (View.ld x1 r1_1) (View.ld x2 r1_2) (View.ld x3 r1_3) (View.ld x4 r1_2) (View.ld x5 r1_4) (View.ld x6 r1_5)⟩]

set_option maxHeartbeats 1000000 in
-- the body keeps its inputs and leaves the output at `out1_7` of them: the stored pieces cover it
theorem sound_kernel1 (c : Dev nD) (E : Set ℕ) (i : grid1.Coords) (arg1 harg1 arg2 harg2 arg3 harg3 arg4 harg4 arg5 harg5 arg6 harg6 arg7 harg7 arg8 harg8 x0 x1 x2 x3 x4 x5 x6) (K : PUnit → sProp 𝕄) :
    let I : sProp 𝕄 := iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6)
    iprop(I ∗ (∃ d, owns c.tc arg8 fullShare d) ∗ (iprop(I ∗ owns c.tc arg8 fullShare (out1_7 x0 x1 x2 x3 x4 x5 x6)) -∗ K ⟨⟩))
      ⊢ wp frame (wpE (defs₀ (F := F)) Variants.none c none) E (cc1__edge_mlp_kernel i arg1 harg1 arg2 harg2 arg3 harg3 arg4 harg4 arg5 harg5 arg6 harg6 arg7 harg7 arg8 harg8) K := by
  dsimp only
  simp only [cc1__edge_mlp_kernel_eq_skeleton]; unfold cc1__edge_mlp_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, Hk⟩
  subst hf0 hf1 hf2 hf3 hf4 hf5 hf6
  sl_exec
  sl_step
  iapply Hk
  isplitr [H7]
  · isplitl [H0]; · iexists f0; isplitr; swap; iexact H0; ipureintro; rfl
    isplitl [H1]; · iexists f1; isplitr; swap; iexact H1; ipureintro; rfl
    isplitl [H2]; · iexists f2; isplitr; swap; iexact H2; ipureintro; rfl
    isplitl [H3]; · iexists f3; isplitr; swap; iexact H3; ipureintro; rfl
    isplitl [H4]; · iexists f4; isplitr; swap; iexact H4; ipureintro; rfl
    isplitl [H5]; · iexists f5; isplitr; swap; iexact H5; ipureintro; rfl
    iexists f6; isplitr; swap; iexact H6; ipureintro; rfl
  iexists _; isplitr
  swap; · iexact H7
  ipureintro
  exact View.read_writes_eq_canon _ _ _ (View.cover_of_tiled _ S1x4096x8.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := rfl

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

-- the body finds in an input window what it leaves there
theorem keep1 (c : Dev nD) : ∀ w : Fin cfg1.W, (cfg1.win w).isOut = false → ∀ t d, (dat1 V c).before w t d = (dat1 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    ((dat1 V c).before_in_eq_fetched _ rfl (fun _ => rfl) (fun _ _ _ => rfl) (fun _ => rfl) t d).trans rfl
  | ⟨7, _⟩, h, _, _ => Bool.noConfusion h

-- the kernel's triple at the windows' blocks; the invariant and the debts pass through
theorem body_obligation1 (c : Dev nD) : BodyObligation (dat1 (F := F) V c) (defs₀ (F := F)) Variants.none () Set.univ := fun t => by
  rw [bigSep_W1, bigSep_W1]
  simp (disch := exact rfl) only [keep1 V c]
  dsimp only [dat1, Dat.owesAt, Dat.bound]
  show _ ⊢ wp frame _ _ (bodyAt1 t) _
  unfold bodyAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel1
  iframe
  isplitl [H7]; · iexists _; iexact H7
  iintro ⟨⟨H0, H1, H2, H3, H4, H5, H6⟩, H7⟩
  iframe

end Cert.Kernel.Hand

end
-- ==== Proof.K.Reg2.lean ====
import proofs.«430520_j28613072126860_3_alg».proof.Proof.Gen.Kernel.Launch
import proofs.«430520_j28613072126860_3_alg».proof.Proof.Gen.Kernel.Skeleton
import proofs.«430520_j28613072126860_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- the whole of a block of shape `s`
abbrev rW2 (s : Shape) o h := Rect.unit (s := s) o s.size h
abbrev r2_0 := rW2 S1x64x64x64 ![0, 0, 0, 0] inb_S1x64x64x64_S1x64x64x64_0_0_0_0
abbrev r2_1 := rW2 S1x64x8 ![0, 0, 0] inb_S1x64x8_S1x64x8_0_0_0
abbrev r2_2 := rW2 S1x64x64 ![0, 0, 0] inb_S1x64x64_S1x64x64_0_0_0
abbrev r2_3 := rW2 S64x64x8 ![0, 0, 0] inb_S64x64x8_S64x64x8_0_0_0

def out2_3 (x0 : Vec F S1x64x8 .f32) (x1 : Vec F S1x64x64x64 .bf16) (x2 : Vec F S1x64x64 .f32) : Vec F S64x64x8 .f32 :=
  View.canon [⟨r2_3, k2_pay1 (View.ld x1 r2_0) (View.ld x0 r2_1) (View.ld x2 r2_2)⟩]

set_option maxHeartbeats 1000000 in
-- the body keeps its inputs and leaves the output at `out2_3` of them: the stored pieces cover it
theorem sound_kernel2 (c : Dev nD) (E : Set ℕ) (i : grid2.Coords) (arg1 harg1 arg2 harg2 arg3 harg3 arg4 harg4 x0 x1 x2) (K : PUnit → sProp 𝕄) :
    let I : sProp 𝕄 := iprop(owns c.tc arg1 fullShare x0 ∗ owns c.tc arg2 fullShare x1 ∗ owns c.tc arg3 fullShare x2)
    iprop(I ∗ (∃ d, owns c.tc arg4 fullShare d) ∗ (iprop(I ∗ owns c.tc arg4 fullShare (out2_3 x0 x1 x2)) -∗ K ⟨⟩))
      ⊢ wp frame (wpE (defs₀ (F := F)) Variants.none c none) E (cc2__unary_gather_kernel i arg1 harg1 arg2 harg2 arg3 harg3 arg4 harg4) K := by
  dsimp only
  simp only [cc2__unary_gather_kernel_eq_skeleton]; unfold cc2__unary_gather_kernel_skel
  unfold owns
  iintro ⟨⟨⟨%f0, %hf0, H0⟩, ⟨%f1, %hf1, H1⟩, ⟨%f2, %hf2, H2⟩⟩, ⟨%d3, %f3, -, H3⟩, Hk⟩
  subst hf0 hf1 hf2
  sl_exec
  sl_step
  iapply Hk
  isplitr [H3]
  · isplitl [H0]; · iexists f0; isplitr; swap; iexact H0; ipureintro; rfl
    isplitl [H1]; · iexists f1; isplitr; swap; iexact H1; ipureintro; rfl
    iexists f2; isplitr; swap; iexact H2; ipureintro; rfl
  iexists _; isplitr
  swap; · iexact H3
  ipureintro
  exact View.read_writes_eq_canon _ _ _ (View.cover_of_tiled _ S64x64x8.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by dsimp only [dat2]

-- the body finds in an input window what it leaves there
theorem keep2 (c : Dev nD) : ∀ w : Fin cfg2.W, (cfg2.win w).isOut = false → ∀ t d, (dat2 V c).before w t d = (dat2 V c).after w t
  | ⟨0, _⟩, _, t, d | ⟨1, _⟩, _, t, d | ⟨2, _⟩, _, t, d =>
    ((dat2 V c).before_in_eq_fetched _ rfl (fun _ => rfl) (fun _ _ _ => rfl) (fun _ => rfl) t d).trans rfl
  | ⟨3, _⟩, h, _, _ => Bool.noConfusion h

-- the kernel's triple at the windows' blocks; the invariant and the debts pass through
theorem body_obligation2 (c : Dev nD) : BodyObligation (dat2 (F := F) V c) (defs₀ (F := F)) Variants.none () Set.univ := fun t => by
  rw [bigSep_W2, bigSep_W2]
  simp (disch := exact rfl) only [keep2 V c]
  dsimp only [dat2, Dat.owesAt, Dat.bound]
  show _ ⊢ wp frame _ _ (bodyAt2 t) _
  unfold bodyAt2
  iintro ⟨HΦ, Ho, ⟨%d0, H0⟩, ⟨%d1, H1⟩, ⟨%d2, H2⟩, ⟨%d3, H3⟩⟩
  iapply sound_kernel2
  iframe
  isplitl [H3]; · iexists _; iexact H3
  iintro ⟨⟨H0, H1, H2⟩, H3⟩
  iframe

end Cert.Kernel.Hand

end
-- ==== Proof.K.Reg3.lean ====
import proofs.«430520_j28613072126860_3_alg».proof.Proof.Gen.Kernel.Launch
import proofs.«430520_j28613072126860_3_alg».proof.Proof.Gen.Kernel.Skeleton
import proofs.«430520_j28613072126860_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1x64x64x64 := Rect.unit (s := S1x64x64x64) ![0, 0, 0, 0] S1x64x64x64.size inb_S1x64x64x64_S1x64x64x64_0_0_0_0
abbrev r3_1 : Rect S1x64x64 := Rect.unit (s := S1x64x64) ![0, 0, 0] S1x64x64.size inb_S1x64x64_S1x64x64_0_0_0
-- channel `r` of the first input's block, and of the output's
abbrev rI3 (r : ℕ) h := Rect.unit (s := S1x8x64x64) ![0, r, 0, 0] S1x1x64x64.size h
abbrev rO3 (r : ℕ) h := Rect.unit (s := S64x8x64x64) ![0, r, 0, 0] S64x1x64x64.size h
abbrev r3_2 := rI3 0 inb_S1x8x64x64_S1x1x64x64_0_0_0_0
abbrev r3_3 := rO3 0 inb_S64x8x64x64_S64x1x64x64_0_0_0_0
abbrev r3_4 := rI3 1 inb_S1x8x64x64_S1x1x64x64_0_1_0_0
abbrev r3_5 := rO3 1 inb_S64x8x64x64_S64x1x64x64_0_1_0_0
abbrev r3_6 := rI3 2 inb_S1x8x64x64_S1x1x64x64_0_2_0_0
abbrev r3_7 := rO3 2 inb_S64x8x64x64_S64x1x64x64_0_2_0_0
abbrev r3_8 := rI3 3 inb_S1x8x64x64_S1x1x64x64_0_3_0_0
abbrev r3_9 := rO3 3 inb_S64x8x64x64_S64x1x64x64_0_3_0_0
abbrev r3_10 := rI3 4 inb_S1x8x64x64_S1x1x64x64_0_4_0_0
abbrev r3_11 := rO3 4 inb_S64x8x64x64_S64x1x64x64_0_4_0_0
abbrev r3_12 := rI3 5 inb_S1x8x64x64_S1x1x64x64_0_5_0_0
abbrev r3_13 := rO3 5 inb_S64x8x64x64_S64x1x64x64_0_5_0_0
abbrev r3_14 := rI3 6 inb_S1x8x64x64_S1x1x64x64_0_6_0_0
abbrev r3_15 := rO3 6 inb_S64x8x64x64_S64x1x64x64_0_6_0_0
abbrev r3_16 := rI3 7 inb_S1x8x64x64_S1x1x64x64_0_7_0_0
abbrev r3_17 := rO3 7 inb_S64x8x64x64_S64x1x64x64_0_7_0_0

def out3_3 (x0 : Vec F S1x8x64x64 .f32) (x1 : Vec F S1x64x64x64 .bf16) (x2 : Vec F S1x64x64 .f32) : Vec F S64x8x64x64 .bf16 :=
  View.canon [⟨r3_17, k3_pay13 (k3_pay1 (View.ld x1 r3_0)) (k3_pay2 (View.ld x1 r3_0)) (k3_pay3 (View.ld x2 r3_1)) (View.ld x0 r3_16)⟩,
    ⟨r3_15, k3_pay12 (k3_pay1 (View.ld x1 r3_0)) (k3_pay2 (View.ld x1 r3_0)) (k3_pay3 (View.ld x2 r3_1)) (View.ld x0 r3_14)⟩,
    ⟨r3_13, k3_pay11 (k3_pay1 (View.ld x1 r3_0)) (k3_pay2 (View.ld x1 r3_0)) (k3_pay3 (View.ld x2 r3_1)) (View.ld x0 r3_12)⟩,
    ⟨r3_11, k3_pay10 (k3_pay1 (View.ld x1 r3_0)) (k3_pay2 (View.ld x1 r3_0)) (k3_pay3 (View.ld x2 r3_1)) (View.ld x0 r3_10)⟩,
    ⟨r3_9, k3_pay9 (k3_pay8 (k3_pay1 (View.ld x1 r3_0)) (k3_pay2 (View.ld x1 r3_0)) (k3_pay3 (View.ld x2 r3_1)) (View.ld x0 r3_8))⟩,
    ⟨r3_7, k3_pay7 (k3_pay1 (View.ld x1 r3_0)) (k3_pay2 (View.ld x1 r3_0)) (k3_pay3 (View.ld x2 r3_1)) (View.ld x0 r3_6)⟩,
    ⟨r3_5, k3_pay6 (k3_pay5 (View.ld x1 r3_0) (View.ld x2 r3_1) (View.ld x0 r3_4))⟩,
    ⟨r3_3, k3_pay4 (View.ld x1 r3_0) (View.ld x2 r3_1) (View.ld x0 r3_2)⟩]

theorem cover3_3 (p0 : Vec F S64x1x64x64 .bf16) (p1 : Vec F S64x1x64x64 .bf16) (p2 : Vec F S64x1x64x64 .bf16) (p3 : Vec F S64x1x64x64 .bf16) (p4 : Vec F S64x1x64x64 .bf16) (p5 : Vec F S64x1x64x64 .bf16) (p6 : Vec F S64x1x64x64 .bf16) (p7 : Vec F S64x1x64x64 .bf16) (y : S64x8x64x64.Idx) :
    ∃ pc ∈ ([⟨r3_17, p0⟩, ⟨r3_15, p1⟩, ⟨r3_13, p2⟩, ⟨r3_11, p3⟩, ⟨r3_9, p4⟩, ⟨r3_7, p5⟩, ⟨r3_5, p6⟩, ⟨r3_3, p7⟩] : List (View.Piece (Elt F) S64x8x64x64 .bf16)), y ∈ pc.1.set :=
  View.cover_of_tiled [⟨r3_17, p0⟩, ⟨r3_15, p1⟩, ⟨r3_13, p2⟩, ⟨r3_11, p3⟩, ⟨r3_9, p4⟩, ⟨r3_7, p5⟩, ⟨r3_5, p6⟩, ⟨r3_3, p7⟩] S64x1x64x64.size (by rfl) y

set_option maxHeartbeats 4000000 in
-- the body keeps its inputs and leaves the output at `out3_3` of them: the stored pieces cover it
theorem sound_kernel3 (c : Dev nD) (E : Set ℕ) (i : grid3.Coords) (arg1 harg1 arg2 harg2 arg3 harg3 arg4 harg4 x0 x1 x2) (K : PUnit → sProp 𝕄) :
    let I : sProp 𝕄 := iprop(owns c.tc arg1 fullShare x0 ∗ owns c.tc arg2 fullShare x1 ∗ owns c.tc arg3 fullShare x2)
    iprop(I ∗ (∃ d, owns c.tc arg4 fullShare d) ∗ (iprop(I ∗ owns c.tc arg4 fullShare (out3_3 x0 x1 x2)) -∗ K ⟨⟩))
      ⊢ wp frame (wpE (defs₀ (F := F)) Variants.none c none) E (cc3__binary_gather_kernel i arg1 harg1 arg2 harg2 arg3 harg3 arg4 harg4) K := by
  dsimp only
  simp only [cc3__binary_gather_kernel_eq_skeleton]; unfold cc3__binary_gather_kernel_skel
  simp only [k3_part4_eq_skeleton]; unfold k3_part4_skel
  simp only [k3_part1_eq_skeleton]; unfold k3_part1_skel
  simp only [k3_part2_eq_skeleton]; unfold k3_part2_skel
  simp only [k3_part3_eq_skeleton]; unfold k3_part3_skel
  unfold owns
  iintro ⟨⟨⟨%f0, %hf0, H0⟩, ⟨%f1, %hf1, H1⟩, ⟨%f2, %hf2, H2⟩⟩, ⟨%d3, %f3, -, H3⟩, Hk⟩
  subst hf0 hf1 hf2
  sl_exec
  sl_step
  iapply Hk
  isplitr [H3]
  · isplitl [H0]; · iexists f0; isplitr; swap; iexact H0; ipureintro; rfl
    isplitl [H1]; · iexists f1; isplitr; swap; iexact H1; ipureintro; rfl
    iexists f2; isplitr; swap; iexact H2; ipureintro; rfl
  iexists _; isplitr
  swap; · iexact H3
  ipureintro
  try dsimp only
  exact View.read_writes_eq_canon _ _ _ (cover3_3 _ _ _ _ _ _ _ _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = out3_3 (iblk3 V c 0 t) (iblk3 V c 1 t) (iblk3 V c 2 t) := by dsimp only [dat3]

-- the body finds in an input window what it leaves there
theorem keep3 (c : Dev nD) : ∀ w : Fin cfg3.W, (cfg3.win w).isOut = false → ∀ t d, (dat3 V c).before w t d = (dat3 V c).after w t
  | ⟨0, _⟩, _, t, d | ⟨1, _⟩, _, t, d | ⟨2, _⟩, _, t, d =>
    ((dat3 V c).before_in_eq_fetched _ rfl (fun _ => rfl) (fun _ _ _ => rfl) (fun _ => rfl) t d).trans rfl
  | ⟨3, _⟩, h, _, _ => Bool.noConfusion h

-- the kernel's triple at the windows' blocks; the invariant and the debts pass through
theorem body_obligation3 (c : Dev nD) : BodyObligation (dat3 (F := F) V c) (defs₀ (F := F)) Variants.none () Set.univ := fun t => by
  rw [bigSep_W3, bigSep_W3]
  simp (disch := exact rfl) only [keep3 V c]
  dsimp only [dat3, Dat.owesAt, Dat.bound]
  show _ ⊢ wp frame _ _ (bodyAt3 t) _
  unfold bodyAt3
  iintro ⟨HΦ, Ho, ⟨%d0, H0⟩, ⟨%d1, H1⟩, ⟨%d2, H2⟩, ⟨%d3, H3⟩⟩
  iapply sound_kernel3
  iframe
  isplitl [H3]; · iexists _; iexact H3
  iintro ⟨⟨H0, H1, H2⟩, H3⟩
  iframe

end Cert.Kernel.Hand

end
-- ==== Proof.K.Folds.lean ====
import proofs.«430520_j28613072126860_3_alg».proof.Proof.K.Reg0
import proofs.«430520_j28613072126860_3_alg».proof.Proof.K.Reg1
import proofs.«430520_j28613072126860_3_alg».proof.Proof.K.Reg2
import proofs.«430520_j28613072126860_3_alg».proof.Proof.K.Reg3

set_option maxRecDepth 16384

noncomputable section

namespace Cert.Kernel.Hand

open Cert.Kernel Cert.Kernel.Gen
open Idealize.ShloMosaic Idealize.ShloMosaic.TcCoe
open Idealize.SL Idealize.SL.BI
open scoped Idealize.SL.BI
open Idealize.SL.BI.BIBase Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- At a region's exit: its arrays at the proof data's last contents, every other buffer as at entry. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N :=
  Pipeline.withArrays_arr spec0 launch0.win.arr_inj c _ _ w
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N :=
  Pipeline.withArrays_arr spec1 launch1.win.arr_inj c _ _ w
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N :=
  Pipeline.withArrays_arr spec2 launch2.win.arr_inj c _ _ w
abbrev V10 : (c : Dev nD) → (b : Ref sig .tc) → Buf (Elt F) ((c : Thread nD τ).loc b) := fun c b => W10 m ρ c b
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N :=
  Pipeline.withArrays_arr spec3 launch3.win.arr_inj c _ _ w
abbrev W12 : Dev nD → Valuation τ sig (Elt F) := fun c => StableHlo.after hostOps4 (W11 m ρ c)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V10 m ρ) c
abbrev 𝒱₀ : Variants := Variants.none
abbrev L : GSem nD τ sig → Finset Unit := fun _ => ∅
abbrev lv : GSem nD τ sig → Unit → ℕ := fun _ _ => 0
/-- The thread state beside the buffers: some generator state, and no obligation outstanding. -/
abbrev R (c : Dev nD) : sProp 𝕄 := iprop((∃ r, prngReg c r) ∗ ∃ W, owes (c : Thread nD τ) (0 : CellTallies nD τ sig Unit) W)
/-- A stretch of host operations, none allocating, as a segment over the unscoped references from the contents `W`. -/
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

end Cert.Kernel.Hand

end
-- ==== Proof.K.Keep.lean ====
import proofs.«430520_j28613072126860_3_alg».proof.Proof.K.Folds

set_option maxRecDepth 16384

noncomputable section

namespace Cert.Kernel.Hand

open Cert.Kernel Cert.Kernel.Gen
open Idealize.ShloMosaic Idealize.ShloMosaic.TcCoe
open Idealize.ShloMosaic.Pipeline (Dat Cfg)

variable {F : FTy → Type} [FloatOps F]

variable (m : (ℓ : Loc nD τ sig) → Buf (Elt F) ℓ) (ρ : Dev nD → PrngReg)

theorem singleton_sub_written {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A reference outside a list holding the one result each operation writes keeps its contents through the stretch. -/
theorem keep_after {ops : List (HloOp τ sig (Elt F))} {W : List (Ref sig .tc)} (V : Valuation τ sig (Elt F)) {b : Ref sig .tc} (hb : b ∉ W)
    (hW : ops.Forall fun op => op.writes ⊆ (W.map (Proc.devRef (τ := τ) .tc)).toFinset := by
      simp only [List.Forall]; repeat' constructor
      all_goals exact singleton_sub_written (by decide)) :
    StableHlo.after ops V (Proc.devRef .tc b) = V (Proc.devRef .tc b) :=
  StableHlo.after_of_writes_sub ops V hW hb

def written_hostOps0 : List (Ref sig .tc) :=
  [main_v0, main_v1, main_v2, main_v3, main_v4, main_v5, main_v6, main_v7, main_v8, main_c, main_v9]
theorem keep_hostOps0 (c : Dev nD) (b : Ref sig .tc) (hb : b ∉ written_hostOps0) :
    W1 m ρ c (Proc.devRef .tc b) = W0 m ρ c (Proc.devRef .tc b) :=
  keep_after _ hb
def written_hostOps0_1 : List (Ref sig .tc) :=
  [main_call0_v0, main_call0_c, main_call0_v1, main_call0_v2, main_call0_v3, main_call0_v4, main_call0_c_0, main_call0_v5, main_v10]
theorem keep_hostOps0_1 (c : Dev nD) (b : Ref sig .tc) (hb : b ∉ written_hostOps0_1) :
    W2 m ρ c (Proc.devRef .tc b) = W1 m ρ c (Proc.devRef .tc b) :=
  keep_after _ hb
def written_hostOps0_2 : List (Ref sig .tc) :=
  [main_v11, main_v12, main_v13, main_v14, main_c_0, main_v15, main_c_1, main_v16, main_v17, main_c_2, main_v18, main_v19,
   main_c_3, main_v20, main_v21, main_v22, main_v23, main_v24, main_c_4, main_v25, main_v26, main_c_5, main_v27, main_v28,
   main_v29, main_c_6, main_v30, main_v31, main_c_7, main_v32, main_v33, main_v34, main_c_8, main_v35, main_v36, main_c_9,
   main_v37, main_v38, main_v39, main_v40, main_v41, main_v42, main_v43, main_v44, main_v45, main_c_10, main_v46, main_c_11,
   main_v47, main_v48, main_c_12, main_v49, main_v50, main_v51, main_c_13, main_v52, main_v53, main_c_14, main_v54, main_v55,
   main_v56, main_v57, main_v58, main_v59, main_v60, main_c_15, main_v61, main_v62, main_c_16, main_v63, main_v64, main_c_17,
   main_v65, main_v66, main_v67, main_v68, main_v69, main_v70, main_v71, main_v72, main_v73]
theorem keep_hostOps0_2 (c : Dev nD) (b : Ref sig .tc) (hb : b ∉ written_hostOps0_2) :
    W3 m ρ c (Proc.devRef .tc b) = W2 m ρ c (Proc.devRef .tc b) :=
  keep_after _ hb
def written_hostOps0_3 : List (Ref sig .tc) :=
  [main_call1_v0, main_call1_v1, main_call1_v2, main_call1_v3, main_call1_v4, main_v74]
theorem keep_hostOps0_3 (c : Dev nD) (b : Ref sig .tc) (hb : b ∉ written_hostOps0_3) :
    W4 m ρ c (Proc.devRef .tc b) = W3 m ρ c (Proc.devRef .tc b) :=
  keep_after _ hb
def written_hostOps0_4 : List (Ref sig .tc) :=
  [main_v75, main_v76, main_v77, main_v78, main_v79, main_v80, main_v81, main_v82, main_v83, main_v84, main_v85, main_v86,
   main_v87]
theorem keep_hostOps0_4 (c : Dev nD) (b : Ref sig .tc) (hb : b ∉ written_hostOps0_4) :
    W5 m ρ c (Proc.devRef .tc b) = W4 m ρ c (Proc.devRef .tc b) :=
  keep_after _ hb
def written_hostOps1 : List (Ref sig .tc) :=
  [main_v89, main_cst, main_v90, main_v91, main_v92, main_v93, main_v94, main_v95, main_v96, main_v97, main_v98, main_v99,
   main_v100, main_v101, main_v102]
theorem keep_hostOps1 (c : Dev nD) (b : Ref sig .tc) (hb : b ∉ written_hostOps1) :
    W7 m ρ c (Proc.devRef .tc b) = W6 m ρ c (Proc.devRef .tc b) :=
  keep_after _ hb
def written_hostOps2 : List (Ref sig .tc) :=
  [main_v104, main_v105]
theorem keep_hostOps2 (c : Dev nD) (b : Ref sig .tc) (hb : b ∉ written_hostOps2) :
    W9 m ρ c (Proc.devRef .tc b) = W8 m ρ c (Proc.devRef .tc b) :=
  keep_after _ hb
def written_hostOps4 : List (Ref sig .tc) :=
  [main_v108, main_v109]
theorem keep_hostOps4 (c : Dev nD) (b : Ref sig .tc) (hb : b ∉ written_hostOps4) :
    W12 m ρ c (Proc.devRef .tc b) = W11 m ρ c (Proc.devRef .tc b) :=
  keep_after _ hb

/-- Of what a region leaves, only its output array `o` differs from what it found: no input array changes. -/
theorem keep_arrays {cfg : Cfg sig Λ₀} {c : Dev nD} (d : Dat τ (Elt F) Unit ℕ (UR sig nD τ) ℕ cfg c)
    (hinj : Function.Injective (Pipeline.arrRef cfg.spec)) {V : Valuation τ sig (Elt F)}
    (hA : ∀ w, d.A w = V (Proc.devRef .tc (Pipeline.arrRef cfg.spec w))) {o b : Ref sig .tc}
    (ho : ∀ w, Pipeline.arrRef cfg.spec w ≠ o → (cfg.win w).isOut = false) (hb : b ≠ o) :
    Pipeline.withArrays cfg.spec c V (fun w => d.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans ((d.arrAt_in w (ho w hb) _).trans (hA w))
  · exact Pipeline.withArrays_of_ne _ c _ _ b fun w e => h ⟨w, e⟩
theorem keep_reg0 (c : Dev nD) (b : Ref sig .tc) (hb : b ≠ main_v88) :
    W6 m ρ c (Proc.devRef .tc b) = W5 m ρ c (Proc.devRef .tc b) :=
  keep_arrays (dat0 (V5 m ρ) c) launch0.win.arr_inj (A_eq0 (V5 m ρ) c) (by decide) hb
theorem keep_reg1 (c : Dev nD) (b : Ref sig .tc) (hb : b ≠ main_v103) :
    W8 m ρ c (Proc.devRef .tc b) = W7 m ρ c (Proc.devRef .tc b) :=
  keep_arrays (dat1 (V7 m ρ) c) launch1.win.arr_inj (A_eq1 (V7 m ρ) c) (by decide) hb
theorem keep_reg2 (c : Dev nD) (b : Ref sig .tc) (hb : b ≠ main_v106) :
    W10 m ρ c (Proc.devRef .tc b) = W9 m ρ c (Proc.devRef .tc b) :=
  keep_arrays (dat2 (V9 m ρ) c) launch2.win.arr_inj (A_eq2 (V9 m ρ) c) (by decide) hb
theorem keep_reg3 (c : Dev nD) (b : Ref sig .tc) (hb : b ≠ main_v107) :
    W11 m ρ c (Proc.devRef .tc b) = W10 m ρ c (Proc.devRef .tc b) :=
  keep_arrays (dat3 (V10 m ρ) c) launch3.win.arr_inj (A_eq3 (V10 m ρ) c) (by decide) hb

end Cert.Kernel.Hand
-- ==== Proof.K.Seg0.lean ====
import proofs.«430520_j28613072126860_3_alg».proof.Proof.K.Folds

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Pipeline `p`'s region as a segment: its arrays leave the unscoped buffers held at `Win` and come back at their last contents. -/
def reg (p : Fin 4) (lf : Pipeline.LaunchFacts (nD := nD) (τ := τ) cfgs p) (Win : Dev nD → Valuation τ sig (Elt F))
    (hbody : ∀ c, BodyObligation (pdats m ρ p c) (defs₀ (F := F)) Variants.none () Set.univ)
    (hq : ∀ c w, (pdats m ρ p c).q w = fullShare) (hΦ : ∀ c t, (pdats m ρ p c).Φ t = Pipeline.ΦA (cfgs p).spec c)
    (howed : ∀ c t, (pdats m ρ p c).owed t = 0) (hrec : ∀ c, (pdats m ρ p c).recorded 0 = Set.univ)
    (hA : ∀ c w, (pdats m ρ p c).A w = Win c (Proc.devRef .tc (Pipeline.arrRef (cfgs p).spec w))) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig)
    (Pipeline.withArrays (cfgs p).spec c (Win c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Win c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (hrec c ▸ trivial)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Win c b)
      (fun b => Pipeline.withArrays (cfgs p).spec c (Win c) (fun w => (pdats m ρ p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.Kernel.Hand

end
-- ==== Proof.K.Run.lean ====
import proofs.«430520_j28613072126860_3_alg».proof.Proof.K.Seg0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub (W0 m ρ)),
    .host (hseg hostOps0_1 hostOps0_1_sub (W1 m ρ)),
    .host (hseg hostOps0_2 hostOps0_2_sub (W2 m ρ)),
    .host (hseg hostOps0_3 hostOps0_3_sub (W3 m ρ)),
    .host (hseg hostOps0_4 hostOps0_4_sub (W4 m ρ)),
    .region (reg m ρ 0 launch0 (W5 m ρ) (body_obligation0 (V5 m ρ)) (fun _ _ => rfl) (fun _ _ => rfl) (fun _ _ => rfl) (fun _ => rfl) fun _ _ => rfl),
    .host (hseg hostOps1 hostOps1_sub (W6 m ρ)),
    .region (reg m ρ 1 launch1 (W7 m ρ) (body_obligation1 (V7 m ρ)) (fun _ _ => rfl) (fun _ _ => rfl) (fun _ _ => rfl) (fun _ => rfl) fun _ _ => rfl),
    .host (hseg hostOps2 hostOps2_sub (W8 m ρ)),
    .region (reg m ρ 2 launch2 (W9 m ρ) (body_obligation2 (V9 m ρ)) (fun _ _ => rfl) (fun _ _ => rfl) (fun _ _ => rfl) (fun _ => rfl) fun _ _ => rfl),
    .region (reg m ρ 3 launch3 (W10 m ρ) (body_obligation3 (V10 m ρ)) (fun _ _ => rfl) (fun _ _ => rfl) (fun _ _ => rfl) (fun _ => rfl) fun _ _ => rfl),
    .host (hseg hostOps4 hostOps4_sub (W11 m ρ)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Hand

end
-- ==== Proof.K.Args.lean ====
import proofs.«430520_j28613072126860_3_alg».proof.Proof.K.Keep
import proofs.«430520_j28613072126860_3_alg».proof.Proof.K.Run

set_option maxRecDepth 16384

noncomputable section

namespace Cert.Kernel.Hand

open Cert.Kernel Cert.Kernel.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- No stretch of host operations writes `b`, and `b` is no region's output array. -/
abbrev Unwritten (b : Ref sig .tc) : Prop :=
  b ∉ written_hostOps0 ∧ b ∉ written_hostOps0_1 ∧ b ∉ written_hostOps0_2 ∧ b ∉ written_hostOps0_3 ∧ b ∉ written_hostOps0_4 ∧ b ≠ main_v88
    ∧ b ∉ written_hostOps1 ∧ b ≠ main_v103 ∧ b ∉ written_hostOps2 ∧ b ≠ main_v106 ∧ b ≠ main_v107 ∧ b ∉ written_hostOps4

/-- Such a reference holds at the last boundary what it held at launch: the twelve segments' keeping lemmas in turn. -/
theorem W12_keep (c : Dev nD) (b : Ref sig .tc) : Unwritten b → W12 m ρ c (Proc.devRef .tc b) = W0 m ρ c (Proc.devRef .tc b) :=
  fun ⟨h0, h1, h2, h3, h4, h5, h6, h7, h8, h9, h10, h11⟩ =>
  (keep_hostOps4 m ρ c b h11).trans <| (keep_reg3 m ρ c b h10).trans <| (keep_reg2 m ρ c b h9).trans <|
    (keep_hostOps2 m ρ c b h8).trans <| (keep_reg1 m ρ c b h7).trans <| (keep_hostOps1 m ρ c b h6).trans <|
    (keep_reg0 m ρ c b h5).trans <| (keep_hostOps0_4 m ρ c b h4).trans <| (keep_hostOps0_3 m ρ c b h3).trans <|
    (keep_hostOps0_2 m ρ c b h2).trans <| (keep_hostOps0_1 m ρ c b h1).trans (keep_hostOps0 m ρ c b h0)

/-- Core `c`'s argument arrays are in `r` as in the launch memory. -/
abbrev ArgsKept (r : PUnit × MemSt nD τ sig (Elt F)) (c : Dev nD) : Prop :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26].Forall fun b => r.2.mem ((c.tc : Thread nD τ).loc b) = m ((c.tc : Thread nD τ).loc b)

theorem args_of_run (r : PUnit × MemSt nD τ sig (Elt F))
    (h : ∀ c : Dev nD, ∀ b ∈ Pipeline.ucRefs τ sig, r.2.mem (((c : Thread nD τ)).1, b) = W12 m ρ c b) (c : Dev nD) : ArgsKept m r c := by
  simp only [List.Forall]; and_intros
  all_goals exact (h c _ (mem_uc _ (by decide))).trans (W12_keep m ρ c _ (by decide))

theorem frame : θ_run defs (onTc (τ := τ) (main (F := F))) ⟨m, fun _ => 0, ρ⟩ (fun r => ∀ c : Dev nD, ArgsKept m r c) :=
  (θ_run defs _ _).mono (args_of_run m ρ) (run_all m ρ)

end Cert.Kernel.Hand
-- ==== Proof.KI.Reg0.lean ====
import proofs.«430520_j28613072126860_3_alg».proof.Proof.Gen.KernelIdeal.Launch
import proofs.«430520_j28613072126860_3_alg».proof.Proof.Gen.KernelIdeal.Skeleton
import proofs.«430520_j28613072126860_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- the whole of a block of shape `s`
abbrev rW0 (s : Shape) o h := Rect.unit (s := s) o s.size h
abbrev r0_0 := rW0 S256x512 ![0, 0] inb_S256x512_S256x512_0_0
abbrev r0_1 := rW0 S512x256 ![0, 0] inb_S512x256_S512x256_0_0
abbrev r0_2 := rW0 S1x256 ![0, 0] inb_S1x256_S1x256_0_0
abbrev r0_3 := rW0 S256x128 ![0, 0] inb_S256x128_S256x128_0_0
abbrev r0_4 := rW0 S1x128 ![0, 0] inb_S1x128_S1x128_0_0
abbrev r0_5 := rW0 S128x64 ![0, 0] inb_S128x64_S128x64_0_0
abbrev r0_6 := rW0 S1x64 ![0, 0] inb_S1x64_S1x64_0_0
abbrev r0_7 := rW0 S64x8 ![0, 0] inb_S64x8_S64x8_0_0
abbrev r0_8 := rW0 S1x8 ![0, 0] inb_S1x8_S1x8_0_0
abbrev r0_9 := rW0 S256x8 ![0, 0] inb_S256x8_S256x8_0_0

def out0_17 (x0 : Vec F S256x512 .f32) (x1 : Vec F S512x256 .f32) (x2 : Vec F S1x256 .f32) (x3 : Vec F S1x256 .f32)
    (x4 : Vec F S1x256 .f32) (x5 : Vec F S1x256 .f32) (x6 : Vec F S1x256 .f32) (x7 : Vec F S256x128 .f32)
    (x8 : Vec F S1x128 .f32) (x9 : Vec F S1x128 .f32) (x10 : Vec F S1x128 .f32) (x11 : Vec F S1x128 .f32)
    (x12 : Vec F S1x128 .f32) (x13 : Vec F S128x64 .f32) (x14 : Vec F S1x64 .f32) (x15 : Vec F S64x8 .f32)
    (x16 : Vec F S1x8 .f32) : Vec F S256x8 .f32 :=
  View.canon [⟨r0_9, k0_pay1
    (k0_pay4
      (k0_pay2 (View.ld x0 r0_0) (View.ld x1 r0_1) (View.ld x2 r0_2) (View.ld x5 r0_2) (View.ld x6 r0_2)
        (View.ld x3 r0_2) (View.ld x4 r0_2) (View.ld x7 r0_3))
      (k0_pay3 (View.ld x8 r0_4))
      (View.ld x11 r0_4) (View.ld x12 r0_4) (View.ld x9 r0_4) (View.ld x10 r0_4)
      (View.ld x13 r0_5) (View.ld x14 r0_6) (View.ld x15 r0_7))
    (k0_pay5 (View.ld x16 r0_8))⟩]

set_option maxHeartbeats 1000000 in
-- the body keeps its inputs and leaves the output at `out0_17` of them: the stored pieces cover it
theorem sound_kernel0 (c : Dev nD) (E : Set ℕ) (i : grid0.Coords) (arg0 harg0 arg1 harg1 arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 x0 x1 x2 x3 x4 x5 x6 x7 x8 x9 x10 x11
    x12 x13 x14 x15 x16) (K : PUnit → sProp 𝕄) :
    let I : sProp 𝕄 := iprop(owns c.tc arg0 fullShare x0 ∗ owns c.tc arg1 fullShare x1
        ∗ owns c.tc arg2 fullShare x2 ∗ owns c.tc arg3 fullShare x3
        ∗ owns c.tc arg4 fullShare x4 ∗ owns c.tc arg5 fullShare x5
        ∗ owns c.tc arg6 fullShare x6 ∗ owns c.tc arg7 fullShare x7
        ∗ owns c.tc arg8 fullShare x8 ∗ owns c.tc arg9 fullShare x9
        ∗ owns c.tc arg10 fullShare x10 ∗ owns c.tc arg11 fullShare x11
        ∗ owns c.tc arg12 fullShare x12 ∗ owns c.tc arg13 fullShare x13
        ∗ owns c.tc arg14 fullShare x14 ∗ owns c.tc arg15 fullShare x15
        ∗ owns c.tc arg16 fullShare x16)
    iprop(I ∗ (∃ d, owns c.tc arg17 fullShare d) ∗ (iprop(I ∗ owns c.tc arg17 fullShare (out0_17 x0 x1 x2 x3 x4 x5 x6 x7 x8 x9 x10 x11 x12 x13 x14 x15 x16)) -∗ K ⟨⟩))
      ⊢ wp frame (wpE (defs₀ (F := F)) Variants.none c none) E
          (cc0__node_mlp_kernel i arg0 harg0 arg1 harg1 arg2 harg2 arg3 harg3 arg4 harg4 arg5 harg5 arg6 harg6 arg7 harg7
            arg8 harg8 arg9 harg9 arg10 harg10 arg11 harg11 arg12 harg12 arg13 harg13 arg14 harg14 arg15 harg15
            arg16 harg16 arg17 harg17) K := by
  dsimp only
  simp only [cc0__node_mlp_kernel_eq_skeleton]; unfold cc0__node_mlp_kernel_skel
  simp only [k0_part1_eq_skeleton]; unfold k0_part1_skel
  simp only [k0_part2_eq_skeleton]; unfold k0_part2_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩⟩,
    ⟨%d17, %f17, -, H17⟩, Hk⟩
  subst hf0 hf1 hf2 hf3 hf4 hf5 hf6 hf7 hf8 hf9 hf10 hf11 hf12 hf13 hf14 hf15 hf16
  sl_exec
  sl_step
  iapply Hk
  isplitr [H17]
  · isplitl [H0]; · iexists f0; isplitr; swap; iexact H0; ipureintro; rfl
    isplitl [H1]; · iexists f1; isplitr; swap; iexact H1; ipureintro; rfl
    isplitl [H2]; · iexists f2; isplitr; swap; iexact H2; ipureintro; rfl
    isplitl [H3]; · iexists f3; isplitr; swap; iexact H3; ipureintro; rfl
    isplitl [H4]; · iexists f4; isplitr; swap; iexact H4; ipureintro; rfl
    isplitl [H5]; · iexists f5; isplitr; swap; iexact H5; ipureintro; rfl
    isplitl [H6]; · iexists f6; isplitr; swap; iexact H6; ipureintro; rfl
    isplitl [H7]; · iexists f7; isplitr; swap; iexact H7; ipureintro; rfl
    isplitl [H8]; · iexists f8; isplitr; swap; iexact H8; ipureintro; rfl
    isplitl [H9]; · iexists f9; isplitr; swap; iexact H9; ipureintro; rfl
    isplitl [H10]; · iexists f10; isplitr; swap; iexact H10; ipureintro; rfl
    isplitl [H11]; · iexists f11; isplitr; swap; iexact H11; ipureintro; rfl
    isplitl [H12]; · iexists f12; isplitr; swap; iexact H12; ipureintro; rfl
    isplitl [H13]; · iexists f13; isplitr; swap; iexact H13; ipureintro; rfl
    isplitl [H14]; · iexists f14; isplitr; swap; iexact H14; ipureintro; rfl
    isplitl [H15]; · iexists f15; isplitr; swap; iexact H15; ipureintro; rfl
    iexists f16; isplitr; swap; iexact H16; ipureintro; rfl
  iexists _; isplitr
  swap; · iexact H17
  ipureintro
  try dsimp only
  exact View.read_writes_eq_canon _ _ _ (View.cover_of_tiled _ S256x8.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => out0_17 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t)
        (iblk0 V c 12 t) (iblk0 V c 13 t) (iblk0 V c 14 t) (iblk0 V c 15 t) (iblk0 V c 16 t)
    | ⟨_ + 18, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := rfl

theorem after0_17 (c : Dev nD) (t : Fin cfg0.N) : (dat0 V c).after 17 t =
    out0_17 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t)
      (iblk0 V c 12 t) (iblk0 V c 13 t) (iblk0 V c 14 t) (iblk0 V c 15 t) (iblk0 V c 16 t) := by dsimp only [dat0]

-- the body finds in an input window what it leaves there
theorem keep0 (c : Dev nD) : ∀ w : Fin cfg0.W, (cfg0.win w).isOut = false → ∀ t d, (dat0 V c).before w t d = (dat0 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d
  | ⟨9, _⟩, _, t, d | ⟨10, _⟩, _, t, d | ⟨11, _⟩, _, t, d | ⟨12, _⟩, _, t, d | ⟨13, _⟩, _, t, d | ⟨14, _⟩, _, t, d | ⟨15, _⟩, _, t, d | ⟨16, _⟩, _, t, d =>
    ((dat0 V c).before_in_eq_fetched _ rfl (fun _ => rfl) (fun _ _ _ => rfl) (fun _ => rfl) t d).trans rfl
  | ⟨17, _⟩, h, _, _ => Bool.noConfusion h
  | ⟨_ + 18, h⟩, _, _, _ => absurd h (Nat.not_lt.2 (Nat.le_add_left _ _))

-- the kernel's triple at the windows' blocks; the invariant and the debts pass through
theorem body_obligation0 (c : Dev nD) : BodyObligation (dat0 (F := F) V c) (defs₀ (F := F)) Variants.none () Set.univ := fun t => by
  rw [bigSep_W0, bigSep_W0]
  simp (disch := exact rfl) only [keep0 V c]
  dsimp only [dat0, Dat.owesAt, Dat.bound]
  show _ ⊢ wp frame _ _ (bodyAt0 t) _
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩⟩
  iapply sound_kernel0
  iframe
  isplitl [H17]; · iexists _; iexact H17
  iintro ⟨⟨H0, H1, H2, H3, H4, H5, H6, H7, H8, H9,
    H10, H11, H12, H13, H14, H15, H16⟩, H17⟩
  iframe

end Cert.KernelIdeal.Hand

end
-- ==== Proof.KI.Reg1.lean ====
import proofs.«430520_j28613072126860_3_alg».proof.Proof.Gen.KernelIdeal.Launch
import proofs.«430520_j28613072126860_3_alg».proof.Proof.Gen.KernelIdeal.Skeleton
import proofs.«430520_j28613072126860_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- the whole of a block of shape `s`
abbrev rW1 (s : Shape) o h := Rect.unit (s := s) o s.size h
abbrev r1_0 := rW1 S1x4096x18 ![0, 0, 0] inb_S1x4096x18_S1x4096x18_0_0_0
abbrev r1_1 := rW1 S18x64 ![0, 0] inb_S18x64_S18x64_0_0
abbrev r1_2 := rW1 S1x64 ![0, 0] inb_S1x64_S1x64_0_0
abbrev r1_3 := rW1 S64x64 ![0, 0] inb_S64x64_S64x64_0_0
abbrev r1_4 := rW1 S64x8 ![0, 0] inb_S64x8_S64x8_0_0
abbrev r1_5 := rW1 S1x8 ![0, 0] inb_S1x8_S1x8_0_0
abbrev r1_6 := rW1 S1x4096x8 ![0, 0, 0] inb_S1x4096x8_S1x4096x8_0_0_0

def out1_7 (x0 : Vec F S1x4096x18 .f32) (x1 : Vec F S18x64 .f32) (x2 : Vec F S1x64 .f32) (x3 : Vec F S64x64 .f32) (x4 : Vec F S1x64 .f32) (x5 : Vec F S64x8 .f32) (x6 : Vec F S1x8 .f32) : Vec F S1x4096x8 .f32 :=
  View.canon [⟨r1_6, k1_pay1 (View.ld x0 r1_0) (View.ld x1 r1_1) (View.ld x2 r1_2) (View.ld x3 r1_3) (View.ld x4 r1_2) (View.ld x5 r1_4) (View.ld x6 r1_5)⟩]

set_option maxHeartbeats 1000000 in
-- the body keeps its inputs and leaves the output at `out1_7` of them: the stored pieces cover it
theorem sound_kernel1 (c : Dev nD) (E : Set ℕ) (i : grid1.Coords) (arg1 harg1 arg2 harg2 arg3 harg3 arg4 harg4 arg5 harg5 arg6 harg6 arg7 harg7 arg8 harg8 x0 x1 x2 x3 x4 x5 x6) (K : PUnit → sProp 𝕄) :
    let I : sProp 𝕄 := iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6)
    iprop(I ∗ (∃ d, owns c.tc arg8 fullShare d) ∗ (iprop(I ∗ owns c.tc arg8 fullShare (out1_7 x0 x1 x2 x3 x4 x5 x6)) -∗ K ⟨⟩))
      ⊢ wp frame (wpE (defs₀ (F := F)) Variants.none c none) E (cc1__edge_mlp_kernel i arg1 harg1 arg2 harg2 arg3 harg3 arg4 harg4 arg5 harg5 arg6 harg6 arg7 harg7 arg8 harg8) K := by
  dsimp only
  simp only [cc1__edge_mlp_kernel_eq_skeleton]; unfold cc1__edge_mlp_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, Hk⟩
  subst hf0 hf1 hf2 hf3 hf4 hf5 hf6
  sl_exec
  sl_step
  iapply Hk
  isplitr [H7]
  · isplitl [H0]; · iexists f0; isplitr; swap; iexact H0; ipureintro; rfl
    isplitl [H1]; · iexists f1; isplitr; swap; iexact H1; ipureintro; rfl
    isplitl [H2]; · iexists f2; isplitr; swap; iexact H2; ipureintro; rfl
    isplitl [H3]; · iexists f3; isplitr; swap; iexact H3; ipureintro; rfl
    isplitl [H4]; · iexists f4; isplitr; swap; iexact H4; ipureintro; rfl
    isplitl [H5]; · iexists f5; isplitr; swap; iexact H5; ipureintro; rfl
    iexists f6; isplitr; swap; iexact H6; ipureintro; rfl
  iexists _; isplitr
  swap; · iexact H7
  ipureintro
  exact View.read_writes_eq_canon _ _ _ (View.cover_of_tiled _ S1x4096x8.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := rfl

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

-- the body finds in an input window what it leaves there
theorem keep1 (c : Dev nD) : ∀ w : Fin cfg1.W, (cfg1.win w).isOut = false → ∀ t d, (dat1 V c).before w t d = (dat1 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    ((dat1 V c).before_in_eq_fetched _ rfl (fun _ => rfl) (fun _ _ _ => rfl) (fun _ => rfl) t d).trans rfl
  | ⟨7, _⟩, h, _, _ => Bool.noConfusion h

-- the kernel's triple at the windows' blocks; the invariant and the debts pass through
theorem body_obligation1 (c : Dev nD) : BodyObligation (dat1 (F := F) V c) (defs₀ (F := F)) Variants.none () Set.univ := fun t => by
  rw [bigSep_W1, bigSep_W1]
  simp (disch := exact rfl) only [keep1 V c]
  dsimp only [dat1, Dat.owesAt, Dat.bound]
  show _ ⊢ wp frame _ _ (bodyAt1 t) _
  unfold bodyAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel1
  iframe
  isplitl [H7]; · iexists _; iexact H7
  iintro ⟨⟨H0, H1, H2, H3, H4, H5, H6⟩, H7⟩
  iframe

end Cert.KernelIdeal.Hand

end
-- ==== Proof.KI.Reg2.lean ====
import proofs.«430520_j28613072126860_3_alg».proof.Proof.Gen.KernelIdeal.Launch
import proofs.«430520_j28613072126860_3_alg».proof.Proof.Gen.KernelIdeal.Skeleton
import proofs.«430520_j28613072126860_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- the whole of a block of shape `s`
abbrev rW2 (s : Shape) o h := Rect.unit (s := s) o s.size h
abbrev r2_0 := rW2 S1x64x64x64 ![0, 0, 0, 0] inb_S1x64x64x64_S1x64x64x64_0_0_0_0
abbrev r2_1 := rW2 S1x64x8 ![0, 0, 0] inb_S1x64x8_S1x64x8_0_0_0
abbrev r2_2 := rW2 S1x64x64 ![0, 0, 0] inb_S1x64x64_S1x64x64_0_0_0
abbrev r2_3 := rW2 S64x64x8 ![0, 0, 0] inb_S64x64x8_S64x64x8_0_0_0

def out2_3 (x0 : Vec F S1x64x8 .f32) (x1 : Vec F S1x64x64x64 .bf16) (x2 : Vec F S1x64x64 .f32) : Vec F S64x64x8 .f32 :=
  View.canon [⟨r2_3, k2_pay1 (View.ld x1 r2_0) (View.ld x0 r2_1) (View.ld x2 r2_2)⟩]

set_option maxHeartbeats 1000000 in
-- the body keeps its inputs and leaves the output at `out2_3` of them: the stored pieces cover it
theorem sound_kernel2 (c : Dev nD) (E : Set ℕ) (i : grid2.Coords) (arg1 harg1 arg2 harg2 arg3 harg3 arg4 harg4 x0 x1 x2) (K : PUnit → sProp 𝕄) :
    let I : sProp 𝕄 := iprop(owns c.tc arg1 fullShare x0 ∗ owns c.tc arg2 fullShare x1 ∗ owns c.tc arg3 fullShare x2)
    iprop(I ∗ (∃ d, owns c.tc arg4 fullShare d) ∗ (iprop(I ∗ owns c.tc arg4 fullShare (out2_3 x0 x1 x2)) -∗ K ⟨⟩))
      ⊢ wp frame (wpE (defs₀ (F := F)) Variants.none c none) E (cc2__unary_gather_kernel i arg1 harg1 arg2 harg2 arg3 harg3 arg4 harg4) K := by
  dsimp only
  simp only [cc2__unary_gather_kernel_eq_skeleton]; unfold cc2__unary_gather_kernel_skel
  unfold owns
  iintro ⟨⟨⟨%f0, %hf0, H0⟩, ⟨%f1, %hf1, H1⟩, ⟨%f2, %hf2, H2⟩⟩, ⟨%d3, %f3, -, H3⟩, Hk⟩
  subst hf0 hf1 hf2
  sl_exec
  sl_step
  iapply Hk
  isplitr [H3]
  · isplitl [H0]; · iexists f0; isplitr; swap; iexact H0; ipureintro; rfl
    isplitl [H1]; · iexists f1; isplitr; swap; iexact H1; ipureintro; rfl
    iexists f2; isplitr; swap; iexact H2; ipureintro; rfl
  iexists _; isplitr
  swap; · iexact H3
  ipureintro
  exact View.read_writes_eq_canon _ _ _ (View.cover_of_tiled _ S64x64x8.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by dsimp only [dat2]

-- the body finds in an input window what it leaves there
theorem keep2 (c : Dev nD) : ∀ w : Fin cfg2.W, (cfg2.win w).isOut = false → ∀ t d, (dat2 V c).before w t d = (dat2 V c).after w t
  | ⟨0, _⟩, _, t, d | ⟨1, _⟩, _, t, d | ⟨2, _⟩, _, t, d =>
    ((dat2 V c).before_in_eq_fetched _ rfl (fun _ => rfl) (fun _ _ _ => rfl) (fun _ => rfl) t d).trans rfl
  | ⟨3, _⟩, h, _, _ => Bool.noConfusion h

-- the kernel's triple at the windows' blocks; the invariant and the debts pass through
theorem body_obligation2 (c : Dev nD) : BodyObligation (dat2 (F := F) V c) (defs₀ (F := F)) Variants.none () Set.univ := fun t => by
  rw [bigSep_W2, bigSep_W2]
  simp (disch := exact rfl) only [keep2 V c]
  dsimp only [dat2, Dat.owesAt, Dat.bound]
  show _ ⊢ wp frame _ _ (bodyAt2 t) _
  unfold bodyAt2
  iintro ⟨HΦ, Ho, ⟨%d0, H0⟩, ⟨%d1, H1⟩, ⟨%d2, H2⟩, ⟨%d3, H3⟩⟩
  iapply sound_kernel2
  iframe
  isplitl [H3]; · iexists _; iexact H3
  iintro ⟨⟨H0, H1, H2⟩, H3⟩
  iframe

end Cert.KernelIdeal.Hand

end
-- ==== Proof.KI.Reg3.lean ====
import proofs.«430520_j28613072126860_3_alg».proof.Proof.Gen.KernelIdeal.Launch
import proofs.«430520_j28613072126860_3_alg».proof.Proof.Gen.KernelIdeal.Skeleton
import proofs.«430520_j28613072126860_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1x64x64x64 := Rect.unit (s := S1x64x64x64) ![0, 0, 0, 0] S1x64x64x64.size inb_S1x64x64x64_S1x64x64x64_0_0_0_0
abbrev r3_1 : Rect S1x64x64 := Rect.unit (s := S1x64x64) ![0, 0, 0] S1x64x64.size inb_S1x64x64_S1x64x64_0_0_0
-- channel `r` of the first input's block, and of the output's
abbrev rI3 (r : ℕ) h := Rect.unit (s := S1x8x64x64) ![0, r, 0, 0] S1x1x64x64.size h
abbrev rO3 (r : ℕ) h := Rect.unit (s := S64x8x64x64) ![0, r, 0, 0] S64x1x64x64.size h
abbrev r3_2 := rI3 0 inb_S1x8x64x64_S1x1x64x64_0_0_0_0
abbrev r3_3 := rO3 0 inb_S64x8x64x64_S64x1x64x64_0_0_0_0
abbrev r3_4 := rI3 1 inb_S1x8x64x64_S1x1x64x64_0_1_0_0
abbrev r3_5 := rO3 1 inb_S64x8x64x64_S64x1x64x64_0_1_0_0
abbrev r3_6 := rI3 2 inb_S1x8x64x64_S1x1x64x64_0_2_0_0
abbrev r3_7 := rO3 2 inb_S64x8x64x64_S64x1x64x64_0_2_0_0
abbrev r3_8 := rI3 3 inb_S1x8x64x64_S1x1x64x64_0_3_0_0
abbrev r3_9 := rO3 3 inb_S64x8x64x64_S64x1x64x64_0_3_0_0
abbrev r3_10 := rI3 4 inb_S1x8x64x64_S1x1x64x64_0_4_0_0
abbrev r3_11 := rO3 4 inb_S64x8x64x64_S64x1x64x64_0_4_0_0
abbrev r3_12 := rI3 5 inb_S1x8x64x64_S1x1x64x64_0_5_0_0
abbrev r3_13 := rO3 5 inb_S64x8x64x64_S64x1x64x64_0_5_0_0
abbrev r3_14 := rI3 6 inb_S1x8x64x64_S1x1x64x64_0_6_0_0
abbrev r3_15 := rO3 6 inb_S64x8x64x64_S64x1x64x64_0_6_0_0
abbrev r3_16 := rI3 7 inb_S1x8x64x64_S1x1x64x64_0_7_0_0
abbrev r3_17 := rO3 7 inb_S64x8x64x64_S64x1x64x64_0_7_0_0

def out3_3 (x0 : Vec F S1x8x64x64 .f32) (x1 : Vec F S1x64x64x64 .bf16) (x2 : Vec F S1x64x64 .f32) : Vec F S64x8x64x64 .bf16 :=
  View.canon [⟨r3_17, k3_pay13 (k3_pay1 (View.ld x1 r3_0)) (k3_pay2 (View.ld x1 r3_0)) (k3_pay3 (View.ld x2 r3_1)) (View.ld x0 r3_16)⟩,
    ⟨r3_15, k3_pay12 (k3_pay1 (View.ld x1 r3_0)) (k3_pay2 (View.ld x1 r3_0)) (k3_pay3 (View.ld x2 r3_1)) (View.ld x0 r3_14)⟩,
    ⟨r3_13, k3_pay11 (k3_pay1 (View.ld x1 r3_0)) (k3_pay2 (View.ld x1 r3_0)) (k3_pay3 (View.ld x2 r3_1)) (View.ld x0 r3_12)⟩,
    ⟨r3_11, k3_pay10 (k3_pay1 (View.ld x1 r3_0)) (k3_pay2 (View.ld x1 r3_0)) (k3_pay3 (View.ld x2 r3_1)) (View.ld x0 r3_10)⟩,
    ⟨r3_9, k3_pay9 (k3_pay8 (k3_pay1 (View.ld x1 r3_0)) (k3_pay2 (View.ld x1 r3_0)) (k3_pay3 (View.ld x2 r3_1)) (View.ld x0 r3_8))⟩,
    ⟨r3_7, k3_pay7 (k3_pay1 (View.ld x1 r3_0)) (k3_pay2 (View.ld x1 r3_0)) (k3_pay3 (View.ld x2 r3_1)) (View.ld x0 r3_6)⟩,
    ⟨r3_5, k3_pay6 (k3_pay5 (View.ld x1 r3_0) (View.ld x2 r3_1) (View.ld x0 r3_4))⟩,
    ⟨r3_3, k3_pay4 (View.ld x1 r3_0) (View.ld x2 r3_1) (View.ld x0 r3_2)⟩]

theorem cover3_3 (p0 : Vec F S64x1x64x64 .bf16) (p1 : Vec F S64x1x64x64 .bf16) (p2 : Vec F S64x1x64x64 .bf16) (p3 : Vec F S64x1x64x64 .bf16) (p4 : Vec F S64x1x64x64 .bf16) (p5 : Vec F S64x1x64x64 .bf16) (p6 : Vec F S64x1x64x64 .bf16) (p7 : Vec F S64x1x64x64 .bf16) (y : S64x8x64x64.Idx) :
    ∃ pc ∈ ([⟨r3_17, p0⟩, ⟨r3_15, p1⟩, ⟨r3_13, p2⟩, ⟨r3_11, p3⟩, ⟨r3_9, p4⟩, ⟨r3_7, p5⟩, ⟨r3_5, p6⟩, ⟨r3_3, p7⟩] : List (View.Piece (Elt F) S64x8x64x64 .bf16)), y ∈ pc.1.set :=
  View.cover_of_tiled [⟨r3_17, p0⟩, ⟨r3_15, p1⟩, ⟨r3_13, p2⟩, ⟨r3_11, p3⟩, ⟨r3_9, p4⟩, ⟨r3_7, p5⟩, ⟨r3_5, p6⟩, ⟨r3_3, p7⟩] S64x1x64x64.size (by rfl) y

set_option maxHeartbeats 4000000 in
-- the body keeps its inputs and leaves the output at `out3_3` of them: the stored pieces cover it
theorem sound_kernel3 (c : Dev nD) (E : Set ℕ) (i : grid3.Coords) (arg1 harg1 arg2 harg2 arg3 harg3 arg4 harg4 x0 x1 x2) (K : PUnit → sProp 𝕄) :
    let I : sProp 𝕄 := iprop(owns c.tc arg1 fullShare x0 ∗ owns c.tc arg2 fullShare x1 ∗ owns c.tc arg3 fullShare x2)
    iprop(I ∗ (∃ d, owns c.tc arg4 fullShare d) ∗ (iprop(I ∗ owns c.tc arg4 fullShare (out3_3 x0 x1 x2)) -∗ K ⟨⟩))
      ⊢ wp frame (wpE (defs₀ (F := F)) Variants.none c none) E (cc3__binary_gather_kernel i arg1 harg1 arg2 harg2 arg3 harg3 arg4 harg4) K := by
  dsimp only
  simp only [cc3__binary_gather_kernel_eq_skeleton]; unfold cc3__binary_gather_kernel_skel
  simp only [k3_part4_eq_skeleton]; unfold k3_part4_skel
  simp only [k3_part1_eq_skeleton]; unfold k3_part1_skel
  simp only [k3_part2_eq_skeleton]; unfold k3_part2_skel
  simp only [k3_part3_eq_skeleton]; unfold k3_part3_skel
  unfold owns
  iintro ⟨⟨⟨%f0, %hf0, H0⟩, ⟨%f1, %hf1, H1⟩, ⟨%f2, %hf2, H2⟩⟩, ⟨%d3, %f3, -, H3⟩, Hk⟩
  subst hf0 hf1 hf2
  sl_exec
  sl_step
  iapply Hk
  isplitr [H3]
  · isplitl [H0]; · iexists f0; isplitr; swap; iexact H0; ipureintro; rfl
    isplitl [H1]; · iexists f1; isplitr; swap; iexact H1; ipureintro; rfl
    iexists f2; isplitr; swap; iexact H2; ipureintro; rfl
  iexists _; isplitr
  swap; · iexact H3
  ipureintro
  try dsimp only
  exact View.read_writes_eq_canon _ _ _ (cover3_3 _ _ _ _ _ _ _ _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = out3_3 (iblk3 V c 0 t) (iblk3 V c 1 t) (iblk3 V c 2 t) := by dsimp only [dat3]

-- the body finds in an input window what it leaves there
theorem keep3 (c : Dev nD) : ∀ w : Fin cfg3.W, (cfg3.win w).isOut = false → ∀ t d, (dat3 V c).before w t d = (dat3 V c).after w t
  | ⟨0, _⟩, _, t, d | ⟨1, _⟩, _, t, d | ⟨2, _⟩, _, t, d =>
    ((dat3 V c).before_in_eq_fetched _ rfl (fun _ => rfl) (fun _ _ _ => rfl) (fun _ => rfl) t d).trans rfl
  | ⟨3, _⟩, h, _, _ => Bool.noConfusion h

-- the kernel's triple at the windows' blocks; the invariant and the debts pass through
theorem body_obligation3 (c : Dev nD) : BodyObligation (dat3 (F := F) V c) (defs₀ (F := F)) Variants.none () Set.univ := fun t => by
  rw [bigSep_W3, bigSep_W3]
  simp (disch := exact rfl) only [keep3 V c]
  dsimp only [dat3, Dat.owesAt, Dat.bound]
  show _ ⊢ wp frame _ _ (bodyAt3 t) _
  unfold bodyAt3
  iintro ⟨HΦ, Ho, ⟨%d0, H0⟩, ⟨%d1, H1⟩, ⟨%d2, H2⟩, ⟨%d3, H3⟩⟩
  iapply sound_kernel3
  iframe
  isplitl [H3]; · iexists _; iexact H3
  iintro ⟨⟨H0, H1, H2⟩, H3⟩
  iframe

end Cert.KernelIdeal.Hand

end
-- ==== Proof.KI.Folds.lean ====
import proofs.«430520_j28613072126860_3_alg».proof.Proof.KI.Reg0
import proofs.«430520_j28613072126860_3_alg».proof.Proof.KI.Reg1
import proofs.«430520_j28613072126860_3_alg».proof.Proof.KI.Reg2
import proofs.«430520_j28613072126860_3_alg».proof.Proof.KI.Reg3

set_option maxRecDepth 16384

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.BI.BIBase Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- At a region's exit: its arrays at the proof data's last contents, every other buffer as at entry. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N :=
  Pipeline.withArrays_arr spec0 launch0.win.arr_inj c _ _ w
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N :=
  Pipeline.withArrays_arr spec1 launch1.win.arr_inj c _ _ w
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N :=
  Pipeline.withArrays_arr spec2 launch2.win.arr_inj c _ _ w
abbrev V10 : (c : Dev nD) → (b : Ref sig .tc) → Buf (Elt F) ((c : Thread nD τ).loc b) := fun c b => W10 m ρ c b
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N :=
  Pipeline.withArrays_arr spec3 launch3.win.arr_inj c _ _ w
abbrev W12 : Dev nD → Valuation τ sig (Elt F) := fun c => StableHlo.after hostOps4 (W11 m ρ c)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V10 m ρ) c
abbrev 𝒱₀ : Variants := Variants.none
abbrev L : GSem nD τ sig → Finset Unit := fun _ => ∅
abbrev lv : GSem nD τ sig → Unit → ℕ := fun _ _ => 0
/-- The thread state beside the buffers: some generator state, and no obligation outstanding. -/
abbrev R (c : Dev nD) : sProp 𝕄 := iprop((∃ r, prngReg c r) ∗ ∃ W, owes (c : Thread nD τ) (0 : CellTallies nD τ sig Unit) W)
/-- A stretch of host operations, none allocating, as a segment over the unscoped references from the contents `W`. -/
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

end Cert.KernelIdeal.Hand

end
-- ==== Proof.KI.Keep.lean ====
import proofs.«430520_j28613072126860_3_alg».proof.Proof.KI.Folds

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg)

variable {F : FTy → Type} [FloatOps F]

variable (m : (ℓ : Loc nD τ sig) → Buf (Elt F) ℓ) (ρ : Dev nD → PrngReg)

theorem singleton_sub_written {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A reference outside a list holding the one result each operation writes keeps its contents through the stretch. -/
theorem keep_after {ops : List (HloOp τ sig (Elt F))} {W : List (Ref sig .tc)} (V : Valuation τ sig (Elt F)) {b : Ref sig .tc} (hb : b ∉ W)
    (hW : ops.Forall fun op => op.writes ⊆ (W.map (Proc.devRef (τ := τ) .tc)).toFinset := by
      simp only [List.Forall]; repeat' constructor
      all_goals exact singleton_sub_written (by decide)) :
    StableHlo.after ops V (Proc.devRef .tc b) = V (Proc.devRef .tc b) :=
  StableHlo.after_of_writes_sub ops V hW hb

def written_hostOps0 : List (Ref sig .tc) :=
  [main_v0, main_v1, main_v2, main_v3, main_v4, main_v5, main_v6, main_v7, main_v8, main_c, main_v9]
theorem keep_hostOps0 (c : Dev nD) (b : Ref sig .tc) (hb : b ∉ written_hostOps0) :
    W1 m ρ c (Proc.devRef .tc b) = W0 m ρ c (Proc.devRef .tc b) :=
  keep_after _ hb
def written_hostOps0_1 : List (Ref sig .tc) :=
  [main_call0_v0, main_call0_c, main_call0_v1, main_call0_v2, main_call0_v3, main_call0_v4, main_call0_c_0, main_call0_v5, main_v10]
theorem keep_hostOps0_1 (c : Dev nD) (b : Ref sig .tc) (hb : b ∉ written_hostOps0_1) :
    W2 m ρ c (Proc.devRef .tc b) = W1 m ρ c (Proc.devRef .tc b) :=
  keep_after _ hb
def written_hostOps0_2 : List (Ref sig .tc) :=
  [main_v11, main_v12, main_v13, main_v14, main_c_0, main_v15, main_c_1, main_v16, main_v17, main_c_2, main_v18, main_v19,
   main_c_3, main_v20, main_v21, main_v22, main_v23, main_v24, main_c_4, main_v25, main_v26, main_c_5, main_v27, main_v28,
   main_v29, main_c_6, main_v30, main_v31, main_c_7, main_v32, main_v33, main_v34, main_c_8, main_v35, main_v36, main_c_9,
   main_v37, main_v38, main_v39, main_v40, main_v41, main_v42, main_v43, main_v44, main_v45, main_c_10, main_v46, main_c_11,
   main_v47, main_v48, main_c_12, main_v49, main_v50, main_v51, main_c_13, main_v52, main_v53, main_c_14, main_v54, main_v55,
   main_v56, main_v57, main_v58, main_v59, main_v60, main_c_15, main_v61, main_v62, main_c_16, main_v63, main_v64, main_c_17,
   main_v65, main_v66, main_v67, main_v68, main_v69, main_v70, main_v71, main_v72, main_v73]
theorem keep_hostOps0_2 (c : Dev nD) (b : Ref sig .tc) (hb : b ∉ written_hostOps0_2) :
    W3 m ρ c (Proc.devRef .tc b) = W2 m ρ c (Proc.devRef .tc b) :=
  keep_after _ hb
def written_hostOps0_3 : List (Ref sig .tc) :=
  [main_call1_v0, main_call1_v1, main_call1_v2, main_call1_v3, main_call1_v4, main_v74]
theorem keep_hostOps0_3 (c : Dev nD) (b : Ref sig .tc) (hb : b ∉ written_hostOps0_3) :
    W4 m ρ c (Proc.devRef .tc b) = W3 m ρ c (Proc.devRef .tc b) :=
  keep_after _ hb
def written_hostOps0_4 : List (Ref sig .tc) :=
  [main_v75, main_v76, main_v77, main_v78, main_v79, main_v80, main_v81, main_v82, main_v83, main_v84, main_v85, main_v86,
   main_v87]
theorem keep_hostOps0_4 (c : Dev nD) (b : Ref sig .tc) (hb : b ∉ written_hostOps0_4) :
    W5 m ρ c (Proc.devRef .tc b) = W4 m ρ c (Proc.devRef .tc b) :=
  keep_after _ hb
def written_hostOps1 : List (Ref sig .tc) :=
  [main_v89, main_cst, main_v90, main_v91, main_v92, main_v93, main_v94, main_v95, main_v96, main_v97, main_v98, main_v99,
   main_v100, main_v101, main_v102]
theorem keep_hostOps1 (c : Dev nD) (b : Ref sig .tc) (hb : b ∉ written_hostOps1) :
    W7 m ρ c (Proc.devRef .tc b) = W6 m ρ c (Proc.devRef .tc b) :=
  keep_after _ hb
def written_hostOps2 : List (Ref sig .tc) :=
  [main_v104, main_v105]
theorem keep_hostOps2 (c : Dev nD) (b : Ref sig .tc) (hb : b ∉ written_hostOps2) :
    W9 m ρ c (Proc.devRef .tc b) = W8 m ρ c (Proc.devRef .tc b) :=
  keep_after _ hb
def written_hostOps4 : List (Ref sig .tc) :=
  [main_v108, main_v109]
theorem keep_hostOps4 (c : Dev nD) (b : Ref sig .tc) (hb : b ∉ written_hostOps4) :
    W12 m ρ c (Proc.devRef .tc b) = W11 m ρ c (Proc.devRef .tc b) :=
  keep_after _ hb

/-- Of what a region leaves, only its output array `o` differs from what it found: no input array changes. -/
theorem keep_arrays {cfg : Cfg sig Λ₀} {c : Dev nD} (d : Dat τ (Elt F) Unit ℕ (UR sig nD τ) ℕ cfg c)
    (hinj : Function.Injective (Pipeline.arrRef cfg.spec)) {V : Valuation τ sig (Elt F)}
    (hA : ∀ w, d.A w = V (Proc.devRef .tc (Pipeline.arrRef cfg.spec w))) {o b : Ref sig .tc}
    (ho : ∀ w, Pipeline.arrRef cfg.spec w ≠ o → (cfg.win w).isOut = false) (hb : b ≠ o) :
    Pipeline.withArrays cfg.spec c V (fun w => d.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans ((d.arrAt_in w (ho w hb) _).trans (hA w))
  · exact Pipeline.withArrays_of_ne _ c _ _ b fun w e => h ⟨w, e⟩
theorem keep_reg0 (c : Dev nD) (b : Ref sig .tc) (hb : b ≠ main_v88) :
    W6 m ρ c (Proc.devRef .tc b) = W5 m ρ c (Proc.devRef .tc b) :=
  keep_arrays (dat0 (V5 m ρ) c) launch0.win.arr_inj (A_eq0 (V5 m ρ) c) (by decide) hb
theorem keep_reg1 (c : Dev nD) (b : Ref sig .tc) (hb : b ≠ main_v103) :
    W8 m ρ c (Proc.devRef .tc b) = W7 m ρ c (Proc.devRef .tc b) :=
  keep_arrays (dat1 (V7 m ρ) c) launch1.win.arr_inj (A_eq1 (V7 m ρ) c) (by decide) hb
theorem keep_reg2 (c : Dev nD) (b : Ref sig .tc) (hb : b ≠ main_v106) :
    W10 m ρ c (Proc.devRef .tc b) = W9 m ρ c (Proc.devRef .tc b) :=
  keep_arrays (dat2 (V9 m ρ) c) launch2.win.arr_inj (A_eq2 (V9 m ρ) c) (by decide) hb
theorem keep_reg3 (c : Dev nD) (b : Ref sig .tc) (hb : b ≠ main_v107) :
    W11 m ρ c (Proc.devRef .tc b) = W10 m ρ c (Proc.devRef .tc b) :=
  keep_arrays (dat3 (V10 m ρ) c) launch3.win.arr_inj (A_eq3 (V10 m ρ) c) (by decide) hb

end Cert.KernelIdeal.Hand
-- ==== Proof.KI.Seg0.lean ====
import proofs.«430520_j28613072126860_3_alg».proof.Proof.KI.Folds

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Pipeline `p`'s region as a segment: its arrays leave the unscoped buffers held at `Win` and come back at their last contents. -/
def reg (p : Fin 4) (lf : Pipeline.LaunchFacts (nD := nD) (τ := τ) cfgs p) (Win : Dev nD → Valuation τ sig (Elt F))
    (hbody : ∀ c, BodyObligation (pdats m ρ p c) (defs₀ (F := F)) Variants.none () Set.univ)
    (hq : ∀ c w, (pdats m ρ p c).q w = fullShare) (hΦ : ∀ c t, (pdats m ρ p c).Φ t = Pipeline.ΦA (cfgs p).spec c)
    (howed : ∀ c t, (pdats m ρ p c).owed t = 0) (hrec : ∀ c, (pdats m ρ p c).recorded 0 = Set.univ)
    (hA : ∀ c w, (pdats m ρ p c).A w = Win c (Proc.devRef .tc (Pipeline.arrRef (cfgs p).spec w))) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig)
    (Pipeline.withArrays (cfgs p).spec c (Win c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Win c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (hrec c ▸ trivial)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Win c b)
      (fun b => Pipeline.withArrays (cfgs p).spec c (Win c) (fun w => (pdats m ρ p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.KernelIdeal.Hand

end
-- ==== Proof.KI.Run.lean ====
import proofs.«430520_j28613072126860_3_alg».proof.Proof.KI.Seg0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub (W0 m ρ)),
    .host (hseg hostOps0_1 hostOps0_1_sub (W1 m ρ)),
    .host (hseg hostOps0_2 hostOps0_2_sub (W2 m ρ)),
    .host (hseg hostOps0_3 hostOps0_3_sub (W3 m ρ)),
    .host (hseg hostOps0_4 hostOps0_4_sub (W4 m ρ)),
    .region (reg m ρ 0 launch0 (W5 m ρ) (body_obligation0 (V5 m ρ)) (fun _ _ => rfl) (fun _ _ => rfl) (fun _ _ => rfl) (fun _ => rfl) fun _ _ => rfl),
    .host (hseg hostOps1 hostOps1_sub (W6 m ρ)),
    .region (reg m ρ 1 launch1 (W7 m ρ) (body_obligation1 (V7 m ρ)) (fun _ _ => rfl) (fun _ _ => rfl) (fun _ _ => rfl) (fun _ => rfl) fun _ _ => rfl),
    .host (hseg hostOps2 hostOps2_sub (W8 m ρ)),
    .region (reg m ρ 2 launch2 (W9 m ρ) (body_obligation2 (V9 m ρ)) (fun _ _ => rfl) (fun _ _ => rfl) (fun _ _ => rfl) (fun _ => rfl) fun _ _ => rfl),
    .region (reg m ρ 3 launch3 (W10 m ρ) (body_obligation3 (V10 m ρ)) (fun _ _ => rfl) (fun _ _ => rfl) (fun _ _ => rfl) (fun _ => rfl) fun _ _ => rfl),
    .host (hseg hostOps4 hostOps4_sub (W11 m ρ)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Hand

end
-- ==== Proof.KI.Args.lean ====
import proofs.«430520_j28613072126860_3_alg».proof.Proof.KI.Keep
import proofs.«430520_j28613072126860_3_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- No stretch of host operations writes `b`, and `b` is no region's output array. -/
abbrev Unwritten (b : Ref sig .tc) : Prop :=
  b ∉ written_hostOps0 ∧ b ∉ written_hostOps0_1 ∧ b ∉ written_hostOps0_2 ∧ b ∉ written_hostOps0_3 ∧ b ∉ written_hostOps0_4 ∧ b ≠ main_v88
    ∧ b ∉ written_hostOps1 ∧ b ≠ main_v103 ∧ b ∉ written_hostOps2 ∧ b ≠ main_v106 ∧ b ≠ main_v107 ∧ b ∉ written_hostOps4

/-- Such a reference holds at the last boundary what it held at launch: the twelve segments' keeping lemmas in turn. -/
theorem W12_keep (c : Dev nD) (b : Ref sig .tc) : Unwritten b → W12 m ρ c (Proc.devRef .tc b) = W0 m ρ c (Proc.devRef .tc b) :=
  fun ⟨h0, h1, h2, h3, h4, h5, h6, h7, h8, h9, h10, h11⟩ =>
  (keep_hostOps4 m ρ c b h11).trans <| (keep_reg3 m ρ c b h10).trans <| (keep_reg2 m ρ c b h9).trans <|
    (keep_hostOps2 m ρ c b h8).trans <| (keep_reg1 m ρ c b h7).trans <| (keep_hostOps1 m ρ c b h6).trans <|
    (keep_reg0 m ρ c b h5).trans <| (keep_hostOps0_4 m ρ c b h4).trans <| (keep_hostOps0_3 m ρ c b h3).trans <|
    (keep_hostOps0_2 m ρ c b h2).trans <| (keep_hostOps0_1 m ρ c b h1).trans (keep_hostOps0 m ρ c b h0)

/-- Core `c`'s argument arrays are in `r` as in the launch memory. -/
abbrev ArgsKept (r : PUnit × MemSt nD τ sig (Elt F)) (c : Dev nD) : Prop :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26].Forall fun b => r.2.mem ((c.tc : Thread nD τ).loc b) = m ((c.tc : Thread nD τ).loc b)

theorem args_of_run (r : PUnit × MemSt nD τ sig (Elt F))
    (h : ∀ c : Dev nD, ∀ b ∈ Pipeline.ucRefs τ sig, r.2.mem (((c : Thread nD τ)).1, b) = W12 m ρ c b) (c : Dev nD) : ArgsKept m r c := by
  simp only [List.Forall]; and_intros
  all_goals exact (h c _ (mem_uc _ (by decide))).trans (W12_keep m ρ c _ (by decide))

theorem frame : θ_run defs (onTc (τ := τ) (main (F := F))) ⟨m, fun _ => 0, ρ⟩ (fun r => ∀ c : Dev nD, ArgsKept m r c) :=
  (θ_run defs _ _).mono (args_of_run m ρ) (run_all m ρ)

end Cert.KernelIdeal.Hand
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev eps : EReal := Ideal.ofBits .f32 0x3727C5AC#32

def lin {K N : Nat} (x : Fin K → EReal) (w : Fin K → Fin N → EReal) (b : Fin N → EReal) (n : Fin N) : EReal :=
  (∑ k : Fin K, x k * w k n) + b n

def relu (x : EReal) : EReal := max x 0

def bn (z m v g β : EReal) : EReal := (z - m) * Ideal.rsqrt (v + eps) * g + β

structure NodeP where
  w1 : Fin 512 → Fin 256 → EReal
  b1 : Fin 256 → EReal
  g1 : Fin 256 → EReal
  β1 : Fin 256 → EReal
  m1 : Fin 256 → EReal
  v1 : Fin 256 → EReal
  w2 : Fin 256 → Fin 128 → EReal
  b2 : Fin 128 → EReal
  g2 : Fin 128 → EReal
  β2 : Fin 128 → EReal
  m2 : Fin 128 → EReal
  v2 : Fin 128 → EReal
  w3 : Fin 128 → Fin 64 → EReal
  b3 : Fin 64 → EReal
  wn : Fin 64 → Fin 8 → EReal
  bnc : Fin 8 → EReal

def nodeH1 (P : NodeP) (x : Fin 512 → EReal) (j : Fin 256) : EReal :=
  relu (bn (lin x P.w1 P.b1 j) (P.m1 j) (P.v1 j) (P.g1 j) (P.β1 j))
def nodeH2 (P : NodeP) (x : Fin 512 → EReal) (j : Fin 128) : EReal :=
  relu (bn (lin (nodeH1 P x) P.w2 P.b2 j) (P.m2 j) (P.v2 j) (P.g2 j) (P.β2 j))
def nodeH3 (P : NodeP) (x : Fin 512 → EReal) (j : Fin 64) : EReal :=
  relu (lin (nodeH2 P x) P.w3 P.b3 j)

def nodeRow (P : NodeP) (x : Fin 512 → EReal) (u : Fin 8) : EReal :=
  Ideal.logistic (lin (nodeH3 P x) P.wn P.bnc u)

structure EdgeP where
  we1 : Fin 18 → Fin 64 → EReal
  be1 : Fin 64 → EReal
  we2 : Fin 64 → Fin 64 → EReal
  be2 : Fin 64 → EReal
  wei : Fin 64 → Fin 8 → EReal
  bei : Fin 8 → EReal

def edgeH1 (Q : EdgeP) (p : Fin 18 → EReal) (j : Fin 64) : EReal := relu (lin p Q.we1 Q.be1 j)
def edgeH2 (Q : EdgeP) (p : Fin 18 → EReal) (j : Fin 64) : EReal := relu (lin (edgeH1 Q p) Q.we2 Q.be2 j)

def edgeRow (Q : EdgeP) (p : Fin 18 → EReal) (r : Fin 8) : EReal :=
  Ideal.logistic (lin (edgeH2 Q p) Q.wei Q.bei r)

def hi64 (r : Fin 1024) : Fin 16 := ⟨r.val / 64, by have := r.isLt; omega⟩

def lo64 (r : Fin 1024) : Fin 64 := ⟨r.val % 64, by omega⟩

def row64 (b : Fin 16) (n : Fin 64) : Fin 1024 := ⟨b.val * 64 + n.val, by have := b.isLt; have := n.isLt; omega⟩
theorem hi64_row64 (b : Fin 16) (n : Fin 64) : hi64 (row64 b n) = b := by
  apply Fin.ext; show (b.val * 64 + n.val) / 64 = b.val; have := n.isLt; omega
theorem lo64_row64 (b : Fin 16) (n : Fin 64) : lo64 (row64 b n) = n := by
  apply Fin.ext; show (b.val * 64 + n.val) % 64 = n.val; have := n.isLt; omega

def nodeP2 (w1 : (⟨2, ![512, 256]⟩ : Shape).Idx → EReal) (b1 g1 β1 m1 v1 : (⟨2, ![1, 256]⟩ : Shape).Idx → EReal)
    (w2 : (⟨2, ![256, 128]⟩ : Shape).Idx → EReal) (b2 g2 β2 m2 v2 : (⟨2, ![1, 128]⟩ : Shape).Idx → EReal)
    (w3 : (⟨2, ![128, 64]⟩ : Shape).Idx → EReal) (b3 : (⟨2, ![1, 64]⟩ : Shape).Idx → EReal)
    (wn : (⟨2, ![64, 8]⟩ : Shape).Idx → EReal) (bnc : (⟨2, ![1, 8]⟩ : Shape).Idx → EReal) : NodeP where
  w1 k n := w1 (ix2 k n)
  b1 n := b1 (ix2 0 n)
  g1 n := g1 (ix2 0 n)
  β1 n := β1 (ix2 0 n)
  m1 n := m1 (ix2 0 n)
  v1 n := v1 (ix2 0 n)
  w2 k n := w2 (ix2 k n)
  b2 n := b2 (ix2 0 n)
  g2 n := g2 (ix2 0 n)
  β2 n := β2 (ix2 0 n)
  m2 n := m2 (ix2 0 n)
  v2 n := v2 (ix2 0 n)
  w3 k n := w3 (ix2 k n)
  b3 n := b3 (ix2 0 n)
  wn k n := wn (ix2 k n)
  bnc n := bnc (ix2 0 n)

def nodeArr (x : (⟨2, ![1024, 512]⟩ : Shape).Idx → EReal)
    (w1 : (⟨2, ![512, 256]⟩ : Shape).Idx → EReal) (b1 g1 β1 m1 v1 : (⟨2, ![1, 256]⟩ : Shape).Idx → EReal)
    (w2 : (⟨2, ![256, 128]⟩ : Shape).Idx → EReal) (b2 g2 β2 m2 v2 : (⟨2, ![1, 128]⟩ : Shape).Idx → EReal)
    (w3 : (⟨2, ![128, 64]⟩ : Shape).Idx → EReal) (b3 : (⟨2, ![1, 64]⟩ : Shape).Idx → EReal)
    (wn : (⟨2, ![64, 8]⟩ : Shape).Idx → EReal) (bnc : (⟨2, ![1, 8]⟩ : Shape).Idx → EReal) :
    (⟨2, ![1024, 8]⟩ : Shape).Idx → EReal :=
  fun i => nodeRow (nodeP2 w1 b1 g1 β1 m1 v1 w2 b2 g2 β2 m2 v2 w3 b3 wn bnc) (fun k => x (ix2 (i 0) k)) (i 1)

def edgeP2 (we1 : (⟨2, ![18, 64]⟩ : Shape).Idx → EReal) (be1 : (⟨2, ![1, 64]⟩ : Shape).Idx → EReal)
    (we2 : (⟨2, ![64, 64]⟩ : Shape).Idx → EReal) (be2 : (⟨2, ![1, 64]⟩ : Shape).Idx → EReal)
    (wei : (⟨2, ![64, 8]⟩ : Shape).Idx → EReal) (bei : (⟨2, ![1, 8]⟩ : Shape).Idx → EReal) : EdgeP where
  we1 k n := we1 (ix2 k n)
  be1 n := be1 (ix2 0 n)
  we2 k n := we2 (ix2 k n)
  be2 n := be2 (ix2 0 n)
  wei k n := wei (ix2 k n)
  bei n := bei (ix2 0 n)

def edgeArr (pair : (⟨3, ![16, 4096, 18]⟩ : Shape).Idx → EReal)
    (we1 : (⟨2, ![18, 64]⟩ : Shape).Idx → EReal) (be1 : (⟨2, ![1, 64]⟩ : Shape).Idx → EReal)
    (we2 : (⟨2, ![64, 64]⟩ : Shape).Idx → EReal) (be2 : (⟨2, ![1, 64]⟩ : Shape).Idx → EReal)
    (wei : (⟨2, ![64, 8]⟩ : Shape).Idx → EReal) (bei : (⟨2, ![1, 8]⟩ : Shape).Idx → EReal) :
    (⟨3, ![16, 4096, 8]⟩ : Shape).Idx → EReal :=
  fun i => edgeRow (edgeP2 we1 be1 we2 be2 wei bei) (fun k => pair (ix3 (i 0) (i 1) k)) (i 2)

def ugArr (nodec : (⟨3, ![16, 64, 8]⟩ : Shape).Idx → EReal) (sel : (⟨4, ![16, 64, 64, 64]⟩ : Shape).Idx → EReal)
    (mask : (⟨3, ![16, 64, 64]⟩ : Shape).Idx → EReal) : (⟨3, ![1024, 64, 8]⟩ : Shape).Idx → EReal :=
  fun i => (∑ s : Fin 64, sel (ix4 (hi64 (i 0)) (lo64 (i 0)) (i 1) s) * nodec (ix3 (hi64 (i 0)) s (i 2)))
    * mask (ix3 (hi64 (i 0)) (lo64 (i 0)) (i 1))

def bgArr (rel : (⟨4, ![16, 8, 64, 64]⟩ : Shape).Idx → EReal) (sel : (⟨4, ![16, 64, 64, 64]⟩ : Shape).Idx → EReal)
    (mask : (⟨3, ![16, 64, 64]⟩ : Shape).Idx → EReal) : (⟨4, ![1024, 8, 64, 64]⟩ : Shape).Idx → EReal :=
  fun i => ((∑ q : Fin 64, (∑ p : Fin 64, sel (ix4 (hi64 (i 0)) (lo64 (i 0)) (i 2) p) * rel (ix4 (hi64 (i 0)) (i 1) p q))
        * sel (ix4 (hi64 (i 0)) (lo64 (i 0)) (i 3) q))
      * mask (ix3 (hi64 (i 0)) (lo64 (i 0)) (i 2))) * mask (ix3 (hi64 (i 0)) (lo64 (i 0)) (i 3))

def res1 (P : NodeP) (x : (⟨3, ![16, 64, 512]⟩ : Shape).Idx → EReal) (see : Fin 16 → Fin 64 → Fin 64 → Fin 64)
    (mask : (⟨3, ![16, 64, 64]⟩ : Shape).Idx → EReal) : (⟨3, ![1024, 64, 8]⟩ : Shape).Idx → EReal :=
  fun i => nodeRow P (fun k => x (ix3 (hi64 (i 0)) (see (hi64 (i 0)) (lo64 (i 0)) (i 1)) k)) (i 2)
    * mask (ix3 (hi64 (i 0)) (lo64 (i 0)) (i 1))

def res2 (Q : EdgeP) (pair : (⟨4, ![16, 64, 64, 18]⟩ : Shape).Idx → EReal) (see : Fin 16 → Fin 64 → Fin 64 → Fin 64)
    (mask : (⟨3, ![16, 64, 64]⟩ : Shape).Idx → EReal) : (⟨4, ![1024, 64, 64, 8]⟩ : Shape).Idx → EReal :=
  fun i => edgeRow Q (fun k => pair (ix4 (hi64 (i 0)) (see (hi64 (i 0)) (lo64 (i 0)) (i 1))
        (see (hi64 (i 0)) (lo64 (i 0)) (i 2)) k)) (i 3)
    * (mask (ix3 (hi64 (i 0)) (lo64 (i 0)) (i 1)) * mask (ix3 (hi64 (i 0)) (lo64 (i 0)) (i 2)))

theorem sum_sel_mul {n : Nat} (sel f : Fin n → EReal) (s₀ : Fin n) (h1 : sel s₀ = 1) (h0 : ∀ s, s ≠ s₀ → sel s = 0) :
    (∑ s : Fin n, sel s * f s) = f s₀ := by
  rw [Finset.sum_eq_single s₀ (fun s _ hs => by rw [h0 s hs, zero_mul]) (fun h => absurd (Finset.mem_univ _) h), h1, one_mul]

theorem sum_mul_sel {n : Nat} (sel f : Fin n → EReal) (s₀ : Fin n) (h1 : sel s₀ = 1) (h0 : ∀ s, s ≠ s₀ → sel s = 0) :
    (∑ s : Fin n, f s * sel s) = f s₀ :=
  (Finset.sum_congr rfl fun s _ => mul_comm _ _).trans (sum_sel_mul sel f s₀ h1 h0)

end Cert.Spec

end
-- ==== Proof.Spec2.lean ====
import proofs.«430520_j28613072126860_3_alg».proof.Proof.Spec

noncomputable section

open scoped BigOperators

namespace Cert.Spec

open Idealize.ShloMosaic Idealize.ShloMosaic.ValueIdx

def flat3 (x : (⟨3, ![16, 64, 512]⟩ : Shape).Idx → EReal) : (⟨2, ![1024, 512]⟩ : Shape).Idx → EReal :=
  fun i => x (ix3 (hi64 (i 0)) (lo64 (i 0)) (i 1))

def rowv {n : Nat} (v : (⟨1, ![n]⟩ : Shape).Idx → EReal) : (⟨2, ![1, n]⟩ : Shape).Idx → EReal :=
  fun i => v (ix1 (i 1))

def unflat8 (y : (⟨2, ![1024, 8]⟩ : Shape).Idx → EReal) : (⟨3, ![16, 64, 8]⟩ : Shape).Idx → EReal :=
  fun i => y (ix2 (row64 (i 0) (i 1)) (i 2))

def pq64 (p q : Fin 64) : Fin 4096 := ⟨p.val * 64 + q.val, by have := p.isLt; have := q.isLt; omega⟩
def hi4096 (r : Fin 4096) : Fin 64 := ⟨r.val / 64, by have := r.isLt; omega⟩
def lo4096 (r : Fin 4096) : Fin 64 := ⟨r.val % 64, by omega⟩
theorem hi4096_pq64 (p q : Fin 64) : hi4096 (pq64 p q) = p := by
  apply Fin.ext; show (p.val * 64 + q.val) / 64 = p.val; have := q.isLt; omega
theorem lo4096_pq64 (p q : Fin 64) : lo4096 (pq64 p q) = q := by
  apply Fin.ext; show (p.val * 64 + q.val) % 64 = q.val; have := q.isLt; omega

def pairFlat (p : (⟨4, ![16, 64, 64, 18]⟩ : Shape).Idx → EReal) : (⟨3, ![16, 4096, 18]⟩ : Shape).Idx → EReal :=
  fun i => p (ix4 (i 0) (hi4096 (i 1)) (lo4096 (i 1)) (i 2))

def relT (y : (⟨3, ![16, 4096, 8]⟩ : Shape).Idx → EReal) : (⟨4, ![16, 8, 64, 64]⟩ : Shape).Idx → EReal :=
  fun i => y (ix3 (i 0) (pq64 (i 2) (i 3)) (i 1))

def outT (z : (⟨4, ![1024, 8, 64, 64]⟩ : Shape).Idx → EReal) : (⟨4, ![1024, 64, 64, 8]⟩ : Shape).Idx → EReal :=
  fun i => z (ix4 (i 0) (i 3) (i 1) (i 2))

def nodeP1 (w1 : (⟨2, ![512, 256]⟩ : Shape).Idx → EReal) (b1 g1 β1 m1 v1 : (⟨1, ![256]⟩ : Shape).Idx → EReal)
    (w2 : (⟨2, ![256, 128]⟩ : Shape).Idx → EReal) (b2 g2 β2 m2 v2 : (⟨1, ![128]⟩ : Shape).Idx → EReal)
    (w3 : (⟨2, ![128, 64]⟩ : Shape).Idx → EReal) (b3 : (⟨1, ![64]⟩ : Shape).Idx → EReal)
    (wn : (⟨2, ![64, 8]⟩ : Shape).Idx → EReal) (bnc : (⟨1, ![8]⟩ : Shape).Idx → EReal) : NodeP where
  w1 k n := w1 (ix2 k n)
  b1 n := b1 (ix1 n)
  g1 n := g1 (ix1 n)
  β1 n := β1 (ix1 n)
  m1 n := m1 (ix1 n)
  v1 n := v1 (ix1 n)
  w2 k n := w2 (ix2 k n)
  b2 n := b2 (ix1 n)
  g2 n := g2 (ix1 n)
  β2 n := β2 (ix1 n)
  m2 n := m2 (ix1 n)
  v2 n := v2 (ix1 n)
  w3 k n := w3 (ix2 k n)
  b3 n := b3 (ix1 n)
  wn k n := wn (ix2 k n)
  bnc n := bnc (ix1 n)

def edgeP1 (we1 : (⟨2, ![18, 64]⟩ : Shape).Idx → EReal) (be1 : (⟨1, ![64]⟩ : Shape).Idx → EReal)
    (we2 : (⟨2, ![64, 64]⟩ : Shape).Idx → EReal) (be2 : (⟨1, ![64]⟩ : Shape).Idx → EReal)
    (wei : (⟨2, ![64, 8]⟩ : Shape).Idx → EReal) (bei : (⟨1, ![8]⟩ : Shape).Idx → EReal) : EdgeP where
  we1 k n := we1 (ix2 k n)
  be1 n := be1 (ix1 n)
  we2 k n := we2 (ix2 k n)
  be2 n := be2 (ix1 n)
  wei k n := wei (ix2 k n)
  bei n := bei (ix1 n)

def IsOneHot (sel : (⟨4, ![16, 64, 64, 64]⟩ : Shape).Idx → EReal) (see : Fin 16 → Fin 64 → Fin 64 → Fin 64) : Prop :=
  ∀ b n i s, sel (ix4 b n i s) = if s = see b n i then 1 else 0

theorem IsOneHot.at {sel see} (h : IsOneHot sel see) (b : Fin 16) (n i : Fin 64) : sel (ix4 b n i (see b n i)) = 1 := by
  rw [h b n i (see b n i), if_pos rfl]
-- A sum against the selector's row picks the term at the neighbour (selector on the left, on the right).
theorem IsOneHot.sum_left {sel see} (h : IsOneHot sel see) (b : Fin 16) (n i : Fin 64) (f : Fin 64 → EReal) :
    (∑ s, sel (ix4 b n i s) * f s) = f (see b n i) :=
  sum_sel_mul (fun s => sel (ix4 b n i s)) f _ (h.at b n i) fun s hs => by rw [h b n i s, if_neg hs]
theorem IsOneHot.sum_right {sel see} (h : IsOneHot sel see) (b : Fin 16) (n i : Fin 64) (f : Fin 64 → EReal) :
    (∑ s, f s * sel (ix4 b n i s)) = f (see b n i) :=
  sum_mul_sel (fun s => sel (ix4 b n i s)) f _ (h.at b n i) fun s hs => by rw [h b n i s, if_neg hs]

section Node

variable (X : (⟨3, ![16, 64, 512]⟩ : Shape).Idx → EReal)
    (w1 : (⟨2, ![512, 256]⟩ : Shape).Idx → EReal) (b1 g1 β1 m1 v1 : (⟨1, ![256]⟩ : Shape).Idx → EReal)
    (w2 : (⟨2, ![256, 128]⟩ : Shape).Idx → EReal) (b2 g2 β2 m2 v2 : (⟨1, ![128]⟩ : Shape).Idx → EReal)
    (w3 : (⟨2, ![128, 64]⟩ : Shape).Idx → EReal) (b3 : (⟨1, ![64]⟩ : Shape).Idx → EReal)
    (wn : (⟨2, ![64, 8]⟩ : Shape).Idx → EReal) (bnc : (⟨1, ![8]⟩ : Shape).Idx → EReal)

theorem res1_of (sel : (⟨4, ![16, 64, 64, 64]⟩ : Shape).Idx → EReal) (mask : (⟨3, ![16, 64, 64]⟩ : Shape).Idx → EReal)
    (see : Fin 16 → Fin 64 → Fin 64 → Fin 64) (h : IsOneHot sel see) :
    ugArr (unflat8 (nodeArr (flat3 X) w1 (rowv b1) (rowv g1) (rowv β1) (rowv m1) (rowv v1) w2 (rowv b2) (rowv g2) (rowv β2) (rowv m2) (rowv v2)
      w3 (rowv b3) wn (rowv bnc))) sel mask
      = res1 (nodeP1 w1 b1 g1 β1 m1 v1 w2 b2 g2 β2 m2 v2 w3 b3 wn bnc) X see mask := by
  funext i
  unfold ugArr
  rw [h.sum_left (hi64 (i 0)) (lo64 (i 0)) (i 1)]
  show nodeRow _ (fun k => X (ix3 (hi64 (row64 _ _)) (lo64 (row64 _ _)) k)) _ * _ = _
  rewrite [hi64_row64, lo64_row64]
  rfl

end Node

section Edge

variable (P : (⟨4, ![16, 64, 64, 18]⟩ : Shape).Idx → EReal)
    (we1 : (⟨2, ![18, 64]⟩ : Shape).Idx → EReal) (be1 : (⟨1, ![64]⟩ : Shape).Idx → EReal)
    (we2 : (⟨2, ![64, 64]⟩ : Shape).Idx → EReal) (be2 : (⟨1, ![64]⟩ : Shape).Idx → EReal)
    (wei : (⟨2, ![64, 8]⟩ : Shape).Idx → EReal) (bei : (⟨1, ![8]⟩ : Shape).Idx → EReal)

theorem res2_of (sel : (⟨4, ![16, 64, 64, 64]⟩ : Shape).Idx → EReal) (mask : (⟨3, ![16, 64, 64]⟩ : Shape).Idx → EReal)
    (see : Fin 16 → Fin 64 → Fin 64 → Fin 64) (h : IsOneHot sel see) :
    outT (bgArr (relT (edgeArr (pairFlat P) we1 (rowv be1) we2 (rowv be2) wei (rowv bei))) sel mask)
      = res2 (edgeP1 we1 be1 we2 be2 wei bei) P see mask := by
  funext i
  obtain ⟨r, a, b, c, rfl⟩ : ∃ (r : Fin 1024) (a b : Fin 64) (c : Fin 8), i = ix4 r a b c := ⟨_, _, _, _, eq_ix4 i⟩
  show bgArr _ sel mask (ix4 r c a b) = _
  unfold bgArr
  simp only [h.sum_left (hi64 r) (lo64 r) a]
  rw [h.sum_right (hi64 r) (lo64 r) b]
  show edgeRow _ (fun k => P (ix4 _ (hi4096 (pq64 _ _)) (lo4096 (pq64 _ _)) k)) _ * _ * _ = _
  rewrite [hi4096_pq64, lo4096_pq64]
  exact mul_assoc _ _ _

end Edge

end Cert.Spec

end
-- ==== Proof.PairK.lean ====
import proofs.«430520_j28613072126860_3_alg».proof.Proof.KI.Keep
import proofs.«430520_j28613072126860_3_alg».proof.Proof.Spec2
import proofs.«430520_j28613072126860_3_alg».proof.Proof.RefStages
import Idealize.ShloMosaic.Lib.StableHlo.Run
import Idealize.ShloMosaic.Lib.Pipeline.Value
import Idealize.ShloMosaic.Lib.ValueIdx

set_option maxRecDepth 16384

noncomputable section

namespace Cert.KernelIdeal.Val.Pair

open Cert.KernelIdeal Cert.KernelIdeal.Gen Cert.KernelIdeal.Hand Idealize.ShloMosaic Idealize.ShloMosaic.TcCoe
open Idealize.ShloMosaic.ValueIdx Idealize.ShloMosaic.StableHlo

variable (m : (ℓ : Loc nD τ sig) → Buf (Elt Ideal) ℓ) (ρ : Dev nD → PrngReg) (c : Dev nD)

theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

theorem W4_launch (b : Ref sig .tc)
    (h : b ∉ written_hostOps0 ++ (written_hostOps0_1 ++ (written_hostOps0_2 ++ written_hostOps0_3))) :
    W4 m ρ c (Proc.devRef .tc b) = m ((c : Thread nD τ).loc b) := by
  simp only [List.mem_append, not_or] at h
  exact (keep_hostOps0_3 m ρ c b h.2.2.2).trans ((keep_hostOps0_2 m ρ c b h.2.2.1).trans
    ((keep_hostOps0_1 m ρ c b h.2.1).trans (keep_hostOps0 m ρ c b h.1)))

theorem W6_launch (b : Ref sig .tc)
    (h : b ∉ written_hostOps0 ++ (written_hostOps0_1 ++ (written_hostOps0_2 ++ written_hostOps0_3)))
    (h' : b ∉ main_v88 :: written_hostOps0_4) : W6 m ρ c (Proc.devRef .tc b) = m ((c : Thread nD τ).loc b) :=
  (keep_reg0 m ρ c b fun e => h' (e ▸ .head _)).trans
    ((keep_hostOps0_4 m ρ c b fun e => h' (.tail _ e)).trans (W4_launch m ρ c b h))

theorem v99_fold : W7 m ρ c (Proc.devRef .tc main_v99)
    = fun i => shapeCast S16x4096x18 (Cert.ReferenceIdeal.Read.val_main_v150 (F := Ideal)
        (W6 m ρ c (Proc.devRef .tc main_arg1)) (W6 m ρ c (Proc.devRef .tc main_arg2)) (W6 m ρ c (Proc.devRef .tc main_arg3)))
        shapeCasts_S16x64x64x18_S16x4096x18 i := by
  show StableHlo.after hostOps1 (W6 m ρ c) (Proc.devRef .tc main_v99) = _
  simp only [after_cons, after_nil]
  repeat (first
    | rw [nullary_result] | rw [unary_result] | rw [binary_result] | rw [reshape_result] | rw [nary3_result]
    | (rw [nullary_result_ne]; rotate_left; decide)
    | (rw [unary_result_ne]; rotate_left; decide)
    | (rw [binary_result_ne]; rotate_left; decide)
    | (rw [reshape_result_ne]; rotate_left; decide)
    | (rw [nary_result_ne]; rotate_left; decide))
  unfold Cert.ReferenceIdeal.Read.val_main_v150 Cert.ReferenceIdeal.Read.val_main_v149 Cert.ReferenceIdeal.Read.val_main_v148
    Cert.ReferenceIdeal.Read.val_main_v147 Cert.ReferenceIdeal.Read.val_main_v146 Cert.ReferenceIdeal.Read.val_main_v145
    Cert.ReferenceIdeal.Read.val_main_v144 Cert.ReferenceIdeal.Read.val_main_v143 Cert.ReferenceIdeal.Read.val_main_v142
    Cert.ReferenceIdeal.Read.val_main_cst_23
  rfl

-- Row r of the flattened layout is pair (r / 64, r % 64).
theorem pairK_eq : W7 m ρ c (Proc.devRef .tc main_v99)
    = Cert.Spec.pairFlat (Cert.ReferenceIdeal.Read.val_main_v150 (F := Ideal) (m ((c : Thread nD τ).loc main_arg1))
        (m ((c : Thread nD τ).loc main_arg2)) (m ((c : Thread nD τ).loc main_arg3))) := by
  rw [v99_fold, W6_launch m ρ c main_arg1 (by decide) (by decide), W6_launch m ρ c main_arg2 (by decide) (by decide),
    W6_launch m ρ c main_arg3 (by decide) (by decide)]
  funext i
  refine shapeCast_apply _ _ i (ix4 (i 0) (Cert.Spec.hi4096 (i 1)) (Cert.Spec.lo4096 (i 1)) (i 2)) ?_
  rw [Shape.rowMajor_val_four, Shape.rowMajor_val_three]
  show ((((i 0).val * 64 + (i 1).val / 64) * 64 + (i 1).val % 64) * 18 + (i 2).val) = ((i 0).val * 4096 + (i 1).val) * 18 + (i 2).val
  omega

end Cert.KernelIdeal.Val.Pair

end
-- ==== Proof.LibRowTile.lean ====
import proofs.«430520_j28613072126860_3_alg».proof.Proof.Spec
import Idealize.ShloMosaic.PureOps.Ideal.Laws
import Idealize.ShloMosaic.Lib.ValueIdx
import Idealize.ShloMosaic.Lib.ValueLayout
import Idealize.ShloMosaic.Lib.Pipeline.Value

open scoped BigOperators

namespace Cert.Lib

open Idealize.ShloMosaic Idealize.ShloMosaic.ValueIdx

theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

-- A plain product [rows, K] · [K, n]: contract the left operand's second axis with the right's first, no batch axes.
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

-- The contraction sum of a plain product runs over the contracted coordinate itself: entry (r, c) is the sum over k of l (r, k) * r (k, c).
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  refine Finset.sum_congr rfl fun k _ => congrArg₂ (· * ·) (congrArg l (funext fun ax => Fin.ext ?_)) (congrArg r (funext fun ax => Fin.ext ?_))
  · match ax with
    | ⟨0, _⟩ => exact lhsIdx_val_of_free d (a := (0 : Fin 2)) h.lb h.ln j _ Nat.zero_lt_two
    | ⟨1, _⟩ => exact (d.lhsIdx_val_of_single (cl := (1 : Fin 2)) h.lc j _).trans (contrEquiv1_symm_val d K h.rank h.size k)
  · match ax with
    | ⟨0, _⟩ => exact (d.rhsIdx_val_of_single (cr := (0 : Fin 2)) h.rc j _).trans (contrEquiv1_symm_val d K h.rank h.size k)
    | ⟨1, _⟩ => exact rhsIdx_val_of_free d (a := (1 : Fin 2)) (al := (0 : Fin 2)) h.lb h.ln h.rb h.rn j _ Nat.one_lt_two

-- A plain product plus a bias row repeated over the rows is the dense layer of the left operand's row.
theorem dense_apply (hd : IsPlain d) {φ₁ φ₂ : FTy} (l : FVec Ideal ⟨2, ![a, K]⟩ φ₁) (r : FVec Ideal ⟨2, ![K, n]⟩ φ₂)
    (b : FVec Ideal ⟨2, ![1, n]⟩ .f32) (hb : (⟨2, ![1, n]⟩ : Shape).Broadcasts ⟨2, ![a, n]⟩) (p : Fin a) (c : Fin n) :
    addf (matmul d none l r (constant (F := Ideal) ⟨2, ![a, n]⟩ .f32 0x00000000#32)) (broadcastTo ⟨2, ![a, n]⟩ b hb) (ix2 p c)
      = Cert.Spec.lin (fun k => l (ix2 p k)) (fun k m => r (ix2 k m)) (fun m => b (ix2 0 m)) c := by
  rw [addf_apply, broadcastTo_1b_ab_apply]
  exact congrArg (· + b (ix2 0 c)) ((Ideal.matmul_constant_zero_apply d none l r (ix2 p c)).trans (hd.sum_eq l r (ix2 p c)))

end Plain

-- The maximum with the constant 0 is the rectifier.
theorem relu_apply {s : Shape} (z : FVec Ideal s .f32) (i : s.Idx) :
    maximumf z (broadcast s (Scalar.ofBits (F := Ideal) .f32 0x00000000#32)) i = Cert.Spec.relu (z i) := by
  rw [maximumf_apply, broadcast_apply]
  show max _ (Ideal.ofBits .f32 0x00000000#32) = _
  rw [Ideal.ofBits_zero_f32]
  rfl

-- At block index 0 the block's offset is 0 on every axis, so the embedding keeps every coordinate.
theorem read_blk_zero {sig : RefSig} {G : Pipeline.Grid} (w : Pipeline.Window sig G) {t : Fin G.N} (h : w.index t = 0) {α : Type}
    (A : w.shape.Idx → α) (y : (w.xblock (G.coords t)).Idx) (y' : w.shape.Idx) (hy : ∀ a, (y' a).val = (y a).val) :
    A ((w.rect t).emb y) = A y' :=
  congrArg A (funext fun a => Fin.ext ((w.rect_emb_val_of_index_zero t a (congrFun h a) y).trans (hy a).symm))

end Cert.Lib
-- ==== Proof.Val0a.lean ====
import proofs.«430520_j28613072126860_3_alg».proof.Proof.Gen.KernelIdeal.Skeleton
import proofs.«430520_j28613072126860_3_alg».proof.Proof.Spec
import proofs.«430520_j28613072126860_3_alg».proof.Proof.LibRowTile
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val.R0

open Cert.KernelIdeal Cert.KernelIdeal.Gen Idealize.ShloMosaic Idealize.ShloMosaic.ValueIdx Cert.Lib

theorem plain1 : IsPlain dot_S256x512_S512x256_S256x256_1_0_0_1_n_n := ⟨rfl, rfl, rfl, rfl, rfl, rfl, rfl, rfl⟩
theorem plain2 : IsPlain dot_S256x256_S256x128_S256x128_1_0_0_1_n_n := ⟨rfl, rfl, rfl, rfl, rfl, rfl, rfl, rfl⟩
theorem plain3 : IsPlain dot_S256x128_S128x64_S256x64_1_0_0_1_n_n := ⟨rfl, rfl, rfl, rfl, rfl, rfl, rfl, rfl⟩
theorem plain4 : IsPlain dot_S256x64_S64x8_S256x8_1_0_0_1_n_n := ⟨rfl, rfl, rfl, rfl, rfl, rfl, rfl, rfl⟩

-- The normalisation and the rectifier act elementwise, each parameter row repeated over the rows.
theorem bnrelu_apply {a n : Nat} (z : FVec Ideal ⟨2, ![a, n]⟩ .f32) (m v g β : FVec Ideal ⟨2, ![1, n]⟩ .f32)
    (hb : (⟨2, ![1, n]⟩ : Shape).Broadcasts ⟨2, ![a, n]⟩) (p : Fin a) (c : Fin n) :
    maximumf (addf (mulf (mulf (subf z (broadcastTo ⟨2, ![a, n]⟩ m hb))
        (broadcastTo ⟨2, ![a, n]⟩ (rsqrt (addf v (broadcast ⟨2, ![1, n]⟩ (Scalar.ofBits (F := Ideal) .f32 0x3727C5AC#32)))) hb))
        (broadcastTo ⟨2, ![a, n]⟩ g hb)) (broadcastTo ⟨2, ![a, n]⟩ β hb))
      (broadcast ⟨2, ![a, n]⟩ (Scalar.ofBits (F := Ideal) .f32 0x00000000#32)) (ix2 p c)
    = Cert.Spec.relu (Cert.Spec.bn (z (ix2 p c)) (m (ix2 0 c)) (v (ix2 0 c)) (g (ix2 0 c)) (β (ix2 0 c))) := by
  refine (relu_apply _ _).trans ?_
  rw [addf_apply, mulf_apply, mulf_apply, subf_apply, broadcastTo_1b_ab_apply, broadcastTo_1b_ab_apply,
    broadcastTo_1b_ab_apply, broadcastTo_1b_ab_apply]
  rfl

section Payloads

variable (x : Vec Ideal S256x512 .f32) (w1 : Vec Ideal S512x256 .f32) (b1 g1 β1 m1 v1 : Vec Ideal S1x256 .f32)
  (w2 : Vec Ideal S256x128 .f32) (b2 g2 β2 m2 v2 : Vec Ideal S1x128 .f32) (w3 : Vec Ideal S128x64 .f32)
  (b3 : Vec Ideal S1x64 .f32) (wn : Vec Ideal S64x8 .f32) (bnc : Vec Ideal S1x8 .f32)

-- The second product, before its bias: row p of the first hidden layer against column q of the second weights.
theorem pay2_apply (p : Fin 256) (q : Fin 128) :
    k0_pay2 (F := Ideal) x w1 b1 m1 v1 g1 β1 w2 (ix2 p q)
      = ∑ k : Fin 256, Cert.Spec.nodeH1 (Cert.Spec.nodeP2 w1 b1 g1 β1 m1 v1 w2 b2 g2 β2 m2 v2 w3 b3 wn bnc)
          (fun j => x (ix2 p j)) k * w2 (ix2 k q) := by
  unfold k0_pay2
  refine (Ideal.matmul_constant_zero_apply _ none _ _ (ix2 p q)).trans ?_
  refine (plain2.sum_eq _ _ (ix2 p q)).trans ?_
  refine Finset.sum_congr rfl fun k _ => congrArg (· * w2 (ix2 k q)) ?_
  refine (bnrelu_apply _ _ _ _ _ _ p k).trans ?_
  rw [dense_apply plain1]
  simp only [shapeCast_self]
  rfl

-- The fourth product, before its bias, from the second product v34 and the second bias row v36.
theorem pay4_apply (v34 : FVec Ideal S256x128 .f32) (v36 : FVec Ideal S1x128 .f32) (p : Fin 256) (u : Fin 8) :
    k0_pay4 (F := Ideal) v34 v36 m2 v2 g2 β2 w3 b3 wn (ix2 p u)
      = ∑ k : Fin 64, Cert.Spec.relu (Cert.Spec.lin
          (fun j : Fin 128 => Cert.Spec.relu (Cert.Spec.bn (v34 (ix2 p j) + v36 (ix2 0 j)) (m2 (ix2 0 j)) (v2 (ix2 0 j))
            (g2 (ix2 0 j)) (β2 (ix2 0 j))))
          (fun j n => w3 (ix2 j n)) (fun n => b3 (ix2 0 n)) k) * wn (ix2 k u) := by
  unfold k0_pay4
  refine (Ideal.matmul_constant_zero_apply _ none _ _ (ix2 p u)).trans ?_
  refine (plain4.sum_eq _ _ (ix2 p u)).trans ?_
  refine Finset.sum_congr rfl fun k _ => congrArg (· * wn (ix2 k u)) ?_
  refine (relu_apply _ (ix2 p k)).trans ?_
  rw [dense_apply plain3]
  simp only [shapeCast_self]
  refine congrArg (fun f => Cert.Spec.relu (Cert.Spec.lin f (fun j n => w3 (ix2 j n)) (fun n => b3 (ix2 0 n)) k))
    (funext fun j => ?_)
  refine (bnrelu_apply _ _ _ _ _ _ p j).trans ?_
  rw [addf_apply, broadcastTo_1b_ab_apply]

-- The stored value: the logistic of the fourth product plus the last bias row.
theorem pay1_apply (v73 : FVec Ideal S256x8 .f32) (v75 : FVec Ideal S1x8 .f32) (p : Fin 256) (u : Fin 8) :
    k0_pay1 (F := Ideal) v73 v75 (ix2 p u) = Ideal.logistic (v73 (ix2 p u) + v75 (ix2 0 u)) := by
  unfold k0_pay1
  show Ideal.logistic (addf v73 _ (ix2 p u)) = _
  rw [addf_apply, broadcastTo_1b_ab_apply]

-- Row p, column u of the stored block is concept u of the node branch on row p of the block's features.
theorem body_apply (p : Fin 256) (u : Fin 8) :
    k0_pay1 (F := Ideal)
      (k0_pay4 (k0_pay2 x w1 b1 m1 v1 g1 β1 w2) (k0_pay3 b2) m2 v2 g2 β2 w3 b3 wn) (k0_pay5 bnc) (ix2 p u)
    = Cert.Spec.nodeRow (Cert.Spec.nodeP2 w1 b1 g1 β1 m1 v1 w2 b2 g2 β2 m2 v2 w3 b3 wn bnc) (fun j => x (ix2 p j)) u := by
  rw [pay1_apply, pay4_apply]
  unfold k0_pay3 k0_pay5
  simp only [shapeCast_self, pay2_apply x w1 b1 g1 β1 m1 v1 w2 b2 g2 β2 m2 v2 w3 b3 wn bnc]
  rfl

end Payloads

end Cert.KernelIdeal.Val.R0

end
-- ==== Proof.Val0.lean ====
import proofs.«430520_j28613072126860_3_alg».proof.Proof.KI.Reg0
import proofs.«430520_j28613072126860_3_alg».proof.Proof.Val0a
import Idealize.ShloMosaic.Lib.Pipeline.Value

set_option maxRecDepth 16384

noncomputable section

namespace Cert.KernelIdeal.Val.R0

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

-- Decided by evaluating the index maps at the four grid points.
theorem blk_index : ∀ t : Fin cfg0.N, (win0_17.index t (0 : Fin 2) = t.val ∧ win0_17.index t (1 : Fin 2) = 0
    ∧ win0_0.index t (0 : Fin 2) = t.val ∧ win0_0.index t (1 : Fin 2) = 0)
    ∧ win0_1.index t = 0 ∧ win0_2.index t = 0 ∧ win0_3.index t = 0 ∧ win0_4.index t = 0 ∧ win0_5.index t = 0 ∧ win0_6.index t = 0 ∧ win0_7.index t = 0 ∧ win0_8.index t = 0 ∧ win0_9.index t = 0 ∧ win0_10.index t = 0 ∧ win0_11.index t = 0 ∧ win0_12.index t = 0 ∧ win0_13.index t = 0 ∧ win0_14.index t = 0 ∧ win0_15.index t = 0 ∧ win0_16.index t = 0 :=
  (by decide +kernel : ∀ t : Fin grid0.N, _)

-- Row r lies in the block of point r / 256, since 256 * (r / 256) ≤ r < 256 * (r / 256) + 256.
theorem cover (i : S1024x8.Idx) : ∃ t : Fin cfg0.N, (cfg0.win 17).flush t = true ∧ i ∈ ((cfg0.win 17).blk t).view.set := by
  have hi0 : (i 0).val < 1024 := (i 0).isLt
  have hi1 : (i 1).val < 8 := (i 1).isLt
  obtain ⟨T, hT⟩ : ∃ T : Fin cfg0.N, T.val = (i 0).val / 256 :=
    ⟨⟨(i 0).val / 256, by rw [show cfg0.N = 4 from N_0]; omega⟩, rfl⟩
  obtain ⟨⟨e0, e1, -, -⟩, -⟩ := blk_index T
  refine ⟨T, flush0_17 T, ?_⟩
  show i ∈ ((View.whole main_v88).slice (win0_17.rect T)).set
  rw [View.set_slice_whole, Rect.mem_set_unit]
  intro a
  match a with
  | ⟨0, _⟩ => show win0_17.index T (0 : Fin 2) * 256 ≤ (i 0).val ∧ (i 0).val < win0_17.index T (0 : Fin 2) * 256 + 256; omega
  | ⟨1, _⟩ => show win0_17.index T (1 : Fin 2) * 8 ≤ (i 1).val ∧ (i 1).val < win0_17.index T (1 : Fin 2) * 8 + 8; omega

-- At block index 0 the embedding keeps every coordinate, and each of these blocks has its array's extents.
theorem params (c : Dev nD) (t : Fin cfg0.N) : iblk0 V c 1 t = V c main_arg4 ∧ iblk0 V c 2 t = V c main_v76 ∧ iblk0 V c 3 t = V c main_v77 ∧ iblk0 V c 4 t = V c main_v78 ∧ iblk0 V c 5 t = V c main_v79 ∧ iblk0 V c 6 t = V c main_v80 ∧ iblk0 V c 7 t = V c main_arg10 ∧ iblk0 V c 8 t = V c main_v81 ∧ iblk0 V c 9 t = V c main_v82 ∧ iblk0 V c 10 t = V c main_v83 ∧ iblk0 V c 11 t = V c main_v84 ∧ iblk0 V c 12 t = V c main_v85 ∧ iblk0 V c 13 t = V c main_arg16 ∧ iblk0 V c 14 t = V c main_v86 ∧ iblk0 V c 15 t = V c main_arg18 ∧ iblk0 V c 16 t = V c main_v87 := by
  obtain ⟨-, h1, h2, h3, h4, h5, h6, h7, h8, h9, h10, h11, h12, h13, h14, h15, h16⟩ := blk_index t
  exact ⟨funext fun y => Cert.Lib.read_blk_zero win0_1 h1 _ y y fun _ => rfl,
    funext fun y => Cert.Lib.read_blk_zero win0_2 h2 _ y y fun _ => rfl,
    funext fun y => Cert.Lib.read_blk_zero win0_3 h3 _ y y fun _ => rfl,
    funext fun y => Cert.Lib.read_blk_zero win0_4 h4 _ y y fun _ => rfl,
    funext fun y => Cert.Lib.read_blk_zero win0_5 h5 _ y y fun _ => rfl,
    funext fun y => Cert.Lib.read_blk_zero win0_6 h6 _ y y fun _ => rfl,
    funext fun y => Cert.Lib.read_blk_zero win0_7 h7 _ y y fun _ => rfl,
    funext fun y => Cert.Lib.read_blk_zero win0_8 h8 _ y y fun _ => rfl,
    funext fun y => Cert.Lib.read_blk_zero win0_9 h9 _ y y fun _ => rfl,
    funext fun y => Cert.Lib.read_blk_zero win0_10 h10 _ y y fun _ => rfl,
    funext fun y => Cert.Lib.read_blk_zero win0_11 h11 _ y y fun _ => rfl,
    funext fun y => Cert.Lib.read_blk_zero win0_12 h12 _ y y fun _ => rfl,
    funext fun y => Cert.Lib.read_blk_zero win0_13 h13 _ y y fun _ => rfl,
    funext fun y => Cert.Lib.read_blk_zero win0_14 h14 _ y y fun _ => rfl,
    funext fun y => Cert.Lib.read_blk_zero win0_15 h15 _ y y fun _ => rfl,
    funext fun y => Cert.Lib.read_blk_zero win0_16 h16 _ y y fun _ => rfl⟩

-- Point t's block is rows 256 t to 256 t + 255 of the node branch's array, and the four row blocks tile the array.
theorem final0 (c : Dev nD) : (dat0 (F := Ideal) V c).arrAt 17 cfg0.N
      = Cert.Spec.nodeArr (V c main_v75) (V c main_arg4) (V c main_v76) (V c main_v77) (V c main_v78) (V c main_v79) (V c main_v80) (V c main_arg10) (V c main_v81) (V c main_v82) (V c main_v83) (V c main_v84) (V c main_v85) (V c main_arg16) (V c main_v86) (V c main_arg18) (V c main_v87) := by
  refine (dat0 (F := Ideal) V c).arrAt_eq_of_cover 17 _ (fun t _ => ?_) cover
  show (cfg0.win 17).cut (grid0.coords t) ((dat0 V c).after 17 t) = _
  rw [after0_17]
  unfold out0_17
  rw [View.canon_unit_zero zero_off]
  simp only [View.ld_unit_zero (S := S256x512) zero_off, View.ld_unit_zero (S := S512x256) zero_off,
    View.ld_unit_zero (S := S1x256) zero_off, View.ld_unit_zero (S := S256x128) zero_off,
    View.ld_unit_zero (S := S1x128) zero_off, View.ld_unit_zero (S := S128x64) zero_off,
    View.ld_unit_zero (S := S1x64) zero_off, View.ld_unit_zero (S := S64x8) zero_off,
    View.ld_unit_zero (S := S1x8) zero_off]
  obtain ⟨⟨e0, e1, e2, e3⟩, -⟩ := blk_index t
  obtain ⟨q1, q2, q3, q4, q5, q6, q7, q8, q9, q10, q11, q12, q13, q14, q15, q16⟩ := params V c t
  rw [q1, q2, q3, q4, q5, q6, q7, q8, q9, q10, q11, q12, q13, q14, q15, q16]
  funext y
  obtain ⟨p, u, rfl⟩ : ∃ (p : Fin 256) (u : Fin 8), y = ix2 p u := ⟨y 0, y 1, eq_ix2 y⟩
  show k0_pay1 _ _ (ix2 p u) = _
  rw [body_apply, View.read_apply]
  refine congrArg₂ (Cert.Spec.nodeRow _) (funext fun j => ?_) (Fin.ext ?_)
  · unfold iblk0
    refine congrArg (V c main_v75) (funext fun a => Fin.ext ?_)
    match a with
    | ⟨0, _⟩ => show win0_0.index t (0 : Fin 2) * 256 + 1 * p.val = win0_17.index t (0 : Fin 2) * 256 + 1 * p.val; omega
    | ⟨1, _⟩ => show win0_0.index t (1 : Fin 2) * 512 + 1 * j.val = j.val; omega
  · show u.val = win0_17.index t (1 : Fin 2) * 8 + 1 * u.val; omega

end Cert.KernelIdeal.Val.R0

end
-- ==== Proof.Val1a.lean ====
import proofs.«430520_j28613072126860_3_alg».proof.Proof.Gen.KernelIdeal.Skeleton
import proofs.«430520_j28613072126860_3_alg».proof.Proof.Spec
import proofs.«430520_j28613072126860_3_alg».proof.Proof.LibRowTile
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val.R1

open Cert.KernelIdeal Cert.KernelIdeal.Gen Idealize.ShloMosaic Idealize.ShloMosaic.ValueIdx Cert.Lib

theorem plain_18_64 : IsPlain dot_S4096x18_S18x64_S4096x64_1_0_0_1_n_n :=
  ⟨rfl, rfl, rfl, rfl, rfl, rfl, rfl, rfl⟩

theorem plain_64_64 : IsPlain dot_S4096x64_S64x64_S4096x64_1_0_0_1_n_n :=
  ⟨rfl, rfl, rfl, rfl, rfl, rfl, rfl, rfl⟩

theorem plain_64_8 : IsPlain dot_S4096x64_S64x8_S4096x8_1_0_0_1_n_n :=
  ⟨rfl, rfl, rfl, rfl, rfl, rfl, rfl, rfl⟩

theorem logistic_apply {s : Shape} {φ : FTy} (a : FVec Ideal s φ) (i : s.Idx) : logistic a i = Ideal.logistic (a i) := rfl

-- Entry (u, p, r) of the body's result is the edge branch's row function of row p of the attribute slab, at output r.
theorem pay1_apply (x0 : Vec Ideal S1x4096x18 .f32) (x1 : Vec Ideal S18x64 .f32) (x2 : Vec Ideal S1x64 .f32)
    (x3 : Vec Ideal S64x64 .f32) (x4 : Vec Ideal S1x64 .f32) (x5 : Vec Ideal S64x8 .f32) (x6 : Vec Ideal S1x8 .f32)
    (u : Fin 1) (p : Fin 4096) (r : Fin 8) :
    k1_pay1 x0 x1 x2 x3 x4 x5 x6 (ix3 u p r)
      = Cert.Spec.edgeRow (Cert.Spec.edgeP2 x1 x2 x3 x4 x5 x6) (fun k => x0 (ix3 (0 : Fin 1) p k)) r := by
  unfold k1_pay1
  rw [shapeCast_ab_1ab_apply]
  rw [logistic_apply, dense_apply plain_64_8]
  simp only [truncf_apply, shapeCast_self, relu_apply, dense_apply plain_64_64, dense_apply plain_18_64,
    shapeCast_1ab_ab_apply]
  rfl

end Cert.KernelIdeal.Val.R1

end
-- ==== Proof.Val1.lean ====
import proofs.«430520_j28613072126860_3_alg».proof.Proof.KI.Reg1
import proofs.«430520_j28613072126860_3_alg».proof.Proof.Val1a
import proofs.«430520_j28613072126860_3_alg».proof.Proof.Spec
import Idealize.ShloMosaic.Lib.Pipeline.Value
import Idealize.ShloMosaic.Lib.ValueIdx

noncomputable section

namespace Cert.KernelIdeal.Val.R1

open Cert.KernelIdeal Cert.KernelIdeal.Gen Cert.KernelIdeal.Hand Idealize.ShloMosaic Idealize.ShloMosaic.TcCoe Idealize.ShloMosaic.ValueIdx

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

-- Decided by evaluating the index maps at the sixteen grid points.
theorem block_indices : ∀ t : Fin cfg1.N,
    (win1_0.index t (0 : Fin 3) = t.val ∧ win1_0.index t (1 : Fin 3) = 0 ∧ win1_0.index t (2 : Fin 3) = 0)
    ∧ (win1_7.index t (0 : Fin 3) = t.val ∧ win1_7.index t (1 : Fin 3) = 0 ∧ win1_7.index t (2 : Fin 3) = 0)
    ∧ win1_1.index t = 0 ∧ win1_2.index t = 0 ∧ win1_3.index t = 0 ∧ win1_4.index t = 0 ∧ win1_5.index t = 0
    ∧ win1_6.index t = 0 ∧ t.val < 16 :=
  (by decide +kernel : ∀ t : Fin grid1.N, _)

-- If the attribute block is slab b of the attribute array, entry y of the body's result is the edge branch's array at (b, y 1, y 2).
theorem body_entry (x0 : Vec Ideal S1x4096x18 .f32) (x1 : Vec Ideal S18x64 .f32) (x2 : Vec Ideal S1x64 .f32)
    (x3 : Vec Ideal S64x64 .f32) (x4 : Vec Ideal S1x64 .f32) (x5 : Vec Ideal S64x8 .f32) (x6 : Vec Ideal S1x8 .f32)
    (A0 : (⟨3, ![16, 4096, 18]⟩ : Shape).Idx → EReal) (b : Fin 16)
    (h0 : ∀ (p : Fin 4096) (k : Fin 18), x0 (ix3 (0 : Fin 1) p k) = A0 (ix3 b p k))
    (y : S1x4096x8.Idx) :
    k1_pay1 x0 x1 x2 x3 x4 x5 x6 y = Cert.Spec.edgeArr A0 x1 x2 x3 x4 x5 x6 (ix3 b (y 1) (y 2)) := by
  obtain ⟨u, p, r, rfl⟩ : ∃ (u : Fin 1) (p : Fin 4096) (r : Fin 8), y = ix3 u p r := ⟨y 0, y 1, y 2, eq_ix3 y⟩
  rw [pay1_apply]
  unfold Cert.Spec.edgeArr
  exact congrArg (fun f => Cert.Spec.edgeRow (Cert.Spec.edgeP2 x1 x2 x3 x4 x5 x6) f r) (funext fun k => h0 p k)

-- At slab index t the embedding adds t on the leading axis and keeps the other coordinates.
theorem attr_block (c : Dev nD) (t : Fin cfg1.N) (ht : t.val < 16) (p : Fin 4096) (k : Fin 18) :
    (iblk1 V c 0 t : Vec Ideal S1x4096x18 .f32) (ix3 (0 : Fin 1) p k)
      = (V c main_v99 : (⟨3, ![16, 4096, 18]⟩ : Shape).Idx → EReal) (ix3 (⟨t.val, ht⟩ : Fin 16) p k) := by
  obtain ⟨⟨e0, e1, e2⟩, -⟩ := block_indices t
  unfold iblk1
  refine congrArg (V c main_v99) (funext fun a => Fin.ext ?_)
  match a with
  | ⟨0, _⟩ => show win1_0.index t (0 : Fin 3) * 1 + 1 * 0 = t.val; omega
  | ⟨1, _⟩ => show win1_0.index t (1 : Fin 3) * 4096 + 1 * p.val = p.val; omega
  | ⟨2, _⟩ => show win1_0.index t (2 : Fin 3) * 18 + 1 * k.val = k.val; omega

-- Entry (b, p, r) of the output is in the slab of point b.
theorem slabs_cover (i : (⟨3, ![16, 4096, 8]⟩ : Shape).Idx) :
    ∃ t : Fin cfg1.N, (cfg1.win 7).flush t = true ∧ i ∈ ((cfg1.win 7).blk t).view.set := by
  have h1 : (i 1).val < 4096 := (i 1).isLt
  have h2 : (i 2).val < 8 := (i 2).isLt
  obtain ⟨T, hT⟩ : ∃ T : Fin cfg1.N, T.val = (i 0).val :=
    ⟨⟨(i 0).val, by rw [show cfg1.N = 16 from N_1]; exact (i 0).isLt⟩, rfl⟩
  obtain ⟨-, ⟨q0, q1, q2⟩, -⟩ := block_indices T
  refine ⟨T, flush1_7 T, ?_⟩
  show i ∈ ((View.whole main_v103).slice (win1_7.rect T)).set
  rw [View.set_slice_whole, Rect.mem_set_unit]
  intro a
  match a with
  | ⟨0, _⟩ => show win1_7.index T (0 : Fin 3) * 1 ≤ (i 0).val ∧ (i 0).val < win1_7.index T (0 : Fin 3) * 1 + 1; omega
  | ⟨1, _⟩ => show win1_7.index T (1 : Fin 3) * 4096 ≤ (i 1).val ∧ (i 1).val < win1_7.index T (1 : Fin 3) * 4096 + 4096; omega
  | ⟨2, _⟩ => show win1_7.index T (2 : Fin 3) * 8 ≤ (i 2).val ∧ (i 2).val < win1_7.index T (2 : Fin 3) * 8 + 8; omega

-- Point t's block is slab t of the edge branch's array, and the 16 slabs cover the array.
theorem final1 (c : Dev nD) : (dat1 (F := Ideal) V c).arrAt 7 cfg1.N
      = Cert.Spec.edgeArr (V c main_v99) (V c main_arg20) (V c main_v100) (V c main_arg22) (V c main_v101) (V c main_arg24) (V c main_v102) := by
  refine (dat1 (F := Ideal) V c).arrAt_eq_of_cover 7 _ (fun t _ => ?_) slabs_cover
  obtain ⟨-, ⟨o0, o1, o2⟩, h1, h2, h3, h4, h5, h6, ht⟩ := block_indices t
  show (cfg1.win 7).cut (grid1.coords t) ((dat1 V c).after 7 t) = _
  rw [after1_7]
  unfold out1_7
  rw [View.canon_unit_zero zero3]
  simp only [View.ld_unit_zero (S := S1x4096x18) zero3, View.ld_unit_zero (S := S18x64) zero2,
    View.ld_unit_zero (S := S1x64) zero2, View.ld_unit_zero (S := S64x64) zero2, View.ld_unit_zero (S := S64x8) zero2,
    View.ld_unit_zero (S := S1x8) zero2]
  funext y
  refine (body_entry _ _ _ _ _ _ _ (V c main_v99) ⟨t.val, ht⟩ (attr_block V c t ht) y).trans ?_
  rw [show iblk1 V c 1 t = V c main_arg20 from funext fun y => Cert.Lib.read_blk_zero win1_1 h1 _ y y fun _ => rfl,
    show iblk1 V c 2 t = V c main_v100 from funext fun y => Cert.Lib.read_blk_zero win1_2 h2 _ y y fun _ => rfl,
    show iblk1 V c 3 t = V c main_arg22 from funext fun y => Cert.Lib.read_blk_zero win1_3 h3 _ y y fun _ => rfl,
    show iblk1 V c 4 t = V c main_v101 from funext fun y => Cert.Lib.read_blk_zero win1_4 h4 _ y y fun _ => rfl,
    show iblk1 V c 5 t = V c main_arg24 from funext fun y => Cert.Lib.read_blk_zero win1_5 h5 _ y y fun _ => rfl,
    show iblk1 V c 6 t = V c main_v102 from funext fun y => Cert.Lib.read_blk_zero win1_6 h6 _ y y fun _ => rfl, View.read_apply]
  refine congrArg _ ?_
  have hy : (y 0).val < 1 := (y 0).isLt
  funext a
  apply Fin.ext
  match a with
  | ⟨0, _⟩ => show t.val = win1_7.index t (0 : Fin 3) * 1 + 1 * (y 0).val; omega
  | ⟨1, _⟩ => show (y 1).val = win1_7.index t (1 : Fin 3) * 4096 + 1 * (y 1).val; omega
  | ⟨2, _⟩ => show (y 2).val = win1_7.index t (2 : Fin 3) * 8 + 1 * (y 2).val; omega

end Cert.KernelIdeal.Val.R1

end
-- ==== Proof.Val2.lean ====
import proofs.«430520_j28613072126860_3_alg».proof.Proof.KI.Reg2
import proofs.«430520_j28613072126860_3_alg».proof.Proof.Spec
import proofs.«430520_j28613072126860_3_alg».proof.Proof.LibRowTile
import Idealize.ShloMosaic.Lib.Pipeline.Value
import Idealize.ShloMosaic.Lib.ValueLayout
import Idealize.ShloMosaic.PureOps.Ideal.Laws
import Idealize.ShloMosaic.Lib.ValueIdx

noncomputable section

namespace Cert.KernelIdeal.Val.R2

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

theorem plain_dot : Cert.Lib.IsPlain dot_S4096x64_S64x8_S4096x8_1_0_0_1_n_n :=
  ⟨rfl, rfl, rfl, rfl, rfl, rfl, rfl, rfl⟩

theorem sel_flat (sel : Vec Ideal S1x64x64x64 .bf16) (n i s : Fin 64) (r : Fin 4096) (hr : r.val = n.val * 64 + i.val) :
    shapeCast S4096x64 (shapeCast S64x64x64 sel shapeCasts_S1x64x64x64_S64x64x64) shapeCasts_S64x64x64_S4096x64 (ix2 r s)
      = sel (ix4 (0 : Fin 1) n i s) := by
  refine (shapeCast_apply _ shapeCasts_S64x64x64_S4096x64 (ix2 r s) (ix3 n i s) ?_).trans (shapeCast_1abc_abc_apply sel _ n i s)
  rw [Shape.rowMajor_val_three, Shape.rowMajor_val_two]
  show (n.val * 64 + i.val) * 64 + s.val = r.val * 64 + s.val
  rw [hr]

theorem mask_bcast (mask : Vec Ideal S1x64x64 .f32) (n i : Fin 64) (u : Fin 8) :
    broadcastTo S64x64x8 (shapeCast S64x64x1 (shapeCast S64x64 mask shapeCasts_S1x64x64_S64x64) shapeCasts_S64x64_S64x64x1)
        broadcasts_S64x64x1_S64x64x8 (ix3 n i u) = mask (ix3 (0 : Fin 1) n i) := by
  refine (broadcastTo_apply _ broadcasts_S64x64x1_S64x64x8 (ix3 n i u) (ix3 n i (0 : Fin 1))
    (fun a => match a with | ⟨0, _⟩ => rfl | ⟨1, _⟩ => rfl | ⟨2, _⟩ => rfl)).trans ?_
  refine (shapeCast_apply _ shapeCasts_S64x64_S64x64x1 (ix3 n i (0 : Fin 1)) (ix2 n i) ?_).trans (shapeCast_1ab_ab_apply mask _ n i)
  rw [Shape.rowMajor_val_three, Shape.rowMajor_val_two]
  show n.val * 64 + i.val = (n.val * 64 + i.val) * 1 + 0
  omega

theorem pay_apply (sel : Vec Ideal S1x64x64x64 .bf16) (nodec : Vec Ideal S1x64x8 .f32) (mask : Vec Ideal S1x64x64 .f32)
    (n i : Fin 64) (u : Fin 8) :
    k2_pay1 sel nodec mask (ix3 n i u)
      = (∑ s : Fin 64, sel (ix4 (0 : Fin 1) n i s) * nodec (ix3 (0 : Fin 1) s u)) * mask (ix3 (0 : Fin 1) n i) := by
  unfold k2_pay1
  rw [mulf_apply, mask_bcast]
  congr 1
  have hr : (⟨n.val * 64 + i.val, by have := n.isLt; have := i.isLt; omega⟩ : Fin 4096).val = n.val * 64 + i.val := rfl
  refine (shapeCast_apply _ shapeCasts_S4096x8_S64x64x8 (ix3 n i u) (ix2 ⟨n.val * 64 + i.val, by have := n.isLt; have := i.isLt; omega⟩ u) ?_).trans ?_
  · rw [Shape.rowMajor_val_three, Shape.rowMajor_val_two]
    rfl
  refine (Ideal.matmul_constant_zero_apply dot_S4096x64_S64x8_S4096x8_1_0_0_1_n_n none _ _ _).trans ?_
  rw [plain_dot.sum_eq]
  refine Finset.sum_congr rfl fun s _ => ?_
  rw [sel_flat sel n i s _ hr, truncf_apply, shapeCast_1ab_ab_apply]

theorem zero3 : (![0, 0, 0] : Fin 3 → Nat) = fun _ => 0 := funext fun a => by fin_cases a <;> rfl
theorem zero4 : (![0, 0, 0, 0] : Fin 4 → Nat) = fun _ => 0 := funext fun a => by fin_cases a <;> rfl

def batch (t : Fin cfg2.N) : Fin 16 := ⟨t.val, Nat.lt_of_lt_of_eq t.isLt (N_2 : cfg2.N = 16)⟩

theorem block_index : ∀ t : Fin cfg2.N,
    (win2_0.index t (0 : Fin 3) = t.val ∧ win2_0.index t (1 : Fin 3) = 0 ∧ win2_0.index t (2 : Fin 3) = 0)
    ∧ (win2_1.index t (0 : Fin 4) = t.val ∧ win2_1.index t (1 : Fin 4) = 0 ∧ win2_1.index t (2 : Fin 4) = 0 ∧ win2_1.index t (3 : Fin 4) = 0)
    ∧ (win2_2.index t (0 : Fin 3) = t.val ∧ win2_2.index t (1 : Fin 3) = 0 ∧ win2_2.index t (2 : Fin 3) = 0)
    ∧ (win2_3.index t (0 : Fin 3) = t.val ∧ win2_3.index t (1 : Fin 3) = 0 ∧ win2_3.index t (2 : Fin 3) = 0) :=
  (by decide +kernel : ∀ t : Fin grid2.N, _)

theorem nodec_blk (c : Dev nD) (t : Fin cfg2.N) (s : Fin 64) (u : Fin 8) :
    (iblk2 V c 0 t : Vec Ideal S1x64x8 .f32) (ix3 (0 : Fin 1) s u) = (V c main_v89 : S16x64x8.Idx → EReal) (ix3 (batch t) s u) := by
  obtain ⟨⟨e0, e1, e2⟩, -, -, -⟩ := block_index t
  unfold iblk2
  refine congrArg (V c main_v89) (funext fun a => Fin.ext ?_)
  match a with
  | ⟨0, _⟩ => show win2_0.index t (0 : Fin 3) * 1 + 1 * 0 = t.val; omega
  | ⟨1, _⟩ => show win2_0.index t (1 : Fin 3) * 64 + 1 * s.val = s.val; omega
  | ⟨2, _⟩ => show win2_0.index t (2 : Fin 3) * 8 + 1 * u.val = u.val; omega

theorem sel_blk (c : Dev nD) (t : Fin cfg2.N) (n i s : Fin 64) :
    (iblk2 V c 1 t : Vec Ideal S1x64x64x64 .bf16) (ix4 (0 : Fin 1) n i s) = (V c main_v74 : S16x64x64x64.Idx → EReal) (ix4 (batch t) n i s) := by
  obtain ⟨-, ⟨e0, e1, e2, e3⟩, -, -⟩ := block_index t
  unfold iblk2
  refine congrArg (V c main_v74) (funext fun a => Fin.ext ?_)
  match a with
  | ⟨0, _⟩ => show win2_1.index t (0 : Fin 4) * 1 + 1 * 0 = t.val; omega
  | ⟨1, _⟩ => show win2_1.index t (1 : Fin 4) * 64 + 1 * n.val = n.val; omega
  | ⟨2, _⟩ => show win2_1.index t (2 : Fin 4) * 64 + 1 * i.val = i.val; omega
  | ⟨3, _⟩ => show win2_1.index t (3 : Fin 4) * 64 + 1 * s.val = s.val; omega

theorem mask_blk (c : Dev nD) (t : Fin cfg2.N) (n i : Fin 64) :
    (iblk2 V c 2 t : Vec Ideal S1x64x64 .f32) (ix3 (0 : Fin 1) n i) = (V c main_v73 : S16x64x64.Idx → EReal) (ix3 (batch t) n i) := by
  obtain ⟨-, -, ⟨e0, e1, e2⟩, -⟩ := block_index t
  unfold iblk2
  refine congrArg (V c main_v73) (funext fun a => Fin.ext ?_)
  match a with
  | ⟨0, _⟩ => show win2_2.index t (0 : Fin 3) * 1 + 1 * 0 = t.val; omega
  | ⟨1, _⟩ => show win2_2.index t (1 : Fin 3) * 64 + 1 * n.val = n.val; omega
  | ⟨2, _⟩ => show win2_2.index t (2 : Fin 3) * 64 + 1 * i.val = i.val; omega

theorem out_emb (t : Fin cfg2.N) (n i : Fin 64) (u : Fin 8) :
    (((cfg2.win 3).blk t).view.emb (ix3 n i u) : S1024x64x8.Idx) = ix3 (Cert.Spec.row64 (batch t) n) i u := by
  obtain ⟨-, -, -, ⟨e0, e1, e2⟩⟩ := block_index t
  funext a
  apply Fin.ext
  match a with
  | ⟨0, _⟩ => show win2_3.index t (0 : Fin 3) * 64 + 1 * n.val = t.val * 64 + n.val; omega
  | ⟨1, _⟩ => show win2_3.index t (1 : Fin 3) * 64 + 1 * i.val = i.val; omega
  | ⟨2, _⟩ => show win2_3.index t (2 : Fin 3) * 8 + 1 * u.val = u.val; omega

theorem ugArr_row (nodec : (⟨3, ![16, 64, 8]⟩ : Shape).Idx → EReal) (sel : (⟨4, ![16, 64, 64, 64]⟩ : Shape).Idx → EReal)
    (mask : (⟨3, ![16, 64, 64]⟩ : Shape).Idx → EReal) (b : Fin 16) (n i : Fin 64) (u : Fin 8) :
    Cert.Spec.ugArr nodec sel mask (ix3 (Cert.Spec.row64 b n) i u)
      = (∑ s : Fin 64, sel (ix4 b n i s) * nodec (ix3 b s u)) * mask (ix3 b n i) := by
  show (∑ s : Fin 64, sel (ix4 (Cert.Spec.hi64 (Cert.Spec.row64 b n)) (Cert.Spec.lo64 (Cert.Spec.row64 b n)) i s)
        * nodec (ix3 (Cert.Spec.hi64 (Cert.Spec.row64 b n)) s u))
      * mask (ix3 (Cert.Spec.hi64 (Cert.Spec.row64 b n)) (Cert.Spec.lo64 (Cert.Spec.row64 b n)) i) = _
  rw [Cert.Spec.hi64_row64, Cert.Spec.lo64_row64]

theorem covered (i : S1024x64x8.Idx) :
    ∃ t : Fin cfg2.N, (cfg2.win 3).flush t = true ∧ i ∈ ((cfg2.win 3).blk t).view.set := by
  have h0 : (i 0).val < 1024 := (i 0).isLt
  have h1 : (i 1).val < 64 := (i 1).isLt
  have h2 : (i 2).val < 8 := (i 2).isLt
  obtain ⟨T, hT⟩ : ∃ T : Fin cfg2.N, T.val = (i 0).val / 64 :=
    ⟨⟨(i 0).val / 64, by rw [show cfg2.N = 16 from N_2]; omega⟩, rfl⟩
  obtain ⟨-, -, -, ⟨e0, e1, e2⟩⟩ := block_index T
  refine ⟨T, flush2_3 T, ?_⟩
  show i ∈ ((View.whole main_v106).slice (win2_3.rect T)).set
  rw [View.set_slice_whole, Rect.mem_set_unit]
  intro a
  match a with
  | ⟨0, _⟩ => show win2_3.index T (0 : Fin 3) * 64 ≤ (i 0).val ∧ (i 0).val < win2_3.index T (0 : Fin 3) * 64 + 64; omega
  | ⟨1, _⟩ => show win2_3.index T (1 : Fin 3) * 64 ≤ (i 1).val ∧ (i 1).val < win2_3.index T (1 : Fin 3) * 64 + 64; omega
  | ⟨2, _⟩ => show win2_3.index T (2 : Fin 3) * 8 ≤ (i 2).val ∧ (i 2).val < win2_3.index T (2 : Fin 3) * 8 + 8; omega

-- Point t's block is rows 64 t to 64 t + 63 of the unary-gather array, and the sixteen row blocks tile the array.
theorem final2 (c : Dev nD) : (dat2 (F := Ideal) V c).arrAt 3 cfg2.N
    = Cert.Spec.ugArr (V c main_v89) (V c main_v74) (V c main_v73) := by
  refine (dat2 (F := Ideal) V c).arrAt_eq_of_cover 3 _ (fun t _ => ?_) covered
  show (cfg2.win 3).cut (grid2.coords t) ((dat2 V c).after 3 t) = _
  rw [after2_3]
  unfold out2_3
  rw [View.canon_unit_zero zero3]
  simp only [View.ld_unit_zero (S := S1x64x64x64) zero4, View.ld_unit_zero (S := S1x64x8) zero3, View.ld_unit_zero (S := S1x64x64) zero3]
  refine funext fun (j : S64x64x8.Idx) => ?_
  obtain ⟨n, i, u, rfl⟩ : ∃ (n i : Fin 64) (u : Fin 8), j = ix3 n i u := ⟨j 0, j 1, j 2, eq_ix3 j⟩
  show k2_pay1 (iblk2 V c 1 t) (iblk2 V c 0 t) (iblk2 V c 2 t) (ix3 n i u)
      = Cert.Spec.ugArr (V c main_v89) (V c main_v74) (V c main_v73) (((cfg2.win 3).blk t).view.emb (ix3 n i u))
  rw [out_emb]
  refine ((pay_apply _ _ _ n i u).trans ?_).trans (ugArr_row _ _ _ (batch t) n i u).symm
  exact congrArg₂ (· * ·)
    (Finset.sum_congr rfl fun s _ => congrArg₂ (· * ·) (sel_blk V c t n i s) (nodec_blk V c t s u))
    (mask_blk V c t n i)

end Cert.KernelIdeal.Val.R2

end
-- ==== Proof.Val3a.lean ====
import proofs.«430520_j28613072126860_3_alg».proof.Proof.Gen.KernelIdeal.Skeleton
import proofs.«430520_j28613072126860_3_alg».proof.Proof.LibRowTile
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val.R3

open Cert.KernelIdeal Cert.KernelIdeal.Gen Idealize.ShloMosaic Idealize.ShloMosaic.ValueIdx

variable {α : Type}

abbrev flatRow (n i : Fin 64) : Fin 4096 := ⟨n.val * 64 + i.val, by have := n.isLt; have := i.isLt; omega⟩

theorem cast_11ab_ab (x : S1x1x64x64.Idx → α) (h : S1x1x64x64.ShapeCasts S64x64) (p q : Fin 64) :
    shapeCast S64x64 x h (ix2 p q) = x (ix4 (0 : Fin 1) (0 : Fin 1) p q) :=
  shapeCast_apply x h _ _ (by
    rw [Shape.rowMajor_val_four, Shape.rowMajor_val_two]
    show ((0 * 1 + 0) * 64 + p.val) * 64 + q.val = p.val * 64 + q.val
    omega)

theorem cast_rc_abc (y : S4096x64.Idx → α) (h : S4096x64.ShapeCasts S64x64x64) (n i q : Fin 64) :
    shapeCast S64x64x64 y h (ix3 n i q) = y (ix2 (flatRow n i) q) :=
  shapeCast_apply y h _ _ (by
    rw [Shape.rowMajor_val_two, Shape.rowMajor_val_three]
    rfl)

theorem cast_abc_rc (y : S64x64x64.Idx → α) (h : S64x64x64.ShapeCasts S4096x64) (n i q : Fin 64) :
    shapeCast S4096x64 y h (ix2 (flatRow n i) q) = y (ix3 n i q) :=
  shapeCast_apply y h _ _ (by
    rw [Shape.rowMajor_val_two, Shape.rowMajor_val_three]
    rfl)

theorem cast_abc_a1bc (y : S64x64x64.Idx → α) (h : S64x64x64.ShapeCasts S64x1x64x64) (n : Fin 64) (u : Fin 1) (i j : Fin 64) :
    shapeCast S64x1x64x64 y h (ix4 n u i j) = y (ix3 n i j) :=
  shapeCast_apply y h _ _ (by
    rw [Shape.rowMajor_val_four, Shape.rowMajor_val_three]
    show (n.val * 64 + i.val) * 64 + j.val = ((n.val * 1 + u.val) * 64 + i.val) * 64 + j.val
    omega)

theorem cast_ab_ab1 (y : S64x64.Idx → α) (h : S64x64.ShapeCasts S64x64x1) (n i : Fin 64) (u : Fin 1) :
    shapeCast S64x64x1 y h (ix3 n i u) = y (ix2 n i) :=
  shapeCast_apply y h _ _ (by
    rw [Shape.rowMajor_val_two, Shape.rowMajor_val_three]
    show n.val * 64 + i.val = (n.val * 64 + i.val) * 1 + u.val
    omega)

theorem cast_ab_a1b (y : S64x64.Idx → α) (h : S64x64.ShapeCasts S64x1x64) (n : Fin 64) (u : Fin 1) (j : Fin 64) :
    shapeCast S64x1x64 y h (ix3 n u j) = y (ix2 n j) :=
  shapeCast_apply y h _ _ (by
    rw [Shape.rowMajor_val_two, Shape.rowMajor_val_three]
    show n.val * 64 + j.val = (n.val * 1 + u.val) * 64 + j.val
    omega)

theorem bcast_ab1_abc (y : S64x64x1.Idx → α) (h : S64x64x1.Broadcasts S64x64x64) (n i j : Fin 64) :
    broadcastTo S64x64x64 y h (ix3 n i j) = y (ix3 n i (0 : Fin 1)) :=
  broadcastTo_apply y h (ix3 n i j) (ix3 n i (0 : Fin 1)) fun ax => match ax with | ⟨0, _⟩ => rfl | ⟨1, _⟩ => rfl | ⟨2, _⟩ => rfl

theorem bcast_a1b_abc (y : S64x1x64.Idx → α) (h : S64x1x64.Broadcasts S64x64x64) (n i j : Fin 64) :
    broadcastTo S64x64x64 y h (ix3 n i j) = y (ix3 n (0 : Fin 1) j) :=
  broadcastTo_apply y h (ix3 n i j) (ix3 n (0 : Fin 1) j) fun ax => match ax with | ⟨0, _⟩ => rfl | ⟨1, _⟩ => rfl | ⟨2, _⟩ => rfl

theorem plainP : Cert.Lib.IsPlain dot_S4096x64_S64x64_S4096x64_1_0_0_1_n_n :=
  ⟨rfl, rfl, rfl, rfl, rfl, rfl, rfl, rfl⟩

-- Entry (a, q) of the plain product is the sum over p of l (a, p) * r (p, q).
theorem mmP_apply (l : FVec Ideal S4096x64 .bf16) (r : FVec Ideal S64x64 .bf16) (a : Fin 4096) (q : Fin 64) :
    matmul dot_S4096x64_S64x64_S4096x64_1_0_0_1_n_n none l r (constant (F := Ideal) S4096x64 .f32 0x00000000#32) (ix2 a q)
      = ∑ p : Fin 64, l (ix2 a p) * r (ix2 p q) :=
  (Ideal.matmul_constant_zero_apply _ none l r (ix2 a q)).trans (plainP.sum_eq l r (ix2 a q))

theorem mmB_apply (l : FVec Ideal S64x64x64 .bf16) (r : FVec Ideal S64x64x64 .bf16) (n i j : Fin 64) :
    matmul dot_S64x64x64_S64x64x64_S64x64x64_2_2_1_1_0_0 none l r (constant (F := Ideal) S64x64x64 .f32 0x00000000#32) (ix3 n i j)
      = ∑ q : Fin 64, l (ix3 n i q) * r (ix3 n j q) := by
  simp only [matmul]
  rw [Ideal.matmul_constant_zero_apply,
    ← Equiv.sum_comp (contrEquiv1 dot_S64x64x64_S64x64x64_S64x64x64_2_2_1_1_0_0 64 rfl rfl).symm]
  refine Finset.sum_congr rfl fun q _ => ?_
  have hq := contrEquiv1_symm_val dot_S64x64x64_S64x64x64_S64x64x64_2_2_1_1_0_0 64 rfl rfl q
  have el : dot_S64x64x64_S64x64x64_S64x64x64_2_2_1_1_0_0.lhsIdx (ix3 n i j)
      ((contrEquiv1 dot_S64x64x64_S64x64x64_S64x64x64_2_2_1_1_0_0 64 rfl rfl).symm q) = ix3 n i q := funext fun ax => Fin.ext (by
    match ax with
    | ⟨0, _⟩ => rfl
    | ⟨1, _⟩ => rfl
    | ⟨2, _⟩ => exact (DotDims.lhsIdx_val_of_single _ rfl _ _).trans hq)
  have er : dot_S64x64x64_S64x64x64_S64x64x64_2_2_1_1_0_0.rhsIdx (ix3 n i j)
      ((contrEquiv1 dot_S64x64x64_S64x64x64_S64x64x64_2_2_1_1_0_0 64 rfl rfl).symm q) = ix3 n j q := funext fun ax => Fin.ext (by
    match ax with
    | ⟨0, _⟩ => rfl
    | ⟨1, _⟩ => rfl
    | ⟨2, _⟩ => exact (DotDims.rhsIdx_val_of_single _ rfl _ _).trans hq)
  rw [el, er]

def chanAt (s3 : S64x64x64.Idx → EReal) (s2 : S4096x64.Idx → EReal) (m : S64x64.Idx → EReal) (x : S1x1x64x64.Idx → EReal)
    (n i j : Fin 64) : EReal :=
  ((∑ q : Fin 64, (∑ p : Fin 64, s2 (ix2 (flatRow n i) p) * x (ix4 (0 : Fin 1) (0 : Fin 1) p q)) * s3 (ix3 n j q))
    * m (ix2 n i)) * m (ix2 n j)

theorem chan_apply (v1 : FVec Ideal S64x64x64 .bf16) (v2 : FVec Ideal S4096x64 .bf16) (v4 : FVec Ideal S64x64 .f32)
    (x : Vec Ideal S1x1x64x64 .f32) (n : Fin 64) (u : Fin 1) (i j : Fin 64) :
    k3_pay7 v1 v2 v4 x (ix4 n u i j) = chanAt v1 v2 v4 x n i j := by
  unfold k3_pay7 chanAt
  rw [cast_abc_a1bc]
  simp only [truncf_apply, mulf_apply]
  rw [bcast_a1b_abc, cast_ab_a1b, bcast_ab1_abc, cast_ab_ab1, mmB_apply]
  refine congrArg (· * v4 (ix2 n j)) (congrArg (· * v4 (ix2 n i)) (Finset.sum_congr rfl fun q _ => ?_))
  simp only [truncf_apply]
  rw [cast_rc_abc, mmP_apply]
  refine congrArg (· * v1 (ix3 n j q)) (Finset.sum_congr rfl fun p _ => ?_)
  simp only [truncf_apply]
  rw [cast_11ab_ab]

theorem sel2_apply (v0 : Vec Ideal S1x64x64x64 .bf16) (n i p : Fin 64) :
    k3_pay2 v0 (ix2 (flatRow n i) p) = v0 (ix4 (0 : Fin 1) n i p) := by
  unfold k3_pay2 k3_pay1
  dsimp only
  rw [cast_abc_rc, shapeCast_1abc_abc_apply]

theorem sel3_apply (v0 : Vec Ideal S1x64x64x64 .bf16) (n j q : Fin 64) :
    k3_pay1 v0 (ix3 n j q) = v0 (ix4 (0 : Fin 1) n j q) := by
  unfold k3_pay1
  rw [shapeCast_1abc_abc_apply]

theorem mask_apply (v3 : Vec Ideal S1x64x64 .f32) (n i : Fin 64) :
    k3_pay3 v3 (ix2 n i) = v3 (ix3 (0 : Fin 1) n i) := by
  unfold k3_pay3
  rw [shapeCast_1ab_ab_apply]

end Cert.KernelIdeal.Val.R3

end
-- ==== Proof.Val3.lean ====
import proofs.«430520_j28613072126860_3_alg».proof.Proof.Spec
import proofs.«430520_j28613072126860_3_alg».proof.Proof.KI.Reg3
import proofs.«430520_j28613072126860_3_alg».proof.Proof.Val3a
import Idealize.ShloMosaic.Lib.Pipeline.Value
import Idealize.ShloMosaic.Lib.ValueIdx

noncomputable section

open scoped BigOperators

namespace Cert.KernelIdeal.Val.R3

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

def blockG (X0 : S1x8x64x64.Idx → EReal) (X1 : S1x64x64x64.Idx → EReal) (X2 : S1x64x64.Idx → EReal) :
    S64x8x64x64.Idx → EReal :=
  fun y => ((∑ q : Fin 64, (∑ p : Fin 64, X1 (ix4 (0 : Fin 1) (y 0) (y 2) p) * X0 (ix4 (0 : Fin 1) (y 1) p q))
        * X1 (ix4 (0 : Fin 1) (y 0) (y 3) q))
      * X2 (ix3 (0 : Fin 1) (y 0) (y 2))) * X2 (ix3 (0 : Fin 1) (y 0) (y 3))

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

theorem ld_chan (X0 : Vec Ideal S1x8x64x64 .f32) (o : Nat) (ho : o < 8)
    (inb : ∀ a, (![0, o, 0, 0] : Fin 4 → Nat) a + S1x1x64x64.size a ≤ S1x8x64x64.size a) (p q : Fin 64) :
    View.ld X0 (Rect.unit (s := S1x8x64x64) ![0, o, 0, 0] S1x1x64x64.size inb) (ix4 (0 : Fin 1) (0 : Fin 1) p q)
      = X0 (ix4 (0 : Fin 1) (⟨o, ho⟩ : Fin 8) p q) := by
  show X0 _ = X0 _
  refine congrArg X0 (funext fun a => Fin.ext ?_)
  rw [LoadRect.idx_apply]
  match a with
  | ⟨0, _⟩ => show 0 + 1 * 0 = 0; rfl
  | ⟨1, _⟩ => show o + 1 * 0 = o; omega
  | ⟨2, _⟩ => show 0 + 1 * p.val = p.val; omega
  | ⟨3, _⟩ => show 0 + 1 * q.val = q.val; omega

theorem emb_chan (o : Nat) (ho : o < 8)
    (inb : ∀ a, (![0, o, 0, 0] : Fin 4 → Nat) a + S64x1x64x64.size a ≤ S64x8x64x64.size a) (n : Fin 64) (u : Fin 1) (i j : Fin 64) :
    (Rect.unit (s := S64x8x64x64) ![0, o, 0, 0] S64x1x64x64.size inb).emb (ix4 n u i j) = ix4 n (⟨o, ho⟩ : Fin 8) i j := by
  refine funext fun a => Fin.ext ?_
  rw [Rect.emb_apply]
  match a with
  | ⟨0, _⟩ => show 0 + 1 * n.val = n.val; omega
  | ⟨1, _⟩ => show o + 1 * u.val = o; omega
  | ⟨2, _⟩ => show 0 + 1 * i.val = i.val; omega
  | ⟨3, _⟩ => show 0 + 1 * j.val = j.val; omega

theorem piece_eq (X0 : Vec Ideal S1x8x64x64 .f32) (X1 : Vec Ideal S1x64x64x64 .bf16) (X2 : Vec Ideal S1x64x64 .f32) (o : Nat) (x : S64x1x64x64.Idx) (ho : o < 8 := by decide)
    (inbI : ∀ a, (![0, o, 0, 0] : Fin 4 → Nat) a + S1x1x64x64.size a ≤ S1x8x64x64.size a := by decide)
    (inbO : ∀ a, (![0, o, 0, 0] : Fin 4 → Nat) a + S64x1x64x64.size a ≤ S64x8x64x64.size a := by decide) :
    k3_pay7 (k3_pay1 X1) (k3_pay2 X1) (k3_pay3 X2) (View.ld X0 (Rect.unit (s := S1x8x64x64) ![0, o, 0, 0] S1x1x64x64.size inbI)) x
      = blockG X0 X1 X2 ((Rect.unit (s := S64x8x64x64) ![0, o, 0, 0] S64x1x64x64.size inbO).emb x) := by
  obtain ⟨n, u, i, j, rfl⟩ : ∃ (n : Fin 64) (u : Fin 1) (i j : Fin 64), x = ix4 n u i j := ⟨x 0, x 1, x 2, x 3, eq_ix4 x⟩
  rw [chan_apply, emb_chan o ho inbO]
  unfold chanAt
  show _ = ((∑ q : Fin 64, (∑ p : Fin 64, X1 (ix4 (0 : Fin 1) n i p) * X0 (ix4 (0 : Fin 1) (⟨o, ho⟩ : Fin 8) p q))
        * X1 (ix4 (0 : Fin 1) n j q)) * X2 (ix3 (0 : Fin 1) n i)) * X2 (ix3 (0 : Fin 1) n j)
  simp only [sel2_apply, sel3_apply, mask_apply, ld_chan X0 o ho inbI]

theorem out3_eq (X0 : Vec Ideal S1x8x64x64 .f32) (X1 : Vec Ideal S1x64x64x64 .bf16) (X2 : Vec Ideal S1x64x64 .f32) :
    out3_3 X0 X1 X2 = blockG X0 X1 X2 := by
  funext y
  unfold out3_3
  simp only [View.ld_unit_zero (S := S1x64x64x64) zeros4, View.ld_unit_zero (S := S1x64x64) zeros3]
  refine View.canon_apply_of_pieces (blockG X0 X1 X2) _ ?_ y (cover3_3 (F := Ideal) _ _ _ _ _ _ _ _ y)
  intro p hp x
  simp only [List.mem_cons, List.not_mem_nil, or_false] at hp
  rcases hp with rfl | rfl | rfl | rfl | rfl | rfl | rfl | rfl
  · exact piece_eq X0 X1 X2 7 x
  · exact piece_eq X0 X1 X2 6 x
  · exact piece_eq X0 X1 X2 5 x
  · exact piece_eq X0 X1 X2 4 x
  · exact piece_eq X0 X1 X2 3 x
  · exact piece_eq X0 X1 X2 2 x
  · exact piece_eq X0 X1 X2 1 x
  · exact piece_eq X0 X1 X2 0 x

-- If the three blocks are slab b of the three arrays and row k0 of the array is row n of batch element b, the block function at (n, r, i, j) is the array function at (k0, r, i, j).
theorem blockG_slab (A0 : (⟨4, ![16, 8, 64, 64]⟩ : Shape).Idx → EReal) (A1 : (⟨4, ![16, 64, 64, 64]⟩ : Shape).Idx → EReal)
    (A2 : (⟨3, ![16, 64, 64]⟩ : Shape).Idx → EReal)
    (X0 : S1x8x64x64.Idx → EReal) (X1 : S1x64x64x64.Idx → EReal) (X2 : S1x64x64.Idx → EReal) (b : Fin 16)
    (h0 : ∀ (r : Fin 8) (p q : Fin 64), X0 (ix4 (0 : Fin 1) r p q) = A0 (ix4 b r p q))
    (h1 : ∀ (n i p : Fin 64), X1 (ix4 (0 : Fin 1) n i p) = A1 (ix4 b n i p))
    (h2 : ∀ (n i : Fin 64), X2 (ix3 (0 : Fin 1) n i) = A2 (ix3 b n i))
    (n : Fin 64) (r : Fin 8) (i j : Fin 64) (k0 : Fin 1024) (hhi : Cert.Spec.hi64 k0 = b) (hlo : Cert.Spec.lo64 k0 = n) :
    blockG X0 X1 X2 (ix4 n r i j) = Cert.Spec.bgArr A0 A1 A2 (ix4 k0 r i j) := by
  show ((∑ q : Fin 64, (∑ p : Fin 64, X1 (ix4 (0 : Fin 1) n i p) * X0 (ix4 (0 : Fin 1) r p q))
        * X1 (ix4 (0 : Fin 1) n j q)) * X2 (ix3 (0 : Fin 1) n i)) * X2 (ix3 (0 : Fin 1) n j)
    = ((∑ q : Fin 64, (∑ p : Fin 64, A1 (ix4 (Cert.Spec.hi64 k0) (Cert.Spec.lo64 k0) i p) * A0 (ix4 (Cert.Spec.hi64 k0) r p q))
        * A1 (ix4 (Cert.Spec.hi64 k0) (Cert.Spec.lo64 k0) j q))
      * A2 (ix3 (Cert.Spec.hi64 k0) (Cert.Spec.lo64 k0) i)) * A2 (ix3 (Cert.Spec.hi64 k0) (Cert.Spec.lo64 k0) j)
  rw [hhi, hlo]
  simp only [h0, h1, h2]

theorem idx_facts : ∀ t : Fin cfg3.N,
    (win3_0.index t (0 : Fin 4) = t.val ∧ win3_0.index t (1 : Fin 4) = 0 ∧ win3_0.index t (2 : Fin 4) = 0 ∧ win3_0.index t (3 : Fin 4) = 0)
    ∧ (win3_1.index t (0 : Fin 4) = t.val ∧ win3_1.index t (1 : Fin 4) = 0 ∧ win3_1.index t (2 : Fin 4) = 0 ∧ win3_1.index t (3 : Fin 4) = 0)
    ∧ (win3_2.index t (0 : Fin 3) = t.val ∧ win3_2.index t (1 : Fin 3) = 0 ∧ win3_2.index t (2 : Fin 3) = 0)
    ∧ (win3_3.index t (0 : Fin 4) = t.val ∧ win3_3.index t (1 : Fin 4) = 0 ∧ win3_3.index t (2 : Fin 4) = 0 ∧ win3_3.index t (3 : Fin 4) = 0) :=
  (by decide +kernel : ∀ t : Fin grid3.N, _)

def slab (t : Fin cfg3.N) : Fin 16 := ⟨t.val, by have h : t.val < grid3.N := t.isLt; rw [N_3] at h; exact h⟩

theorem rel_blk (c : Dev nD) (t : Fin cfg3.N) (r : Fin 8) (p q : Fin 64) :
    (iblk3 V c 0 t : Vec Ideal S1x8x64x64 .f32) (ix4 (0 : Fin 1) r p q)
      = (V c main_v105 : (⟨4, ![16, 8, 64, 64]⟩ : Shape).Idx → EReal) (ix4 (slab t) r p q) := by
  obtain ⟨⟨e0, e1, e2, e3⟩, -⟩ := idx_facts t
  unfold iblk3
  refine congrArg (V c main_v105) (funext fun a => Fin.ext ?_)
  match a with
  | ⟨0, _⟩ => show win3_0.index t (0 : Fin 4) * 1 + 1 * 0 = t.val; omega
  | ⟨1, _⟩ => show win3_0.index t (1 : Fin 4) * 8 + 1 * r.val = r.val; omega
  | ⟨2, _⟩ => show win3_0.index t (2 : Fin 4) * 64 + 1 * p.val = p.val; omega
  | ⟨3, _⟩ => show win3_0.index t (3 : Fin 4) * 64 + 1 * q.val = q.val; omega

theorem sel_blk (c : Dev nD) (t : Fin cfg3.N) (n i p : Fin 64) :
    (iblk3 V c 1 t : Vec Ideal S1x64x64x64 .bf16) (ix4 (0 : Fin 1) n i p)
      = (V c main_v74 : (⟨4, ![16, 64, 64, 64]⟩ : Shape).Idx → EReal) (ix4 (slab t) n i p) := by
  obtain ⟨-, ⟨e0, e1, e2, e3⟩, -⟩ := idx_facts t
  unfold iblk3
  refine congrArg (V c main_v74) (funext fun a => Fin.ext ?_)
  match a with
  | ⟨0, _⟩ => show win3_1.index t (0 : Fin 4) * 1 + 1 * 0 = t.val; omega
  | ⟨1, _⟩ => show win3_1.index t (1 : Fin 4) * 64 + 1 * n.val = n.val; omega
  | ⟨2, _⟩ => show win3_1.index t (2 : Fin 4) * 64 + 1 * i.val = i.val; omega
  | ⟨3, _⟩ => show win3_1.index t (3 : Fin 4) * 64 + 1 * p.val = p.val; omega

theorem mask_blk (c : Dev nD) (t : Fin cfg3.N) (n i : Fin 64) :
    (iblk3 V c 2 t : Vec Ideal S1x64x64 .f32) (ix3 (0 : Fin 1) n i)
      = (V c main_v73 : (⟨3, ![16, 64, 64]⟩ : Shape).Idx → EReal) (ix3 (slab t) n i) := by
  obtain ⟨-, -, ⟨e0, e1, e2⟩, -⟩ := idx_facts t
  unfold iblk3
  refine congrArg (V c main_v73) (funext fun a => Fin.ext ?_)
  match a with
  | ⟨0, _⟩ => show win3_2.index t (0 : Fin 3) * 1 + 1 * 0 = t.val; omega
  | ⟨1, _⟩ => show win3_2.index t (1 : Fin 3) * 64 + 1 * n.val = n.val; omega
  | ⟨2, _⟩ => show win3_2.index t (2 : Fin 3) * 64 + 1 * i.val = i.val; omega

-- Row k of the array lies in the block of point k / 64.
theorem covered (i : S1024x8x64x64.Idx) :
    ∃ t : Fin cfg3.N, (cfg3.win 3).flush t = true ∧ i ∈ ((cfg3.win 3).blk t).view.set := by
  have h0 : (i 0).val < 1024 := (i 0).isLt
  have h1 : (i 1).val < 8 := (i 1).isLt
  have h2 : (i 2).val < 64 := (i 2).isLt
  have h3 : (i 3).val < 64 := (i 3).isLt
  obtain ⟨T, hT⟩ : ∃ T : Fin cfg3.N, T.val = (i 0).val / 64 :=
    ⟨⟨(i 0).val / 64, by rw [show cfg3.N = 16 from N_3]; omega⟩, rfl⟩
  obtain ⟨-, -, -, ⟨e0, e1, e2, e3⟩⟩ := idx_facts T
  refine ⟨T, flush3_3 T, ?_⟩
  show i ∈ ((View.whole main_v107).slice (win3_3.rect T)).set
  rw [View.set_slice_whole, Rect.mem_set_unit]
  intro a
  match a with
  | ⟨0, _⟩ => show win3_3.index T (0 : Fin 4) * 64 ≤ (i 0).val ∧ (i 0).val < win3_3.index T (0 : Fin 4) * 64 + 64; omega
  | ⟨1, _⟩ => show win3_3.index T (1 : Fin 4) * 8 ≤ (i 1).val ∧ (i 1).val < win3_3.index T (1 : Fin 4) * 8 + 8; omega
  | ⟨2, _⟩ => show win3_3.index T (2 : Fin 4) * 64 ≤ (i 2).val ∧ (i 2).val < win3_3.index T (2 : Fin 4) * 64 + 64; omega
  | ⟨3, _⟩ => show win3_3.index T (3 : Fin 4) * 64 ≤ (i 3).val ∧ (i 3).val < win3_3.index T (3 : Fin 4) * 64 + 64; omega

-- Point t's block is rows 64 t to 64 t + 63 of the binary-gather array, and the sixteen row blocks tile the array.
theorem final3 (c : Dev nD) : (dat3 (F := Ideal) V c).arrAt 3 cfg3.N
    = Cert.Spec.bgArr (V c main_v105) (V c main_v74) (V c main_v73) := by
  refine (dat3 (F := Ideal) V c).arrAt_eq_of_cover 3 _ (fun t _ => ?_) covered
  show (cfg3.win 3).cut (grid3.coords t) ((dat3 V c).after 3 t) = _
  rw [after3_3, out3_eq]
  obtain ⟨-, -, -, ⟨e0, e1, e2, e3⟩⟩ := idx_facts t
  funext y
  obtain ⟨n, r, i, j, rfl⟩ : ∃ (n : Fin 64) (r : Fin 8) (i j : Fin 64), y = ix4 n r i j := ⟨y 0, y 1, y 2, y 3, eq_ix4 y⟩
  rw [View.read_apply]
  show blockG (iblk3 V c 0 t) (iblk3 V c 1 t) (iblk3 V c 2 t) _
    = Cert.Spec.bgArr (V c main_v105) (V c main_v74) (V c main_v73) (((cfg3.win 3).blk t).view.emb (ix4 n r i j))
  rw [show ((cfg3.win 3).blk t).view.emb (ix4 n r i j) = ix4 (Cert.Spec.row64 (slab t) n) r i j from funext fun a => Fin.ext (by
    match a with
    | ⟨0, _⟩ => show win3_3.index t (0 : Fin 4) * 64 + 1 * n.val = t.val * 64 + n.val; omega
    | ⟨1, _⟩ => show win3_3.index t (1 : Fin 4) * 8 + 1 * r.val = r.val; omega
    | ⟨2, _⟩ => show win3_3.index t (2 : Fin 4) * 64 + 1 * i.val = i.val; omega
    | ⟨3, _⟩ => show win3_3.index t (3 : Fin 4) * 64 + 1 * j.val = j.val; omega)]
  exact blockG_slab _ _ _ _ _ _ (slab t) (rel_blk V c t) (sel_blk V c t) (mask_blk V c t) n r i j _
    (Cert.Spec.hi64_row64 _ _) (Cert.Spec.lo64_row64 _ _)

end Cert.KernelIdeal.Val.R3

end
-- ==== Proof.HostK.lean ====
import proofs.«430520_j28613072126860_3_alg».proof.Proof.PairK
import proofs.«430520_j28613072126860_3_alg».proof.Proof.Val0
import proofs.«430520_j28613072126860_3_alg».proof.Proof.Val1
import proofs.«430520_j28613072126860_3_alg».proof.Proof.Val2
import proofs.«430520_j28613072126860_3_alg».proof.Proof.Val3
import Idealize.ShloMosaic.Lib.Pipeline.Value
import Idealize.ShloMosaic.Lib.StableHlo.Run
import Idealize.ShloMosaic.Lib.ValueIdx

set_option maxRecDepth 16384

noncomputable section

namespace Cert.KernelIdeal.Val.Host

open Cert.KernelIdeal Cert.KernelIdeal.Gen Cert.KernelIdeal.Hand Cert.KernelIdeal.Val.Pair Cert.Spec Idealize.ShloMosaic Idealize.ShloMosaic.TcCoe Idealize.ShloMosaic.ValueIdx
open Idealize.SL.Sem
open scoped BigOperators

-- Row b·64+n of the flattened array is node n of batch b.
theorem cast_flat3 (x : (⟨3, ![16, 64, 512]⟩ : Shape).Idx → EReal) (h : S16x64x512.ShapeCasts S1024x512) :
    shapeCast S1024x512 x h = flat3 x := by
  funext i
  refine shapeCast_apply x h i (ix3 (hi64 (i 0)) (lo64 (i 0)) (i 1)) ?_
  rw [Shape.rowMajor_val_three, Shape.rowMajor_val_two]
  show ((i 0).val / 64 * 64 + (i 0).val % 64) * 512 + (i 1).val = (i 0).val * 512 + (i 1).val
  omega

theorem cast_rowv {n : Nat} (v : (⟨1, ![n]⟩ : Shape).Idx → EReal) (h : (⟨1, ![n]⟩ : Shape).ShapeCasts ⟨2, ![1, n]⟩) :
    shapeCast ⟨2, ![1, n]⟩ v h = rowv v := by
  funext i
  refine shapeCast_apply v h i (ix1 (i 1)) ?_
  rw [Shape.rowMajor_val_one, Shape.rowMajor_val_two]
  have h0 : (i 0).val = 0 := by have := idx2_lt0 i; omega
  show (i 1).val = (i 0).val * n + (i 1).val
  rw [h0, Nat.zero_mul, Nat.zero_add]

theorem cast_unflat8 (y : (⟨2, ![1024, 8]⟩ : Shape).Idx → EReal) (h : S1024x8.ShapeCasts S16x64x8) :
    shapeCast S16x64x8 y h = unflat8 y := by
  funext i
  refine shapeCast_apply y h i (ix2 (row64 (i 0) (i 1)) (i 2)) ?_
  rw [Shape.rowMajor_val_three, Shape.rowMajor_val_two]
  rfl

-- Pair (p, q) of the unflattened array is row p·64+q; the transpose then moves the channel axis to position 1.
theorem cast_relT (y : (⟨3, ![16, 4096, 8]⟩ : Shape).Idx → EReal) (h1 : S16x4096x8.ShapeCasts S16x64x64x8)
    (h2 : S16x64x64x8.Transposes [0, 3, 1, 2] S16x8x64x64) :
    transpose S16x8x64x64 [0, 3, 1, 2] (shapeCast S16x64x64x8 y h1) h2 = relT y := by
  funext j
  refine (transpose_apply [0, 3, 1, 2] _ h2 j (ix4 (j 0) (j 2) (j 3) (j 1)) fun b => by fin_cases b <;> rfl).trans ?_
  refine shapeCast_apply y h1 _ (ix3 (j 0) (pq64 (j 2) (j 3)) (j 1)) ?_
  rw [Shape.rowMajor_val_three, Shape.rowMajor_val_four]
  show ((j 0).val * 4096 + ((j 2).val * 64 + (j 3).val)) * 8 + (j 1).val
    = (((j 0).val * 64 + (j 2).val) * 64 + (j 3).val) * 8 + (j 1).val
  omega

-- The widening is the identity on extended reals.
theorem cast_outT (z : (⟨4, ![1024, 8, 64, 64]⟩ : Shape).Idx → EReal)
    (h : S1024x8x64x64.Transposes [0, 2, 3, 1] S1024x64x64x8) (hlt : (FTy.bf16).bits < (FTy.f32).bits) :
    (extf .f32 (transpose S1024x64x64x8 [0, 2, 3, 1] (z : FVec Ideal S1024x8x64x64 .bf16) h) hlt : FVec Ideal S1024x64x64x8 .f32)
      = outT z :=
  funext fun j => transpose_apply [0, 2, 3, 1] _ h j (ix4 (j 0) (j 3) (j 1) (j 2)) fun b => by fin_cases b <;> rfl

theorem hostOps1_v89 (X : Valuation τ sig (Elt Ideal)) :
    StableHlo.after hostOps1 X (Proc.devRef .tc main_v89) = unflat8 (X (Proc.devRef .tc main_v88)) := by
  after_results
  exact cast_unflat8 _ _
theorem hostOps2_v105 (X : Valuation τ sig (Elt Ideal)) :
    StableHlo.after hostOps2 X (Proc.devRef .tc main_v105) = relT (X (Proc.devRef .tc main_v103)) := by
  after_results
  exact cast_relT _ _ _
theorem hostOps4_v109 (X : Valuation τ sig (Elt Ideal)) :
    StableHlo.after hostOps4 X (Proc.devRef .tc main_v109) = outT (X (Proc.devRef .tc main_v107)) := by
  after_results
  exact cast_outT _ _ _

variable (m : (ℓ : Loc nD τ sig) → Buf (Elt Ideal) ℓ) (ρ : Dev nD → PrngReg) (c : Dev nD)

theorem W9_keep (b : Ref sig .tc)
    (h : b ∉ main_v88 :: main_v103 :: (written_hostOps0_4 ++ (written_hostOps1 ++ written_hostOps2))) :
    W9 m ρ c (Proc.devRef .tc b) = W4 m ρ c (Proc.devRef .tc b) := by
  simp only [List.mem_cons, List.mem_append, not_or] at h
  exact (keep_hostOps2 m ρ c b h.2.2.2.2).trans ((keep_reg1 m ρ c b h.2.1).trans ((keep_hostOps1 m ρ c b h.2.2.2.1).trans
    ((keep_reg0 m ρ c b h.1).trans (keep_hostOps0_4 m ρ c b h.2.2.1))))

theorem V5_launch (b : Ref sig .tc) (h : b ∉ written_hostOps0 ++ (written_hostOps0_1 ++ (written_hostOps0_2 ++ written_hostOps0_3))) (h' : b ∉ written_hostOps0_4) :
    V5 m ρ c b = m ((c : Thread nD τ).loc b) :=
  (keep_hostOps0_4 m ρ c b h').trans (W4_launch m ρ c b h)

theorem V7_launch (b : Ref sig .tc) (h : b ∉ written_hostOps0 ++ (written_hostOps0_1 ++ (written_hostOps0_2 ++ written_hostOps0_3))) (h' : b ∉ main_v88 :: written_hostOps0_4) (h'' : b ∉ written_hostOps1) :
    V7 m ρ c b = m ((c : Thread nD τ).loc b) :=
  (keep_hostOps1 m ρ c b h'').trans (W6_launch m ρ c b h h')

-- The unary gather's operands, read back: the node table's own operands are arguments, or reshapes of arguments.
theorem res1K (see : Fin 16 → Fin 64 → Fin 64 → Fin 64) (h : IsOneHot (W4 m ρ c (Proc.devRef .tc main_v74)) see) :
    W12 m ρ c (Proc.devRef .tc main_v106)
      = res1 (nodeP1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (m ((c : Thread nD τ).loc main_arg0)) see (W4 m ρ c (Proc.devRef .tc main_v73)) := by
  refine (keep_hostOps4 m ρ c main_v106 (by decide)).trans ((keep_reg3 m ρ c main_v106 (by decide)).trans
    ((W10_arr m ρ c 3).trans ((R2.final2 (V9 m ρ) c).trans (Eq.trans ?_ (res1_of _ _ _ _ _ _ _ _ _ _ _ _ _ _ _ _ _ _ _ _ h)))))
  refine congr (congr (congrArg ugArr ?_) (W9_keep m ρ c main_v74 (by decide))) (W9_keep m ρ c main_v73 (by decide))
  refine (keep_hostOps2 m ρ c main_v89 (by decide)).trans ((keep_reg1 m ρ c main_v89 (by decide)).trans
    ((hostOps1_v89 (W6 m ρ c)).trans (congrArg unflat8 ((W6_arr m ρ c 17).trans ((R0.final0 (V5 m ρ) c).trans ?_)))))
  refine congr (congr (congr (congr (congr (congr (congr (congr (congr (congr (congr (congr (congr (congr (congr (congr (congrArg nodeArr ?_) ?_) ?_) ?_) ?_) ?_) ?_) ?_) ?_) ?_) ?_) ?_) ?_) ?_) ?_) ?_) ?_ <;> first
    | exact V5_launch m ρ c _ (by decide) (by decide)
    | (refine Eq.trans ?_ (congrArg _ (W4_launch m ρ c _ (by decide)))
       show StableHlo.after hostOps0_4 (W4 m ρ c) _ = _
       generalize W4 m ρ c = X
       after_results_simp
       first | exact cast_rowv _ _ | exact cast_flat3 _ _)

-- The binary gather's operands, read back: the relation table's own operands are the laid-out pairs, arguments, or reshapes of arguments.
theorem res2K (see : Fin 16 → Fin 64 → Fin 64 → Fin 64) (h : IsOneHot (W4 m ρ c (Proc.devRef .tc main_v74)) see) :
    W12 m ρ c (Proc.devRef .tc main_v109)
      = res2 (edgeP1 (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)))
          (Cert.ReferenceIdeal.Read.val_main_v150 (F := Ideal) (m ((c : Thread nD τ).loc main_arg1)) (m ((c : Thread nD τ).loc main_arg2)) (m ((c : Thread nD τ).loc main_arg3))) see (W4 m ρ c (Proc.devRef .tc main_v73)) := by
  refine (hostOps4_v109 (W11 m ρ c)).trans (Eq.trans (congrArg outT ((W11_arr m ρ c 3).trans ((R3.final3 (V10 m ρ) c).trans ?_)))
    (res2_of _ _ _ _ _ _ _ _ _ _ h))
  refine congr (congr (congrArg bgArr ?_) ((keep_reg2 m ρ c main_v74 (by decide)).trans (W9_keep m ρ c main_v74 (by decide))))
    ((keep_reg2 m ρ c main_v73 (by decide)).trans (W9_keep m ρ c main_v73 (by decide)))
  refine (keep_reg2 m ρ c main_v105 (by decide)).trans ((hostOps2_v105 (W8 m ρ c)).trans
    (congrArg relT ((W8_arr m ρ c 7).trans ((R1.final1 (V7 m ρ) c).trans ?_))))
  refine congr (congr (congr (congr (congr (congr (congrArg edgeArr (pairK_eq m ρ c)) ?_) ?_) ?_) ?_) ?_) ?_ <;> first
    | exact V7_launch m ρ c _ (by decide) (by decide) (by decide)
    | (refine Eq.trans ?_ (congrArg _ (W6_launch m ρ c _ (by decide) (by decide)))
       show StableHlo.after hostOps1 (W6 m ρ c) _ = _
       after_results_simp
       exact cast_rowv _ _)

end Cert.KernelIdeal.Val.Host

end
-- ==== Proof.SeeK.lean ====
import proofs.«430520_j28613072126860_3_alg».proof.Proof.KI.Folds
import proofs.«430520_j28613072126860_3_alg».proof.Proof.RefStages
import Idealize.ShloMosaic.Lib.StableHlo.Run
import Idealize.ShloMosaic.Lib.StableHlo.Predicate
import Idealize.ShloMosaic.Lib.Pipeline.Value
import Idealize.ShloMosaic.Lib.IdealHost
import Idealize.ShloMosaic.Lib.ValueIdx

set_option maxRecDepth 16384

noncomputable section

namespace Cert.KernelIdeal.Val.See

open Cert.KernelIdeal Cert.KernelIdeal.Gen Cert.KernelIdeal.Hand Idealize.ShloMosaic Idealize.ShloMosaic.TcCoe Idealize.ShloMosaic.ValueIdx
open Idealize.ShloMosaic.StableHlo (after_cons after_nil)

section Nary3
open Idealize.ShloMosaic.StableHlo
variable {x a b y : Ref sig .tc}

theorem nary3_result' {Val : EltTy → Type}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

theorem cons3_zero {α : Fin 3 → Type} (p : α 0) (q : α 1) (r : α 2) (e : (i : Fin 0) → α i.succ.succ.succ) :
    (Fin.cons p (Fin.cons q (Fin.cons r e)) : (k : Fin 3) → α k) 0 = p := rfl
theorem cons3_one {α : Fin 3 → Type} (p : α 0) (q : α 1) (r : α 2) (e : (i : Fin 0) → α i.succ.succ.succ) :
    (Fin.cons p (Fin.cons q (Fin.cons r e)) : (k : Fin 3) → α k) 1 = q := rfl
theorem cons3_two {α : Fin 3 → Type} (p : α 0) (q : α 1) (r : α 2) (e : (i : Fin 0) → α i.succ.succ.succ) :
    (Fin.cons p (Fin.cons q (Fin.cons r e)) : (k : Fin 3) → α k) 2 = r := rfl
end Nary3

open Idealize.ShloMosaic.StableHlo in
macro "results_simp" : tactic =>
  `(tactic| (simp (disch := decide) only [after_cons, after_nil,
      nullary_result', unary_result', binary_result', ternary_result', quaternary_result', reshape_result', nary3_result', nary_result',
      nullary_result_ne', unary_result_ne', binary_result_ne', ternary_result_ne', quaternary_result_ne', reshape_result_ne',
      nary_result_ne', TRef.toBuf, TRef.ofBuf, cast_eq, cons3_zero, cons3_one, cons3_two]))

section Stages

variable {F : FTy → Type} [FloatOps F] (X : Valuation τ sig (Elt F))

theorem stage_v1 : StableHlo.after hostOps0_2 (StableHlo.after hostOps0_1 (StableHlo.after hostOps0 X)) (Proc.devRef .tc main_v1) = Cert.ReferenceIdeal.Read.val_main_v1 (F := F) (X (Proc.devRef .tc main_arg26)) := by
  results_simp
  rfl

theorem stage_v22 : StableHlo.after hostOps0_2 (StableHlo.after hostOps0_1 (StableHlo.after hostOps0 X)) (Proc.devRef .tc main_v22) = Cert.ReferenceIdeal.Read.val_main_v22 (F := F) := by
  results_simp
  rfl

theorem stage_v41 : StableHlo.after hostOps0_2 (StableHlo.after hostOps0_1 (StableHlo.after hostOps0 X)) (Proc.devRef .tc main_v41) = Cert.ReferenceIdeal.Read.val_main_v41 (F := F) := by
  results_simp
  rfl

theorem stage_v42 : StableHlo.after hostOps0_2 (StableHlo.after hostOps0_1 (StableHlo.after hostOps0 X)) (Proc.devRef .tc main_v42) = Cert.ReferenceIdeal.Read.val_main_v42 (F := F) (X (Proc.devRef .tc main_arg26)) := by
  results_simp
  rfl

theorem stage_v43 : StableHlo.after hostOps0_2 (StableHlo.after hostOps0_1 (StableHlo.after hostOps0 X)) (Proc.devRef .tc main_v43) = Cert.ReferenceIdeal.Read.val_main_v43 (F := F) (X (Proc.devRef .tc main_arg26)) := by
  results_simp
  rfl

theorem stage_v44 : StableHlo.after hostOps0_2 (StableHlo.after hostOps0_1 (StableHlo.after hostOps0 X)) (Proc.devRef .tc main_v44) = Cert.ReferenceIdeal.Read.val_main_v44 (F := F) (X (Proc.devRef .tc main_arg26)) := by
  generalize hY : StableHlo.after hostOps0_2 (StableHlo.after hostOps0_1 (StableHlo.after hostOps0 X)) = Y
  have step : Y (Proc.devRef .tc main_v44) = concatenate S16x512x3 2 [⟨S16x512x1, Y (Proc.devRef .tc main_v41)⟩,
      ⟨S16x512x1, Y (Proc.devRef .tc main_v42)⟩, ⟨S16x512x1, Y (Proc.devRef .tc main_v43)⟩] concatenates_S16x512x1_S16x512x1_S16x512x1_S16x512x3_d2 := by
    subst hY
    results_simp
    rfl
  rw [step, ← hY, stage_v41, stage_v42, stage_v43]
  rfl

theorem stage_v45 : StableHlo.after hostOps0_2 (StableHlo.after hostOps0_1 (StableHlo.after hostOps0 X)) (Proc.devRef .tc main_v45) = Cert.ReferenceIdeal.Read.val_main_v45 (F := F) (X (Proc.devRef .tc main_arg26)) := by
  generalize hY : StableHlo.after hostOps0_2 (StableHlo.after hostOps0_1 (StableHlo.after hostOps0 X)) = Y
  have step : Y (Proc.devRef .tc main_v45) = Host.scatter scatter_S16x64x64_S16x512x3_S16x512_n_012_012_2 (fun _ b => b)
      (Y (Proc.devRef .tc main_v22)) (Y (Proc.devRef .tc main_v44)) (Y (Proc.devRef .tc main_v1)) := by
    subst hY
    results_simp
    rfl
  rw [step, ← hY, stage_v22, stage_v44, stage_v1]
  rfl

end Stages

variable (m : (ℓ : Loc nD τ sig) → Buf (Elt Ideal) ℓ) (ρ : Dev nD → PrngReg) (c : Dev nD)

theorem seeK_eq : W3 m ρ c (Proc.devRef .tc main_v45)
    = Cert.ReferenceIdeal.Read.val_main_v45 (F := Ideal) (m ((c : Thread nD τ).loc main_arg26)) :=
  stage_v45 (F := Ideal) (W0 m ρ c)

set_option maxRecDepth 65536 in
set_option maxHeartbeats 8000000 in
theorem maskK_eq : W3 m ρ c (Proc.devRef .tc main_v73)
    = Cert.ReferenceIdeal.Read.val_main_v73 (F := Ideal) (m ((c : Thread nD τ).loc main_arg26)) := by
  show StableHlo.after hostOps0_2 (StableHlo.after hostOps0_1 (StableHlo.after hostOps0 (W0 m ρ c))) (Proc.devRef .tc main_v73) = _
  have hA : W0 m ρ c (Proc.devRef .tc main_arg26) = m ((c : Thread nD τ).loc main_arg26) := rfl
  rw [← hA]
  generalize W0 m ρ c = X
  results_simp
  rfl

theorem bcast_table (y : S16x64x64.Idx → BitVec 32) (b : Fin 16) (n i s : Fin 64) :
    broadcastInDim S16x64x64x64 ![0, 1, 2, 3] bcast_S16x64x64x1_S16x64x64x64_0_1_2_3
        (broadcastInDim S16x64x64x1 ![0, 1, 2] bcast_S16x64x64_S16x64x64x1_0_1_2 y) (ix4 b n i s) = y (ix3 b n i) :=
  (broadcastInDim_apply _ bcast_S16x64x64x1_S16x64x64x64_0_1_2_3 _ (ix4 b n i s) (ix4 b n i (0 : Fin 1))
    fun a => by fin_cases a <;> rfl).trans
  (broadcastInDim_apply _ bcast_S16x64x64_S16x64x64x1_0_1_2 y (ix4 b n i (0 : Fin 1)) (ix3 b n i) fun a => by fin_cases a <;> rfl)

theorem bcast_count (b : Fin 16) (n i s : Fin 64) :
    broadcastInDim S16x64x64x64 ![0, 1, 2, 3] bcast_S1x1x1x64_S16x64x64x64_0_1_2_3
        (iotaInDim S1x1x1x64 32 3 : S1x1x1x64.Idx → BitVec 32) (ix4 b n i s) = BitVec.ofNat 32 s.val :=
  broadcastInDim_apply _ bcast_S1x1x1x64_S16x64x64x64_0_1_2_3 _ (ix4 b n i s) (ix4 (0 : Fin 1) (0 : Fin 1) (0 : Fin 1) s)
    fun a => by fin_cases a <;> rfl

theorem bit_real (w : BitVec 1) : (((w.toNat : ℝ) : EReal)) = if w = 1#1 then 1 else 0 := by
  by_cases h : w = 1#1
  · rw [if_pos h, h]; norm_num
  · rw [if_neg h, eq_zero_of_ne_one h]; norm_num

theorem selK_apply (b : Fin 16) (n i s : Fin 64) :
    (W4 m ρ c (Proc.devRef .tc main_v74) : S16x64x64x64.Idx → EReal) (ix4 b n i s)
      = if (W3 m ρ c (Proc.devRef .tc main_v45) : S16x64x64.Idx → BitVec 32) (ix3 b n i) = BitVec.ofNat 32 s.val then (1 : EReal) else (0 : EReal) := by
  show (StableHlo.after hostOps0_3 (W3 m ρ c) (Proc.devRef .tc main_v74) : S16x64x64x64.Idx → EReal) (ix4 b n i s) = _
  generalize W3 m ρ c = X
  after_results
  show (((IntOp.cmpi .eq
        (broadcastInDim S16x64x64x64 ![0, 1, 2, 3] bcast_S16x64x64x1_S16x64x64x64_0_1_2_3
          (broadcastInDim S16x64x64x1 ![0, 1, 2] bcast_S16x64x64_S16x64x64x1_0_1_2 (X (Proc.devRef .tc main_v45))) (ix4 b n i s))
        (broadcastInDim S16x64x64x64 ![0, 1, 2, 3] bcast_S1x1x1x64_S16x64x64x64_0_1_2_3
          (iotaInDim S1x1x1x64 32 3 : S1x1x1x64.Idx → BitVec 32) (ix4 b n i s))).toNat : ℝ) : EReal) = _
  rw [bcast_table, bcast_count, bit_real]
  exact if_congr Idealize.ShloMosaic.StableHlo.Predicate.cmpi_eq_iff rfl rfl

end Cert.KernelIdeal.Val.See

end
-- ==== Proof.SeeRangePre.lean ====
import proofs.«430520_j28613072126860_3_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal

noncomputable section

namespace Cert.SeeRange

open Idealize.ShloMosaic Idealize.ShloMosaic.ValueIdx Cert.Pre_finite_inputs Cert.Pre_finite_inputs.Gen

instance scalarIdx_subsingleton : Subsingleton S_.Idx := ⟨fun a b => funext fun d => d.elim0⟩

-- The source endpoints of the edges, as the precondition spells them.
def sources (x26 : IVec S16x2x512 32) : IVec S16x512 32 :=
  shapeCast S16x512 (extractStridedSlice S16x1x512 ![0, 0, 0] x26 slices_S16x2x512_S16x1x512_0_0_0) shapeCasts_S16x1x512_S16x512

abbrev IsNode (z : BitVec 32) : Prop := ∃ s : Fin 64, z = BitVec.ofNat 32 s.val

-- A nonnegative signed value is the unsigned value, and a word is the word of its unsigned value.
theorem isNode_of_range (z : BitVec 32) (h0 : 0 ≤ z.toInt) (h1 : z.toInt < 64) : IsNode z := by
  have hz : z.toNat < 2 ^ 32 := z.isLt
  rw [BitVec.toInt_eq_toNat_cond] at h0 h1
  refine ⟨⟨z.toNat, by split at h0 <;> omega⟩, BitVec.eq_of_toNat_eq ?_⟩
  rw [BitVec.toNat_ofNat]
  exact (Nat.mod_eq_of_lt hz).symm

-- A conjunction that is 1 has every conjunct 1, and an "all" that is 1 has every element 1.
theorem part8_decode (a : IVec S_ 1) (v : IVec S16x512 32) (c : IVec S_ 32)
    (h : fn_part8 (F := Ideal) a v c ix0 = 1#1) :
    a ix0 = 1#1 ∧ ∀ i, (v i).toInt < (c (Shape.Idx.first h_S_)).toInt := by
  obtain ⟨ha, hr⟩ := IntOp.andi_eq_one.1 h
  refine ⟨ha, fun i => IntOp.cmpi_slt.1 ?_⟩
  exact (congrArg (IntOp.cmpi .slt (v i)) (StableHlo.Predicate.bcast_scalar bcast_S_S16x512 h_S_ c i)).symm.trans
    (Host.reduce_andi_all _ _ _ _ ix0 hr i)

-- The precondition's last two tests say that every source has a signed value in [0, 64).
theorem sources_isNode (x25 : FVec Ideal S8 .f32) (x26 : IVec S16x2x512 32) (a : IVec S_ 1) (b : FVec Ideal S64x8 .f32)
    (h : fn_part7 (F := Ideal) x25 x26 a b ix0 = 1#1) (i : S16x512.Idx) : IsNode (sources x26 i) := by
  obtain ⟨h134, hlt⟩ := part8_decode _ _ _ h
  have e0 : IntOp.cmpi .sge (sources x26 i) ((constantI S_ 32 0#32 : IVec S_ 32) (Shape.Idx.first h_S_)) = 1#1 :=
    (congrArg (IntOp.cmpi .sge (sources x26 i))
      (StableHlo.Predicate.bcast_scalar bcast_S_S16x512 h_S_ (constantI S_ 32 0#32) i)).symm.trans
      (Host.reduce_andi_all _ _ _ _ ix0 (IntOp.andi_eq_one.1 h134).2 i)
  exact isNode_of_range _ (IntOp.cmpi_sge.1 e0) (hlt i)

end Cert.SeeRange

end
-- ==== Proof.LibScatterRange.lean ====
import Idealize.ShloMosaic.PureOps.ShapeOps

namespace Cert.Lib

open Idealize.ShloMosaic

-- Each step of the fold leaves the array alone or replaces one element by an update's.
theorem scatter_set_forall {α : Type} {w : Nat} {s si u : Shape} (d : ScatterDims s si u) (Q : α → Prop)
    (x : s.Idx → α) (idx : IVec si w) (upd : u.Idx → α) (hx : ∀ i, Q (x i)) (hu : ∀ j, Q (upd j)) :
    ∀ i, Q (Host.scatter d (fun _ b => b) x idx upd i) := by
  unfold Host.scatter
  generalize List.finRange u.numel = L
  induction L generalizing x with
  | nil => exact hx
  | cons n L ih =>
    refine ih _ fun i => ?_
    beta_reduce
    generalize d.resultIdx? (u.rowMajor.symm n) idx = o
    cases o with
    | none => exact hx i
    | some k =>
      show Q (if i = k then upd (u.rowMajor.symm n) else x i)
      split
      · exact hu _
      · exact hx _

end Cert.Lib
-- ==== Proof.SeeRange.lean ====
import proofs.«430520_j28613072126860_3_alg».proof.Proof.RefStages
import proofs.«430520_j28613072126860_3_alg».proof.Proof.SeeRangePre
import proofs.«430520_j28613072126860_3_alg».proof.Proof.LibScatterRange
import Idealize.ShloMosaic.Lib.ValueIdx

noncomputable section

namespace Cert.SeeRange

open Idealize.ShloMosaic Idealize.ShloMosaic.ValueIdx Cert.ReferenceIdeal Cert.ReferenceIdeal.Read

-- Zeros with column 0 set to the node's own number hold node numbers.
theorem v22_isNode (i : S16x64x64.Idx) : IsNode (val_main_v22 (F := Ideal) i) := by
  unfold val_main_v22
  refine Cert.Lib.scatter_set_forall _ IsNode _ _ _ (fun i => ?_) (fun j => ?_) i
  · rw [val_main_v18_apply, val_main_c_2_apply]; exact ⟨0, rfl⟩
  · rw [val_main_v21_apply, val_main_v19_apply]; exact ⟨⟨(j 1).val, (j 1).isLt⟩, rfl⟩

-- A scatter that sets leaves node numbers where the operand and the updates hold node numbers.
theorem see_range {x25 x26 a b} (h : Cert.Pre_finite_inputs.fn_part7 (F := Ideal) x25 x26 a b ix0 = 1#1) (i : S16x64x64.Idx) : IsNode (val_main_v45 (F := Ideal) x26 i) := by
  unfold val_main_v45
  exact Cert.Lib.scatter_set_forall _ IsNode _ _ _ v22_isNode (sources_isNode x25 x26 a b h) i

end Cert.SeeRange

end
-- ==== Proof.GatherB.lean ====
import proofs.«430520_j28613072126860_3_alg».proof.ReferenceIdeal
import Idealize.ShloMosaic.Lib.ValueIdx
import Idealize.ShloMosaic.Lib.StableHlo.Predicate

noncomputable section

namespace Cert.ReferenceIdeal.RefValue.GB

open Cert.ReferenceIdeal Idealize.ShloMosaic Idealize.ShloMosaic.ValueIdx

section General

variable {s si t : Shape} (d : GatherDims s si t) {w : Nat} (J : t.Idx) (idx : IVec si w) (a : Fin s.rank)

-- On a batching axis the operand index is the batching coordinate alone.
theorem opIdx_batch (ha : decide (a ∈ d.operandBatchingDims) = true) : (d.operandIdx J idx a).val = d.batchCoord J a := by
  have ha := of_decide_eq_true ha
  show d.start J idx a + d.batchCoord J a + d.offCoord J a = _
  rw [d.start_batching J idx a ha, d.offCoord_eq_zero J a fun h => ((d.mem_sKept a).1 h).2 ha, Nat.zero_add, Nat.add_zero]

-- On a collapsed axis it is the clamped start alone.
theorem opIdx_start (hb : decide (a ∈ d.operandBatchingDims) = false) (hc : decide (a ∈ d.collapsedSliceDims) = true) :
    (d.operandIdx J idx a).val = d.start J idx a := by
  have hb := of_decide_eq_false hb; have hc := of_decide_eq_true hc
  show d.start J idx a + d.batchCoord J a + d.offCoord J a = _
  rw [d.batchCoord_eq_zero J a hb, d.offCoord_eq_zero J a fun h => ((d.mem_sKept a).1 h).1 hc, Nat.add_zero]

-- On an axis that is neither batching nor named by the start index it is the offset coordinate alone.
theorem opIdx_off (hb : decide (a ∈ d.operandBatchingDims) = false) (hm : decide (a ∈ d.startIndexMap) = false) :
    (d.operandIdx J idx a).val = d.offCoord J a := by
  have hb := of_decide_eq_false hb; have hm := of_decide_eq_false hm
  show d.start J idx a + d.batchCoord J a + d.offCoord J a = _
  rw [d.batchCoord_eq_zero J a hb, Nat.add_zero, show d.start J idx a = 0 from dif_neg hm, Nat.zero_add]

end General

-- A word below 64 is not negative when read signed.
theorem slt_zero_of_lt64 (s : Fin 64) : IntOp.cmpi .slt (BitVec.ofNat 32 s.val) 0#32 = 0#1 := by
  revert s; decide

-- A start-index word of a number below 64, read signed and clamped into [0, 63], is the number.
theorem clamp_small (v : BitVec 32) (s : Fin 64) (hv : v = BitVec.ofNat 32 s.val) : min v.toInt.toNat 63 = s.val := by
  have hs := s.isLt
  rw [hv, StableHlo.Predicate.toInt_ofNat_small s.val (by omega), Int.toNat_natCast]
  omega

variable [Cert.ReferenceIdeal.Facts]

abbrev gd : GatherDims S16x64x64x8 S16x64x64x64x2 S16x64x64x64x8 :=
  gather_S16x64x64x8_S16x64x64x64x2_S16x64x64x64x8_4_12_0_0_12_4_1118

-- Component c of the start index of result index J is stored at J's four leading coordinates, then c.
theorem siIdx_eq (J : S16x64x64x64x8.Idx) (c : Fin 2) : gd.siIdx J c = ix5 (J 0) (J 1) (J 2) (J 3) c := by
  funext a; refine Fin.ext ?_
  match a with
  | ⟨0, _⟩ | ⟨1, _⟩ | ⟨2, _⟩ | ⟨3, _⟩ | ⟨4, _⟩ => rfl

theorem gather190_apply {α : Type} (x : S16x64x64x8.Idx → α) (idx : IVec S16x64x64x64x2 32) (b : Fin 16) (n i j : Fin 64) (r : Fin 8) (s t : Fin 64)
    (hs : idx (ix5 b n i j (0 : Fin 2)) = BitVec.ofNat 32 s.val) (ht : idx (ix5 b n i j (1 : Fin 2)) = BitVec.ofNat 32 t.val) :
    Host.gather gather_S16x64x64x8_S16x64x64x64x2_S16x64x64x64x8_4_12_0_0_12_4_1118 x idx (ix5 b n i j r) = x (ix4 b s t r) := by
  unfold Host.gather
  refine congrArg x (funext fun a => Fin.ext ?_)
  match a with
  | ⟨0, _⟩ => exact (opIdx_batch gd _ idx 0 rfl).trans ((dif_pos (of_decide_eq_true rfl)).trans rfl)
  | ⟨1, _⟩ => exact (opIdx_start gd _ idx 1 rfl rfl).trans ((dif_pos (of_decide_eq_true rfl)).trans
      ((congrArg (fun z => min (idx z).toInt.toNat 63) (siIdx_eq _ 0)).trans (clamp_small _ s hs)))
  | ⟨2, _⟩ => exact (opIdx_start gd _ idx 2 rfl rfl).trans ((dif_pos (of_decide_eq_true rfl)).trans
      ((congrArg (fun z => min (idx z).toInt.toNat 63) (siIdx_eq _ 1)).trans (clamp_small _ t ht)))
  | ⟨3, _⟩ => exact (opIdx_off gd _ idx 3 rfl rfl).trans ((dif_pos (of_decide_eq_true rfl)).trans rfl)

end Cert.ReferenceIdeal.RefValue.GB

end
-- ==== Proof.GatherU.lean ====
import proofs.«430520_j28613072126860_3_alg».proof.Proof.GatherB

noncomputable section

namespace Cert.ReferenceIdeal.RefValue.GU

open Cert.ReferenceIdeal Idealize.ShloMosaic Idealize.ShloMosaic.ValueIdx

variable [Cert.ReferenceIdeal.Facts]

abbrev gd : GatherDims S16x64x8 S16x64x64x1 S16x64x64x8 := gather_S16x64x8_S16x64x64x1_S16x64x64x8_3_1_0_0_1_3_118

-- The start index of result index J is stored at J's three leading coordinates.
theorem siIdx_eq (J : S16x64x64x8.Idx) (c : Fin 1) : gd.siIdx J c = ix4 (J 0) (J 1) (J 2) c := by
  funext a; refine Fin.ext ?_
  match a with
  | ⟨0, _⟩ | ⟨1, _⟩ | ⟨2, _⟩ | ⟨3, _⟩ => rfl

theorem gather137_apply {α : Type} (x : S16x64x8.Idx → α) (idx : IVec S16x64x64x1 32) (b : Fin 16) (n i : Fin 64) (u : Fin 8) (s : Fin 64)
    (hs : idx (ix4 b n i (0 : Fin 1)) = BitVec.ofNat 32 s.val) :
    Host.gather gather_S16x64x8_S16x64x64x1_S16x64x64x8_3_1_0_0_1_3_118 x idx (ix4 b n i u) = x (ix3 b s u) := by
  unfold Host.gather
  refine congrArg x (funext fun a => Fin.ext ?_)
  match a with
  | ⟨0, _⟩ => exact (GB.opIdx_batch gd _ idx 0 rfl).trans ((dif_pos (of_decide_eq_true rfl)).trans rfl)
  | ⟨1, _⟩ => exact (GB.opIdx_start gd _ idx 1 rfl rfl).trans ((dif_pos (of_decide_eq_true rfl)).trans
      ((congrArg (fun z => min (idx z).toInt.toNat 63) (siIdx_eq _ 0)).trans (GB.clamp_small _ s hs)))
  | ⟨2, _⟩ => exact (GB.opIdx_off gd _ idx 2 rfl rfl).trans ((dif_pos (of_decide_eq_true rfl)).trans rfl)

end Cert.ReferenceIdeal.RefValue.GU

end
-- ==== Proof.RefNode.lean ====
import proofs.«430520_j28613072126860_3_alg».proof.Proof.RefStages
import proofs.«430520_j28613072126860_3_alg».proof.Proof.Spec2
import Idealize.ShloMosaic.PureOps.Ideal.Laws
import Idealize.ShloMosaic.Lib.IdealHost
import Idealize.ShloMosaic.Lib.ValueIdx

noncomputable section

open scoped BigOperators

namespace Cert.ReferenceIdeal.RefValue.Node

open Cert.ReferenceIdeal Cert.ReferenceIdeal.Read Cert.Spec Idealize.ShloMosaic Idealize.ShloMosaic.ValueIdx

theorem zero_word : FloatOps.ofBits (F := Ideal) .f32 0x00000000#32 = 0 := Ideal.ofBits_zero_f32
theorem one_word : FloatOps.ofBits (F := Ideal) .f32 0x3F800000#32 = 1 := Ideal.ofBits_one_f32

-- A vector is read at its one coordinate.
theorem vec_ix1 {α : Type} {n : Nat} (v : (⟨1, ![n]⟩ : Shape).Idx → α) (i : (⟨1, ![n]⟩ : Shape).Idx) : v i = v (ix1 (i 0)) :=
  congrArg v (eq_ix1 i)

-- A contraction whose left operand is known row by row, with both operand indices named by their coordinates.
theorem dot_at {M K N : Nat} {A : (⟨2, ![M, K]⟩ : Shape).Idx → EReal} {a : Fin M → Fin K → EReal}
    (hA : ∀ r k, A (ix2 r k) = a r k) (W : (⟨2, ![K, N]⟩ : Shape).Idx → EReal)
    (l : Fin K → (⟨2, ![M, K]⟩ : Shape).Idx) (ρ : Fin K → (⟨2, ![K, N]⟩ : Shape).Idx) :
    (∑ k, A (l k) * W (ρ k)) = ∑ k, a (l k 0) (l k 1) * W (ix2 (ρ k 0) (ρ k 1)) :=
  Finset.sum_congr rfl fun k _ => congrArg₂ (· * ·) ((congrArg A (eq_ix2 _)).trans (hA _ _)) (congrArg W (eq_ix2 _))

def frow (x0 : (⟨3, ![16, 64, 512]⟩ : Shape).Idx → EReal) (r : Fin 1024) : Fin 512 → EReal :=
  fun k => x0 (ix3 (hi64 r) (lo64 r) k)

theorem frow_row64 (x0 : (⟨3, ![16, 64, 512]⟩ : Shape).Idx → EReal) (b : Fin 16) (n : Fin 64) :
    frow x0 (row64 b n) = fun k => x0 (ix3 b n k) := by
  unfold frow; rw [hi64_row64, lo64_row64]

variable (x0 : (⟨S16x64x512, .f32⟩ : BufTy).Contents (Elt Ideal)) (x4 : (⟨S512x256, .f32⟩ : BufTy).Contents (Elt Ideal))
  (x5 x6 x7 x8 x9 : (⟨S256, .f32⟩ : BufTy).Contents (Elt Ideal)) (x10 : (⟨S256x128, .f32⟩ : BufTy).Contents (Elt Ideal))
  (x11 x12 x13 x14 x15 : (⟨S128, .f32⟩ : BufTy).Contents (Elt Ideal)) (x16 : (⟨S128x64, .f32⟩ : BufTy).Contents (Elt Ideal))
  (x17 : (⟨S64, .f32⟩ : BufTy).Contents (Elt Ideal)) (x18 : (⟨S64x8, .f32⟩ : BufTy).Contents (Elt Ideal))
  (x19 : (⟨S8, .f32⟩ : BufTy).Contents (Elt Ideal))

local notation "PP" => nodeP1 x4 x5 x6 x7 x8 x9 x10 x11 x12 x13 x14 x15 x16 x17 x18 x19

theorem v74_at (r : Fin 1024) (k : Fin 512) : val_main_v74 (F := Ideal) x0 (ix2 r k) = frow x0 r k :=
  shapeCast_apply x0 Gen.shapeCasts_S16x64x512_S1024x512 _ (ix3 (hi64 r) (lo64 r) k) (by
    rewrite [Shape.rowMajor_val_three, Shape.rowMajor_val_two]
    show (r.val / 64 * 64 + r.val % 64) * 512 + k.val = r.val * 512 + k.val
    omega)

theorem v94_at (r : Fin 1024) (j : Fin 256) :
    val_main_v94 (F := Ideal) x0 x4 x5 x6 x7 x8 x9 (ix2 r j) = nodeH1 PP (frow x0 r) j := by
  rw [val_main_v94_apply, val_main_v93_apply, val_main_v90_apply, val_main_v87_apply, val_main_v81_apply,
    val_main_v78_apply, val_main_v75_apply, val_main_v77_apply, val_main_v76_apply, val_main_v80_apply,
    val_main_v79_apply, val_main_v86_apply, val_main_v85_apply, val_main_v84_apply, val_main_v83_apply,
    val_main_v82_apply, val_main_cst_apply, val_main_v89_apply, val_main_v88_apply, val_main_v92_apply,
    val_main_v91_apply, val_main_call1_v0_apply, val_main_call1_cst_apply, zero_word, dot_at (v74_at x0) x4,
    vec_ix1 x5, vec_ix1 x8, vec_ix1 x9, vec_ix1 x6, vec_ix1 x7]
  rfl

theorem v114_at (r : Fin 1024) (j : Fin 128) :
    val_main_v114 (F := Ideal) x0 x4 x5 x6 x7 x8 x9 x10 x11 x12 x13 x14 x15 (ix2 r j) = nodeH2 PP (frow x0 r) j := by
  rw [val_main_v114_apply, val_main_v113_apply, val_main_v110_apply, val_main_v107_apply, val_main_v101_apply,
    val_main_v98_apply, val_main_v95_apply, val_main_v97_apply, val_main_v96_apply, val_main_v100_apply,
    val_main_v99_apply, val_main_v106_apply, val_main_v105_apply, val_main_v104_apply, val_main_v103_apply,
    val_main_v102_apply, val_main_cst_18_apply, val_main_v109_apply, val_main_v108_apply, val_main_v112_apply,
    val_main_v111_apply, val_main_call2_v0_apply, val_main_call2_cst_apply, zero_word,
    dot_at (v94_at x0 x4 x5 x6 x7 x8 x9 x10 x11 x12 x13 x14 x15 x16 x17 x18 x19) x10, vec_ix1 x11, vec_ix1 x14, vec_ix1 x15, vec_ix1 x12, vec_ix1 x13]
  rfl

theorem v119_at (r : Fin 1024) (j : Fin 64) :
    val_main_v119 (F := Ideal) x0 x4 x5 x6 x7 x8 x9 x10 x11 x12 x13 x14 x15 x16 x17 (ix2 r j) = nodeH3 PP (frow x0 r) j := by
  rw [val_main_v119_apply, val_main_v118_apply, val_main_v115_apply, val_main_v117_apply, val_main_v116_apply,
    val_main_call3_v0_apply, val_main_call3_cst_apply, zero_word,
    dot_at (v114_at x0 x4 x5 x6 x7 x8 x9 x10 x11 x12 x13 x14 x15 x16 x17 x18 x19) x16, vec_ix1 x17]
  rfl

theorem v129_at (r : Fin 1024) (u : Fin 8) :
    val_main_v129 (F := Ideal) x0 x4 x5 x6 x7 x8 x9 x10 x11 x12 x13 x14 x15 x16 x17 x18 x19 (ix2 r u) = nodeRow PP (frow x0 r) u := by
  rw [val_main_v129_apply, val_main_v128_apply, val_main_cst_20_apply, val_main_v127_apply, val_main_v126_apply,
    val_main_cst_19_apply, val_main_v125_apply, val_main_v124_apply, val_main_v123_apply, val_main_v120_apply,
    val_main_v122_apply, val_main_v121_apply, one_word,
    dot_at (v119_at x0 x4 x5 x6 x7 x8 x9 x10 x11 x12 x13 x14 x15 x16 x17 x18 x19) x18, vec_ix1 x19]
  rfl

end Cert.ReferenceIdeal.RefValue.Node

end
-- ==== Proof.RefRead1.lean ====
import proofs.«430520_j28613072126860_3_alg».proof.Proof.RefStages
import proofs.«430520_j28613072126860_3_alg».proof.Proof.Spec2
import proofs.«430520_j28613072126860_3_alg».proof.Proof.GatherU
import proofs.«430520_j28613072126860_3_alg».proof.Proof.RefNode
import Idealize.ShloMosaic.Lib.ValueIdx

noncomputable section

open scoped BigOperators

namespace Cert.ReferenceIdeal.RefValue.R1

open Cert.ReferenceIdeal Cert.ReferenceIdeal.Read Cert.Spec Idealize.ShloMosaic Idealize.ShloMosaic.ValueIdx

variable (x0 : (⟨S16x64x512, .f32⟩ : BufTy).Contents (Elt Ideal)) (x4 : (⟨S512x256, .f32⟩ : BufTy).Contents (Elt Ideal))
  (x5 x6 x7 x8 x9 : (⟨S256, .f32⟩ : BufTy).Contents (Elt Ideal)) (x10 : (⟨S256x128, .f32⟩ : BufTy).Contents (Elt Ideal))
  (x11 x12 x13 x14 x15 : (⟨S128, .f32⟩ : BufTy).Contents (Elt Ideal)) (x16 : (⟨S128x64, .f32⟩ : BufTy).Contents (Elt Ideal))
  (x17 : (⟨S64, .f32⟩ : BufTy).Contents (Elt Ideal)) (x18 : (⟨S64x8, .f32⟩ : BufTy).Contents (Elt Ideal))
  (x19 : (⟨S8, .f32⟩ : BufTy).Contents (Elt Ideal)) (x26 : (⟨S16x2x512, .i32⟩ : BufTy).Contents (Elt Ideal))
  (see : Fin 16 → Fin 64 → Fin 64 → Fin 64)

theorem v130_at (b : Fin 16) (n : Fin 64) (u : Fin 8) :
    val_main_v130 (F := Ideal) x0 x4 x5 x6 x7 x8 x9 x10 x11 x12 x13 x14 x15 x16 x17 x18 x19 (ix3 b n u)
      = nodeRow (nodeP1 x4 x5 x6 x7 x8 x9 x10 x11 x12 x13 x14 x15 x16 x17 x18 x19) (fun k => x0 (ix3 b n k)) u := by
  rw [show val_main_v130 (F := Ideal) x0 x4 x5 x6 x7 x8 x9 x10 x11 x12 x13 x14 x15 x16 x17 x18 x19 (ix3 b n u) = _ from
    shapeCast_apply _ Gen.shapeCasts_S1024x8_S16x64x8 _ (ix2 (row64 b n) u) (by
      rewrite [Shape.rowMajor_val_two, Shape.rowMajor_val_three]; rfl), Node.v129_at, Node.frow_row64]

variable (hsee : ∀ b n i, val_main_v45 (F := Ideal) x26 (ix3 b n i) = BitVec.ofNat 32 (see b n i).val)
include hsee

-- The wrap of a negative index leaves a neighbour word as it is.
theorem v136_at (b : Fin 16) (n i : Fin 64) :
    val_main_v136 (F := Ideal) x26 (ix4 b n i (0 : Fin 1)) = BitVec.ofNat 32 (see b n i).val := by
  rw [val_main_v136_apply, val_main_v135_apply, val_main_v132_apply, val_main_v131_apply, val_main_c_21_apply,
    show idx_main_v136 (ix4 b n i (0 : Fin 1)) = ix3 b n i from eq_ix3 _, hsee, GB.slt_zero_of_lt64, select_zero]

theorem ref1 : val_main_v141 (F := Ideal) x0 x4 x5 x6 x7 x8 x9 x10 x11 x12 x13 x14 x15 x16 x17 x18 x19 x26
      = res1 (nodeP1 x4 x5 x6 x7 x8 x9 x10 x11 x12 x13 x14 x15 x16 x17 x18 x19) x0 see (val_main_v73 (F := Ideal) x26) := by
  funext j
  obtain ⟨r, i, u, rfl⟩ : ∃ (r : Fin 1024) (i : Fin 64) (u : Fin 8), j = ix3 r i u := ⟨j 0, j 1, j 2, eq_ix3 j⟩
  rw [show val_main_v141 (F := Ideal) x0 x4 x5 x6 x7 x8 x9 x10 x11 x12 x13 x14 x15 x16 x17 x18 x19 x26 (ix3 r i u) = _ from
    shapeCast_apply _ Gen.shapeCasts_S16x64x64x8_S1024x64x8 _ (ix4 (hi64 r) (lo64 r) i u) (by
      rewrite [Shape.rowMajor_val_four, Shape.rowMajor_val_three]
      show ((r.val / 64 * 64 + r.val % 64) * 64 + i.val) * 8 + u.val = (r.val * 64 + i.val) * 8 + u.val
      omega), val_main_v140_apply, val_main_v139_apply, val_main_v138_apply,
    show idx_main_v138 (idx_main_v139 (ix4 (hi64 r) (lo64 r) i u)) = ix3 (hi64 r) (lo64 r) i from eq_ix3 _,
    show val_main_v137 (F := Ideal) x0 x4 x5 x6 x7 x8 x9 x10 x11 x12 x13 x14 x15 x16 x17 x18 x19 x26 (ix4 (hi64 r) (lo64 r) i u) = _ from
      GU.gather137_apply _ _ _ _ _ _ _ (v136_at x26 see hsee _ _ _), v130_at]
  rfl

end Cert.ReferenceIdeal.RefValue.R1

end
-- ==== Proof.RefEdge.lean ====
import proofs.«430520_j28613072126860_3_alg».proof.Proof.RefStages
import proofs.«430520_j28613072126860_3_alg».proof.Proof.Spec2
import Idealize.ShloMosaic.PureOps.Ideal.Laws
import Idealize.ShloMosaic.Lib.IdealHost
import Idealize.ShloMosaic.Lib.ValueIdx

noncomputable section

namespace Cert.ReferenceIdeal.RefValue.Edge

open Cert.ReferenceIdeal Cert.ReferenceIdeal.Read Cert.Spec Idealize.ShloMosaic Idealize.ShloMosaic.ValueIdx
open scoped BigOperators

def row3 (b : Fin 16) (p q : Fin 64) : Fin 65536 :=
  ⟨(b.val * 64 + p.val) * 64 + q.val, by have := b.isLt; have := p.isLt; have := q.isLt; omega⟩

variable (x1 x2 : (⟨S16x64x4, .f32⟩ : BufTy).Contents (Elt Ideal)) (x3 : (⟨S16x64, .f32⟩ : BufTy).Contents (Elt Ideal))
  (x20 : (⟨S18x64, .f32⟩ : BufTy).Contents (Elt Ideal)) (x21 : (⟨S64, .f32⟩ : BufTy).Contents (Elt Ideal))
  (x22 : (⟨S64x64, .f32⟩ : BufTy).Contents (Elt Ideal)) (x23 : (⟨S64, .f32⟩ : BufTy).Contents (Elt Ideal))
  (x24 : (⟨S64x8, .f32⟩ : BufTy).Contents (Elt Ideal)) (x25 : (⟨S8, .f32⟩ : BufTy).Contents (Elt Ideal))
  (b : Fin 16) (p q : Fin 64)

theorem v151_at (k : Fin 18) :
    val_main_v151 (F := Ideal) x1 x2 x3 (ix2 (row3 b p q) k) = val_main_v150 (F := Ideal) x1 x2 x3 (ix4 b p q k) :=
  shapeCast_apply _ Gen.shapeCasts_S16x64x64x18_S65536x18 _ _ (by
    rewrite [Shape.rowMajor_val_four, Shape.rowMajor_val_two]; rfl)

theorem ref_h1 (j : Fin 64) :
    val_main_v156 (F := Ideal) x1 x2 x3 x20 x21 (ix2 (row3 b p q) j)
      = edgeH1 (edgeP1 x20 x21 x22 x23 x24 x25) (fun k => val_main_v150 (F := Ideal) x1 x2 x3 (ix4 b p q k)) j := by
  rw [val_main_v156_apply, val_main_v155_apply, val_main_v152_apply, val_main_v154_apply, val_main_v153_apply,
    val_main_call4_v0_apply, val_main_call4_cst_apply, show idx_main_v153 (idx_main_v154 (ix2 (row3 b p q) j)) = ix1 j from eq_ix1 _]
  simp only [Ideal.maximumf_def, Ideal.addf_def, Ideal.ofBits_def, Ideal.ofBits_zero_f32]
  unfold edgeH1 relu lin
  refine congrArg (fun z => max (z + x21 (ix1 j)) 0) (Finset.sum_congr rfl fun k _ => ?_)
  rw [show lidx_main_v152 (ix2 (row3 b p q) j) k = ix2 (row3 b p q) k from eq_ix2 _, v151_at,
    show ridx_main_v152 (ix2 (row3 b p q) j) k = ix2 k j from eq_ix2 _]
  rfl

theorem ref_h2 (j : Fin 64) :
    val_main_v161 (F := Ideal) x1 x2 x3 x20 x21 x22 x23 (ix2 (row3 b p q) j)
      = edgeH2 (edgeP1 x20 x21 x22 x23 x24 x25) (fun k => val_main_v150 (F := Ideal) x1 x2 x3 (ix4 b p q k)) j := by
  rw [val_main_v161_apply, val_main_v160_apply, val_main_v157_apply, val_main_v159_apply, val_main_v158_apply,
    val_main_call5_v0_apply, val_main_call5_cst_apply, show idx_main_v158 (idx_main_v159 (ix2 (row3 b p q) j)) = ix1 j from eq_ix1 _]
  simp only [Ideal.maximumf_def, Ideal.addf_def, Ideal.ofBits_def, Ideal.ofBits_zero_f32]
  unfold edgeH2 relu lin
  refine congrArg (fun z => max (z + x23 (ix1 j)) 0) (Finset.sum_congr rfl fun k _ => ?_)
  rw [show lidx_main_v157 (ix2 (row3 b p q) j) k = ix2 (row3 b p q) k from eq_ix2 _,
    show ridx_main_v157 (ix2 (row3 b p q) j) k = ix2 k j from eq_ix2 _, ref_h1 x1 x2 x3 x20 x21 x22 x23 x24 x25 b p q k]
  rfl

theorem ref_edge_row (r : Fin 8) :
    val_main_v171 (F := Ideal) x1 x2 x3 x20 x21 x22 x23 x24 x25 (ix2 (row3 b p q) r)
      = edgeRow (edgeP1 x20 x21 x22 x23 x24 x25) (fun k => val_main_v150 (F := Ideal) x1 x2 x3 (ix4 b p q k)) r := by
  rw [val_main_v171_apply, val_main_v170_apply, val_main_cst_25_apply, val_main_v169_apply, val_main_v168_apply,
    val_main_cst_24_apply, val_main_v167_apply, val_main_v166_apply, val_main_v165_apply, val_main_v162_apply,
    val_main_v164_apply, val_main_v163_apply, show idx_main_v163 (idx_main_v164 (ix2 (row3 b p q) r)) = ix1 r from eq_ix1 _]
  simp only [Ideal.hostDivf_def, Ideal.addf_def, Ideal.ofBits_def, Ideal.ofBits_one_f32, Ideal.hostUnary_exp_def,
    Ideal.hostNegf_def, Ideal.negf_def]
  unfold edgeRow Ideal.logistic lin
  refine congrArg (fun z => Ideal.div 1 (1 + Ideal.exp (-(z + x25 (ix1 r))))) (Finset.sum_congr rfl fun k _ => ?_)
  rw [show lidx_main_v162 (ix2 (row3 b p q) r) k = ix2 (row3 b p q) k from eq_ix2 _,
    show ridx_main_v162 (ix2 (row3 b p q) r) k = ix2 k r from eq_ix2 _, ref_h2 x1 x2 x3 x20 x21 x22 x23 x24 x25 b p q k]
  rfl

end Cert.ReferenceIdeal.RefValue.Edge

end
-- ==== Proof.RefRead2.lean ====
import proofs.«430520_j28613072126860_3_alg».proof.Proof.RefStages
import proofs.«430520_j28613072126860_3_alg».proof.Proof.Spec2
import proofs.«430520_j28613072126860_3_alg».proof.Proof.GatherB
import proofs.«430520_j28613072126860_3_alg».proof.Proof.RefEdge
import Idealize.ShloMosaic.Lib.Pipeline.Value
import Idealize.ShloMosaic.Lib.ValueIdx
import Idealize.ShloMosaic.PureOps.Ideal.Laws

noncomputable section

open scoped BigOperators

namespace Cert.ReferenceIdeal.RefValue.R2

open Cert.ReferenceIdeal Cert.ReferenceIdeal.Read Cert.Spec Idealize.ShloMosaic Idealize.ShloMosaic.ValueIdx

variable (x1 x2 : (⟨S16x64x4, .f32⟩ : BufTy).Contents (Elt Ideal)) (x3 : (⟨S16x64, .f32⟩ : BufTy).Contents (Elt Ideal))
  (x20 : (⟨S18x64, .f32⟩ : BufTy).Contents (Elt Ideal)) (x21 : (⟨S64, .f32⟩ : BufTy).Contents (Elt Ideal))
  (x22 : (⟨S64x64, .f32⟩ : BufTy).Contents (Elt Ideal)) (x23 : (⟨S64, .f32⟩ : BufTy).Contents (Elt Ideal))
  (x24 : (⟨S64x8, .f32⟩ : BufTy).Contents (Elt Ideal)) (x25 : (⟨S8, .f32⟩ : BufTy).Contents (Elt Ideal))
  (x26 : (⟨S16x2x512, .i32⟩ : BufTy).Contents (Elt Ideal)) (see : Fin 16 → Fin 64 → Fin 64 → Fin 64)

theorem v172_at (b : Fin 16) (p q : Fin 64) (r : Fin 8) :
    val_main_v172 (F := Ideal) x1 x2 x3 x20 x21 x22 x23 x24 x25 (ix4 b p q r)
      = edgeRow (edgeP1 x20 x21 x22 x23 x24 x25) (fun k => val_main_v150 (F := Ideal) x1 x2 x3 (ix4 b p q k)) r := by
  rw [show val_main_v172 (F := Ideal) x1 x2 x3 x20 x21 x22 x23 x24 x25 (ix4 b p q r) = _ from
    shapeCast_apply _ Gen.shapeCasts_S65536x8_S16x64x64x8 _ (ix2 (Edge.row3 b p q) r) (by
      rewrite [Shape.rowMajor_val_two, Shape.rowMajor_val_four]; rfl), Edge.ref_edge_row]

variable (hsee : ∀ b n i, val_main_v45 (F := Ideal) x26 (ix3 b n i) = BitVec.ofNat 32 (see b n i).val)
include hsee

-- Either component of the start index is a neighbour word, which the wrap of a negative index leaves as it is.
theorem v189_zero (b : Fin 16) (n i j : Fin 64) :
    val_main_v189 (F := Ideal) x26 (ix5 b n i j (0 : Fin 2)) = BitVec.ofNat 32 (see b n i).val := by
  unfold val_main_v189
  refine Eq.trans (concatenate_pair_apply_left (t := S16x64x64x64x2) (s₁ := S16x64x64x64x1) (s₂ := S16x64x64x64x1) _ _ _ _ _ rfl
    (ix5 b n i j (0 : Fin 1)) fun a => ?_) ?_
  · match a with
    | ⟨0, _⟩ | ⟨1, _⟩ | ⟨2, _⟩ | ⟨3, _⟩ | ⟨4, _⟩ => rfl
  · rw [val_main_v187_apply, val_main_v185_apply, val_main_v179_apply, val_main_v176_apply, val_main_v175_apply,
      val_main_c_26_apply, val_main_v173_apply,
      show idx_main_v173 (idx_main_v185 (idx_main_v187 (ix5 b n i j 0))) = ix3 b n i from eq_ix3 _, hsee, GB.slt_zero_of_lt64, select_zero]

theorem v189_one (b : Fin 16) (n i j : Fin 64) :
    val_main_v189 (F := Ideal) x26 (ix5 b n i j (1 : Fin 2)) = BitVec.ofNat 32 (see b n j).val := by
  unfold val_main_v189
  refine Eq.trans (concatenate_pair_apply_right (t := S16x64x64x64x2) (s₁ := S16x64x64x64x1) (s₂ := S16x64x64x64x1) _ _ _ _ _ rfl rfl
    (ix5 b n i j (0 : Fin 1)) (fun a ha => ?_) rfl) ?_
  · match a with
    | ⟨0, _⟩ | ⟨1, _⟩ | ⟨2, _⟩ | ⟨3, _⟩ => rfl
    | ⟨4, _⟩ => exact absurd rfl ha
  · rw [val_main_v188_apply, val_main_v186_apply, val_main_v184_apply, val_main_v181_apply, val_main_v180_apply,
      val_main_c_28_apply, val_main_v174_apply,
      show idx_main_v174 (idx_main_v186 (idx_main_v188 (ix5 b n i j 0))) = ix3 b n j from eq_ix3 _, hsee, GB.slt_zero_of_lt64, select_zero]

theorem ref2 : val_main_v198 (F := Ideal) x1 x2 x3 x20 x21 x22 x23 x24 x25 x26
      = res2 (edgeP1 x20 x21 x22 x23 x24 x25) (val_main_v150 (F := Ideal) x1 x2 x3) see (val_main_v73 (F := Ideal) x26) := by
  funext i4
  obtain ⟨ρ, i, j, c, rfl⟩ : ∃ (ρ : Fin 1024) (i j : Fin 64) (c : Fin 8), i4 = ix4 ρ i j c := ⟨_, _, _, _, eq_ix4 i4⟩
  rw [show val_main_v198 (F := Ideal) x1 x2 x3 x20 x21 x22 x23 x24 x25 x26 (ix4 ρ i j c) = _ from
    shapeCast_apply _ Gen.shapeCasts_S16x64x64x64x8_S1024x64x64x8 _ (ix5 (hi64 ρ) (lo64 ρ) i j c) (by
      rewrite [Shape.rowMajor_val_five, Shape.rowMajor_val_four]
      show (((ρ.val / 64 * 64 + ρ.val % 64) * 64 + i.val) * 64 + j.val) * 8 + c.val = ((ρ.val * 64 + i.val) * 64 + j.val) * 8 + c.val
      omega), val_main_v197_apply,
    show val_main_v190 (F := Ideal) x1 x2 x3 x20 x21 x22 x23 x24 x25 x26 (ix5 (hi64 ρ) (lo64 ρ) i j c) = _ from
      GB.gather190_apply _ _ _ _ _ _ _ _ _ (v189_zero x26 see hsee _ _ _ _) (v189_one x26 see hsee _ _ _ _), v172_at,
    val_main_v196_apply, val_main_v195_apply, val_main_v193_apply, val_main_v194_apply, val_main_v191_apply, val_main_v192_apply,
    show idx_main_v191 (idx_main_v193 (idx_main_v196 (ix5 (hi64 ρ) (lo64 ρ) i j c))) = ix3 (hi64 ρ) (lo64 ρ) i from eq_ix3 _,
    show idx_main_v192 (idx_main_v194 (idx_main_v196 (ix5 (hi64 ρ) (lo64 ρ) i j c))) = ix3 (hi64 ρ) (lo64 ρ) j from eq_ix3 _]
  rfl

end Cert.ReferenceIdeal.RefValue.R2

end
-- ==== Proof.Bridge.lean ====
import proofs.«430520_j28613072126860_3_alg».proof.Defs
import proofs.«430520_j28613072126860_3_alg».proof.Proof.Gen.Pre_finite_inputs
import proofs.«430520_j28613072126860_3_alg».proof.Proof.HostK
import proofs.«430520_j28613072126860_3_alg».proof.Proof.SeeK
import proofs.«430520_j28613072126860_3_alg».proof.Proof.SeeRange
import proofs.«430520_j28613072126860_3_alg».proof.Proof.RefRead1
import proofs.«430520_j28613072126860_3_alg».proof.Proof.RefRead2
import proofs.«430520_j28613072126860_3_alg».proof.Proof.KI.Args

noncomputable section

namespace Cert.Proof.Bridge

open Cert.KernelIdeal Cert.KernelIdeal.Gen Cert.KernelIdeal.Hand Cert.KernelIdeal.Val.Host Cert.KernelIdeal.Val.See Cert.KernelIdeal.Val.Pair Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

abbrev A (c : Dev nD) (b : Ref sig .tc) : Buf (Elt Ideal) ((c : Thread nD τ).loc b) := m ((c : Thread nD τ).loc b)

def seeF (hpre : Cert.Pre_KernelIdeal m) (c : Dev nD) : Fin 16 → Fin 64 → Fin 64 → Fin 64 :=
  fun b n i => Classical.choose (Cert.SeeRange.see_range (congrFun (hpre c) ix0) (ix3 b n i))

theorem seeF_spec (hpre : Cert.Pre_KernelIdeal m) (c : Dev nD) (b : Fin 16) (n i : Fin 64) :
    Cert.ReferenceIdeal.Read.val_main_v45 (F := Ideal) (A m c main_arg26) (ix3 b n i) = BitVec.ofNat 32 (seeF m hpre c b n i).val :=
  Classical.choose_spec (Cert.SeeRange.see_range (congrFun (hpre c) ix0) (ix3 b n i))

theorem ofNat32_inj {a b : Nat} (ha : a < 64) (hb : b < 64) (e : BitVec.ofNat 32 a = BitVec.ofNat 32 b) : a = b := by
  have h := congrArg BitVec.toNat e
  rw [BitVec.toNat_ofNat, BitVec.toNat_ofNat, Nat.mod_eq_of_lt (Nat.lt_of_lt_of_le ha (by decide)),
    Nat.mod_eq_of_lt (Nat.lt_of_lt_of_le hb (by decide))] at h
  exact h

theorem sel_onehot (hpre : Cert.Pre_KernelIdeal m) (c : Dev nD) :
    IsOneHot (W4 m ρ c (Proc.devRef .tc main_v74)) (seeF m hpre c) := by
  intro b n i s
  rw [selK_apply m ρ c b n i s, seeK_eq m ρ c, seeF_spec m hpre c b n i]
  by_cases h : s = seeF m hpre c b n i
  · rw [if_pos h, if_pos (by rw [h])]
  · rw [if_neg h, if_neg]
    intro e
    exact h (Fin.ext (ofNat32_inj s.isLt (seeF m hpre c b n i).isLt e.symm))

theorem maskK (c : Dev nD) : W4 m ρ c (Proc.devRef .tc main_v73)
    = Cert.ReferenceIdeal.Read.val_main_v73 (F := Ideal) (A m c main_arg26) :=
  (keep_hostOps0_3 m ρ c main_v73 (by decide)).trans (maskK_eq m ρ c)

theorem kernel_run (hpre : Cert.Pre_KernelIdeal m) :
    θ_run defs (onTc (τ := τ) (main (F := Ideal))) ⟨m, fun _ => 0, ρ⟩ (fun r => ∀ c : Dev nD,
      r.2.mem ((c.tc : Thread nD τ).loc main_v106)
          = res1 (nodeP1 (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19)) (A m c main_arg0) (seeF m hpre c)
              (Cert.ReferenceIdeal.Read.val_main_v73 (F := Ideal) (A m c main_arg26))
      ∧ r.2.mem ((c.tc : Thread nD τ).loc main_v109)
          = res2 (edgeP1 (A m c main_arg20) (A m c main_arg21) (A m c main_arg22) (A m c main_arg23) (A m c main_arg24) (A m c main_arg25))
              (Cert.ReferenceIdeal.Read.val_main_v150 (F := Ideal) (A m c main_arg1) (A m c main_arg2) (A m c main_arg3)) (seeF m hpre c)
              (Cert.ReferenceIdeal.Read.val_main_v73 (F := Ideal) (A m c main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
      ⟨(h c _ (mem_uc main_v106 (by decide))).trans
        ((res1K m ρ c _ (sel_onehot m ρ hpre c)).trans (congrArg (res1 _ _ _) (maskK m ρ c))),
       (h c _ (mem_uc main_v109 (by decide))).trans
        ((res2K m ρ c _ (sel_onehot m ρ hpre c)).trans (congrArg (res2 _ _ _) (maskK m ρ c))),
       args_of_run m ρ r h c⟩)
    (run_all m ρ)

end Cert.Proof.Bridge

end
-- ==== Proof.lean ====
import proofs.«430520_j28613072126860_3_alg».proof.Defs
import proofs.«430520_j28613072126860_3_alg».proof.Proof.Gen.Kernel
import proofs.«430520_j28613072126860_3_alg».proof.Proof.Gen.KernelIdeal
import proofs.«430520_j28613072126860_3_alg».proof.Proof.Gen.ReferenceIdeal
import proofs.«430520_j28613072126860_3_alg».proof.Proof.RefRun
import proofs.«430520_j28613072126860_3_alg».proof.Proof.Gen.Pre_finite_inputs
import proofs.«430520_j28613072126860_3_alg».proof.Proof.K.Args
import proofs.«430520_j28613072126860_3_alg».proof.Proof.KI.Args
import proofs.«430520_j28613072126860_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference is host operations only: its run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- Both programs end at the tables of unary and binary concepts read through the neighbour table and masked. -/
theorem algebraic : Cert.algebraic_KernelIdeal_ReferenceIdeal := by
  intro m ρ m' ρ' hpre hagree
  refine ⟨_, _, Cert.Proof.Bridge.kernel_run m ρ hpre, ?_⟩
  refine (θ_run Cert.ReferenceIdeal.defs _ _).mono (fun r h c => ?_) (Cert.ReferenceIdeal.RefRun.run (F := Ideal) m' ρ')
  obtain ⟨a0, a1, a2, a3, a4, a5, a6, a7, a8, a9, a10, a11, a12, a13, a14, a15, a16, a17, a18, a19, a20, a21, a22, a23, a24, a25, a26⟩ := hagree c
  refine ⟨(h c).1.trans ?_, (h c).2.1.trans ?_, (h c).2.2⟩
  · rw [a0, a4, a5, a6, a7, a8, a9, a10, a11, a12, a13, a14, a15, a16, a17, a18, a19, a26]
    exact Cert.ReferenceIdeal.RefValue.R1.ref1 _ _ _ _ _ _ _ _ _ _ _ _ _ _ _ _ _ _ (Cert.Proof.Bridge.seeF m hpre c)
      (Cert.Proof.Bridge.seeF_spec m hpre c)
  · rw [a1, a2, a3, a20, a21, a22, a23, a24, a25, a26]
    exact Cert.ReferenceIdeal.RefValue.R2.ref2 _ _ _ _ _ _ _ _ _ _ (Cert.Proof.Bridge.seeF m hpre c)
      (Cert.Proof.Bridge.seeF_spec m hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
